-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v212)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v287) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x200000 : Shape := ⟨2, ![2, 200000]⟩
abbrev S200000x16 : Shape := ⟨2, ![200000, 16]⟩
abbrev S16x128 : Shape := ⟨2, ![16, 128]⟩
abbrev S128 : Shape := ⟨1, ![128]⟩
abbrev S3x384x128 : Shape := ⟨3, ![3, 384, 128]⟩
abbrev S3x128 : Shape := ⟨2, ![3, 128]⟩
abbrev S3x256x128 : Shape := ⟨3, ![3, 256, 128]⟩
abbrev S256x1 : Shape := ⟨2, ![256, 1]⟩
abbrev S1 : Shape := ⟨1, ![1]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S200000x16 : S_.BroadcastsInDim S200000x16 (![] : Fin 0 → Fin S200000x16.rank)
  reducesTo_S200000x16_S_d0_1 : S200000x16.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S3x384x128 : S_.BroadcastsInDim S3x384x128 (![] : Fin 0 → Fin S3x384x128.rank)
  reducesTo_S3x384x128_S_d0_1_2 : S3x384x128.ReducesTo [0, 1, 2] S_
  bcast_S_S3x128 : S_.BroadcastsInDim S3x128 (![] : Fin 0 → Fin S3x128.rank)
  reducesTo_S3x128_S_d0_1 : S3x128.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S2x200000 : S_.BroadcastsInDim S2x200000 (![] : Fin 0 → Fin S2x200000.rank)
  reducesTo_S2x200000_S_d0_1 : S2x200000.ReducesTo [0, 1] S_

variable [Facts]

def fn_part5 {F : FTy → Type} [FloatOps F] (main_arg1 : IVec S2x200000 32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_c_34 : IVec S_ 32 := constantI S_ 32 0#32
  let main_v89 : IVec S2x200000 32 := broadcastInDim S2x200000 ![] bcast_S_S2x200000 main_c_34
  let main_v90 : IVec S2x200000 1 := cmpi .sge main_arg1 main_v89
  let main_c_35 : IVec S_ 1 := constantI S_ 1 1#1
  let main_v91 : IVec S_ 1 := (fun x v => Host.reduce IntOp.andi x v reducesTo_S2x200000_S_d0_1 h_S_) main_v90 main_c_35
  let main_v92 : IVec S_ 1 := andi main_v88 main_v91
  let main_c_36 : IVec S_ 32 := constantI S_ 32 50000#32
  let main_v93 : IVec S2x200000 32 := broadcastInDim S2x200000 ![] bcast_S_S2x200000 main_c_36
  let main_v94 : IVec S2x200000 1 := cmpi .slt main_arg1 main_v93
  let main_c_37 : IVec S_ 1 := constantI S_ 1 1#1
  let main_v95 : IVec S_ 1 := (fun x v => Host.reduce IntOp.andi x v reducesTo_S2x200000_S_d0_1 h_S_) main_v94 main_c_37
  let main_v96 : IVec S_ 1 := andi main_v92 main_v95
  main_v96

def fn_part4 {F : FTy → Type} [FloatOps F] (main_arg1 : IVec S2x200000 32) (main_arg15 : FVec F S128 .f32) (main_arg16 : FVec F S128 .f32) (main_arg17 : FVec F S256x1 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x1 .f32 := Host.absf main_arg17
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_arg1 main_v83 main_v84 main_cst_32

def fn_part3 {F : FTy → Type} [FloatOps F] (main_arg1 : IVec S2x200000 32) (main_arg12 : FVec F S3x128 .f32) (main_arg13 : FVec F S128 .f32) (main_arg14 : FVec F S128 .f32) (main_arg15 : FVec F S128 .f32) (main_arg16 : FVec F S128 .f32) (main_arg17 : FVec F S256x1 .f32) (main_arg18 : FVec F S1 .f32) (main_v48 : IVec S_ 1) (main_v49 : FVec F S3x256x128 .f32) (main_v50 : FVec F S3x256x128 .f32) : IVec S_ 1 :=
  let main_v51 : IVec S3x256x128 1 := cmpf .olt main_v49 main_v50
  let main_c_19 : IVec S_ 1 := constantI S_ 1 1#1
  let main_v52 : IVec S_ 1 := (fun x v => Host.reduce IntOp.andi x v reducesTo_S3x256x128_S_d0_1_2 h_S_) main_v51 main_c_19
  let main_v53 : IVec S_ 1 := andi main_v48 main_v52
  let main_v54 : FVec F S3x128 .f32 := Host.absf main_arg12
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_v63 main_v67

def fn_part2 {F : FTy → Type} [FloatOps F] (main_arg1 : IVec S2x200000 32) (main_arg8 : FVec F S3x128 .f32) (main_arg9 : FVec F S3x256x128 .f32) (main_arg10 : FVec F S3x128 .f32) (main_arg11 : FVec F S3x256x128 .f32) (main_arg12 : FVec F S3x128 .f32) (main_arg13 : FVec F S128 .f32) (main_arg14 : FVec F S128 .f32) (main_arg15 : FVec F S128 .f32) (main_arg16 : FVec F S128 .f32) (main_arg17 : FVec F S256x1 .f32) (main_arg18 : FVec F S1 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x256x128 .f32 := Host.absf main_arg9
  let main_cst_14 : FVec F S_ .f32 := constant S_ .f32 0x7F800000#32
  let main_v40 : FVec F S3x256x128 .f32 := broadcastInDim S3x256x128 ![] bcast_S_S3x256x128 main_cst_14
  let main_v41 : IVec S3x256x128 1 := cmpf .olt main_v39 main_v40
  let main_c_15 : IVec S_ 1 := constantI S_ 1 1#1
  let main_v42 : IVec S_ 1 := (fun x v => Host.reduce IntOp.andi x v reducesTo_S3x256x128_S_d0_1_2 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x256x128 .f32 := Host.absf main_arg11
  let main_cst_18 : FVec F S_ .f32 := constant S_ .f32 0x7F800000#32
  let main_v50 : FVec F S3x256x128 .f32 := broadcastInDim S3x256x128 ![] bcast_S_S3x256x128 main_cst_18
  fn_part3 (F := F) main_arg1 main_arg12 main_arg13 main_arg14 main_arg15 main_arg16 main_arg17 main_arg18 main_v48 main_v49 main_v50

def fn_part1 {F : FTy → Type} [FloatOps F] (main_arg1 : IVec S2x200000 32) (main_arg5 : FVec F S16x128 .f32) (main_arg6 : FVec F S128 .f32) (main_arg7 : FVec F S3x384x128 .f32) (main_arg8 : FVec F S3x128 .f32) (main_arg9 : FVec F S3x256x128 .f32) (main_arg10 : FVec F S3x128 .f32) (main_arg11 : FVec F S3x256x128 .f32) (main_arg12 : FVec F S3x128 .f32) (main_arg13 : FVec F S128 .f32) (main_arg14 : FVec F S128 .f32) (main_arg15 : FVec F S128 .f32) (main_arg16 : FVec F S128 .f32) (main_arg17 : FVec F S256x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x384x128 .f32 := Host.absf main_arg7
  let main_cst_10 : FVec F S_ .f32 := constant S_ .f32 0x7F800000#32
  let main_v30 : FVec F S3x384x128 .f32 := broadcastInDim S3x384x128 ![] bcast_S_S3x384x128 main_cst_10
  let main_v31 : IVec S3x384x128 1 := cmpf .olt main_v29 main_v30
  let main_c_11 : IVec S_ 1 := constantI S_ 1 1#1
  let main_v32 : IVec S_ 1 := (fun x v => Host.reduce IntOp.andi x v reducesTo_S3x384x128_S_d0_1_2 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_v33

def fn {F : FTy → Type} [FloatOps F] (main_arg0 : FVec F S50000x16 .f32) (main_arg1 : IVec S2x200000 32) (main_arg2 : FVec F S200000x16 .f32) (main_arg3 : FVec F S16x128 .f32) (main_arg4 : FVec F S128 .f32) (main_arg5 : FVec F S16x128 .f32) (main_arg6 : FVec F S128 .f32) (main_arg7 : FVec F S3x384x128 .f32) (main_arg8 : FVec F S3x128 .f32) (main_arg9 : FVec F S3x256x128 .f32) (main_arg10 : FVec F S3x128 .f32) (main_arg11 : FVec F S3x256x128 .f32) (main_arg12 : FVec F S3x128 .f32) (main_arg13 : FVec F S128 .f32) (main_arg14 : FVec F S128 .f32) (main_arg15 : FVec F S128 .f32) (main_arg16 : FVec F S128 .f32) (main_arg17 : FVec F S256x1 .f32) (main_arg18 : FVec F S1 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S200000x16 .f32 := Host.absf main_arg2
  let main_cst_0 : FVec F S_ .f32 := constant S_ .f32 0x7F800000#32
  let main_v5 : FVec F S200000x16 .f32 := broadcastInDim S200000x16 ![] bcast_S_S200000x16 main_cst_0
  let main_v6 : IVec S200000x16 1 := cmpf .olt main_v4 main_v5
  let main_c_1 : IVec S_ 1 := constantI S_ 1 1#1
  let main_v7 : IVec S_ 1 := (fun x v => Host.reduce IntOp.andi x v reducesTo_S200000x16_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_v13 main_v16
-- ==== Kernel.lean ====
abbrev S50000x16 : Shape := ⟨2, ![50000, 16]⟩
abbrev S2x200000 : Shape := ⟨2, ![2, 200000]⟩
abbrev S200000x16 : Shape := ⟨2, ![200000, 16]⟩
abbrev S16x128 : Shape := ⟨2, ![16, 128]⟩
abbrev S128 : Shape := ⟨1, ![128]⟩
abbrev S3x384x128 : Shape := ⟨3, ![3, 384, 128]⟩
abbrev S3x128 : Shape := ⟨2, ![3, 128]⟩
abbrev S3x256x128 : Shape := ⟨3, ![3, 256, 128]⟩
abbrev S256x1 : Shape := ⟨2, ![256, 1]⟩
abbrev S1 : Shape := ⟨1, ![1]⟩
abbrev S1x200000 : Shape := ⟨2, ![1, 200000]⟩
abbrev S200000 : Shape := ⟨1, ![200000]⟩
abbrev S1x128 : Shape := ⟨2, ![1, 128]⟩
abbrev S50000x128 : Shape := ⟨2, ![50000, 128]⟩
abbrev S5000x16 : Shape := ⟨2, ![5000, 16]⟩
abbrev S5000x128 : Shape := ⟨2, ![5000, 128]⟩
abbrev S200000x128 : Shape := ⟨2, ![200000, 128]⟩
abbrev S_ : Shape := ⟨0, ![]⟩
abbrev S200000x1 : Shape := ⟨2, ![200000, 1]⟩
abbrev S1x1 : Shape := ⟨2, ![1, 1]⟩
abbrev S1x128x128 : Shape := ⟨3, ![1, 128, 128]⟩
abbrev S128x128 : Shape := ⟨2, ![128, 128]⟩
abbrev S50000x1 : Shape := ⟨2, ![50000, 1]⟩
abbrev S1x256 : Shape := ⟨2, ![1, 256]⟩

abbrev nBuf : Space → Nat
  | .hbm => 480
  | .vmem => 102
  | .smem => 0
  | _ => 0

abbrev hbmTy0_0 (i : Nat) : BufTy := match i % 128 with
  | 0 => ⟨S50000x16, .f32⟩
  | 1 => ⟨S2x200000, .i32⟩
  | 2 => ⟨S200000x16, .f32⟩
  | 3 => ⟨S16x128, .f32⟩
  | 4 => ⟨S128, .f32⟩
  | 5 => ⟨S16x128, .f32⟩
  | 6 => ⟨S128, .f32⟩
  | 7 => ⟨S3x384x128, .f32⟩
  | 8 => ⟨S3x128, .f32⟩
  | 9 => ⟨S3x256x128, .f32⟩
  | 10 => ⟨S3x128, .f32⟩
  | 11 => ⟨S3x256x128, .f32⟩
  | 12 => ⟨S3x128, .f32⟩
  | 13 => ⟨S128, .f32⟩
  | 14 => ⟨S128, .f32⟩
  | 15 => ⟨S128, .f32⟩
  | 16 => ⟨S128, .f32⟩
  | 17 => ⟨S256x1, .f32⟩
  | 18 => ⟨S1, .f32⟩
  | 19 => ⟨S1x200000, .i32⟩
  | 20 => ⟨S200000, .i32⟩
  | 21 => ⟨S1x200000, .i32⟩
  | 22 => ⟨S200000, .i32⟩
  | 23 => ⟨S1x128, .f32⟩
  | 24 => ⟨S50000x128, .f32⟩
  | 25 => ⟨S1x128, .f32⟩
  | 26 => ⟨S200000x128, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S1, .i32⟩
  | 36 => ⟨S_, .i32⟩
  | 37 => ⟨S200000x1, .i32⟩
  | 38 => ⟨S200000x1, .i1⟩
  | 39 => ⟨S1x1, .i32⟩
  | 40 => ⟨S200000x1, .i32⟩
  | 41 => ⟨S200000x1, .i1⟩
  | 42 => ⟨S200000x1, .i1⟩
  | 43 => ⟨S_, .i1⟩
  | 44 => ⟨S200000, .i1⟩
  | 45 => ⟨S200000x128, .f32⟩
  | 46 => ⟨S200000x128, .i1⟩
  | 47 => ⟨S_, .f32⟩
  | 48 => ⟨S200000x128, .f32⟩
  | 49 => ⟨S200000x128, .f32⟩
  | 50 => ⟨S_, .i32⟩
  | 51 => ⟨S200000, .i32⟩
  | 52 => ⟨S200000, .i1⟩
  | 53 => ⟨S_, .i32⟩
  | 54 => ⟨S200000, .i32⟩
  | 55 => ⟨S200000, .i32⟩
  | 56 => ⟨S200000, .i32⟩
  | 57 => ⟨S200000x1, .i32⟩
  | 58 => ⟨S1, .i32⟩
  | 59 => ⟨S_, .i32⟩
  | 60 => ⟨S200000x1, .i32⟩
  | 61 => ⟨S200000x1, .i1⟩
  | 62 => ⟨S1x1, .i32⟩
  | 63 => ⟨S200000x1, .i32⟩
  | 64 => ⟨S200000x1, .i1⟩
  | 65 => ⟨S200000x1, .i1⟩
  | 66 => ⟨S_, .i1⟩
  | 67 => ⟨S200000, .i1⟩
  | 68 => ⟨S200000x128, .f32⟩
  | 69 => ⟨S200000x128, .i1⟩
  | 70 => ⟨S_, .f32⟩
  | 71 => ⟨S200000x128, .f32⟩
  | 72 => ⟨S200000x128, .f32⟩
  | 73 => ⟨S1x128x128, .f32⟩
  | 74 => ⟨S128x128, .f32⟩
  | 75 => ⟨S1x128x128, .f32⟩
  | 76 => ⟨S128x128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S200000x128, .f32⟩
  | 83 => ⟨S1x128x128, .f32⟩
  | 84 => ⟨S128x128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S200000x128, .f32⟩
  | 91 => ⟨S_, .f32⟩
  | 92 => ⟨S50000x128, .f32⟩
  | 93 => ⟨S200000x1, .i32⟩
  | 94 => ⟨S50000x128, .f32⟩
  | 95 => ⟨S_, .f32⟩
  | 96 => ⟨S200000x1, .f32⟩
  | 97 => ⟨S_, .f32⟩
  | 98 => ⟨S50000x1, .f32⟩
  | 99 => ⟨S200000x1, .i32⟩
  | 100 => ⟨S50000x1, .f32⟩
  | 101 => ⟨S_, .f32⟩
  | 102 => ⟨S50000x1, .f32⟩
  | 103 => ⟨S50000x1, .f32⟩
  | 104 => ⟨S50000x128, .f32⟩
  | 105 => ⟨S50000x128, .f32⟩
  | 106 => ⟨S1x128x128, .f32⟩
  | 107 => ⟨S128x128, .f32⟩
  | 108 => ⟨S1x128x128, .f32⟩
  | 109 => ⟨S128x128, .f32⟩
  | 110 => ⟨S1x128, .f32⟩
  | 111 => ⟨S128, .f32⟩
  | 112 => ⟨S1x128, .f32⟩
  | 113 => ⟨S50000x128, .f32⟩
  | 114 => ⟨S_, .f32⟩
  | 115 => ⟨S128, .f32⟩
  | 116 => ⟨S_, .f32⟩
  | 117 => ⟨S128, .f32⟩
  | 118 => ⟨S128, .f32⟩
  | 119 => ⟨S_, .i32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S50000x128, .f32⟩
  | 127 => ⟨S50000x128, .f32⟩
  | _ => ⟨S50000x16, .f32⟩

abbrev hbmTy0_1 (i : Nat) : BufTy := match i % 128 with
  | 0 => ⟨S50000x128, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S_, .f32⟩
  | 9 => ⟨S_, .i1⟩
  | 10 => ⟨S_, .f32⟩
  | 11 => ⟨S_, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S_, .f32⟩
  | 18 => ⟨S128, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S128, .f32⟩
  | 32 => ⟨S_, .f32⟩
  | 33 => ⟨S128, .f32⟩
  | 34 => ⟨S128, .f32⟩
  | 35 => ⟨S_, .i32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S200000x128, .f32⟩
  | 43 => ⟨S200000x128, .f32⟩
  | 44 => ⟨S200000x128, .f32⟩
  | 45 => ⟨S_, .f32⟩
  | 46 => ⟨S_, .f32⟩
  | 47 => ⟨S_, .f32⟩
  | 48 => ⟨S_, .f32⟩
  | 49 => ⟨S128, .f32⟩
  | 50 => ⟨S128, .f32⟩
  | 51 => ⟨S128, .f32⟩
  | 52 => ⟨S_, .f32⟩
  | 53 => ⟨S_, .i1⟩
  | 54 => ⟨S_, .f32⟩
  | 55 => ⟨S_, .f32⟩
  | 56 => ⟨S128, .f32⟩
  | 57 => ⟨S128, .f32⟩
  | 58 => ⟨S1x128, .f32⟩
  | 59 => ⟨S200000x128, .f32⟩
  | 60 => ⟨S200000x128, .f32⟩
  | 61 => ⟨S_, .f32⟩
  | 62 => ⟨S128, .f32⟩
  | 63 => ⟨S128, .f32⟩
  | 64 => ⟨S128, .f32⟩
  | 65 => ⟨S1x128, .f32⟩
  | 66 => ⟨S200000x128, .f32⟩
  | 67 => ⟨S200000x128, .f32⟩
  | 68 => ⟨S1x128, .f32⟩
  | 69 => ⟨S200000x128, .f32⟩
  | 70 => ⟨S200000x128, .f32⟩
  | 71 => ⟨S1x128, .f32⟩
  | 72 => ⟨S200000x128, .f32⟩
  | 73 => ⟨S200000x128, .f32⟩
  | 74 => ⟨S_, .i32⟩
  | 75 => ⟨S200000, .i32⟩
  | 76 => ⟨S200000, .i1⟩
  | 77 => ⟨S_, .i32⟩
  | 78 => ⟨S200000, .i32⟩
  | 79 => ⟨S200000, .i32⟩
  | 80 => ⟨S200000, .i32⟩
  | 81 => ⟨S200000x1, .i32⟩
  | 82 => ⟨S1, .i32⟩
  | 83 => ⟨S_, .i32⟩
  | 84 => ⟨S200000x1, .i32⟩
  | 85 => ⟨S200000x1, .i1⟩
  | 86 => ⟨S1x1, .i32⟩
  | 87 => ⟨S200000x1, .i32⟩
  | 88 => ⟨S200000x1, .i1⟩
  | 89 => ⟨S200000x1, .i1⟩
  | 90 => ⟨S_, .i1⟩
  | 91 => ⟨S200000, .i1⟩
  | 92 => ⟨S200000x128, .f32⟩
  | 93 => ⟨S200000x128, .i1⟩
  | 94 => ⟨S_, .f32⟩
  | 95 => ⟨S200000x128, .f32⟩
  | 96 => ⟨S200000x128, .f32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S1, .i32⟩
  | 106 => ⟨S_, .i32⟩
  | 107 => ⟨S200000x1, .i32⟩
  | 108 => ⟨S200000x1, .i1⟩
  | 109 => ⟨S1x1, .i32⟩
  | 110 => ⟨S200000x1, .i32⟩
  | 111 => ⟨S200000x1, .i1⟩
  | 112 => ⟨S200000x1, .i1⟩
  | 113 => ⟨S_, .i1⟩
  | 114 => ⟨S200000, .i1⟩
  | 115 => ⟨S200000x128, .f32⟩
  | 116 => ⟨S200000x128, .i1⟩
  | 117 => ⟨S_, .f32⟩
  | 118 => ⟨S200000x128, .f32⟩
  | 119 => ⟨S200000x128, .f32⟩
  | 120 => ⟨S1x128x128, .f32⟩
  | 121 => ⟨S128x128, .f32⟩
  | 122 => ⟨S1x128x128, .f32⟩
  | 123 => ⟨S128x128, .f32⟩
  | 124 => ⟨S1x128x128, .f32⟩
  | 125 => ⟨S128x128, .f32⟩
  | 126 => ⟨S1x128, .f32⟩
  | 127 => ⟨S128, .f32⟩
  | _ => ⟨S50000x16, .f32⟩

abbrev hbmTy0_2 (i : Nat) : BufTy := match i % 128 with
  | 0 => ⟨S1x128, .f32⟩
  | 1 => ⟨S200000x128, .f32⟩
  | 2 => ⟨S1x128x128, .f32⟩
  | 3 => ⟨S128x128, .f32⟩
  | 4 => ⟨S1x128x128, .f32⟩
  | 5 => ⟨S128x128, .f32⟩
  | 6 => ⟨S1x128, .f32⟩
  | 7 => ⟨S128, .f32⟩
  | 8 => ⟨S1x128, .f32⟩
  | 9 => ⟨S200000x128, .f32⟩
  | 10 => ⟨S_, .f32⟩
  | 11 => ⟨S50000x128, .f32⟩
  | 12 => ⟨S200000x1, .i32⟩
  | 13 => ⟨S50000x128, .f32⟩
  | 14 => ⟨S_, .f32⟩
  | 15 => ⟨S200000x1, .f32⟩
  | 16 => ⟨S_, .f32⟩
  | 17 => ⟨S50000x1, .f32⟩
  | 18 => ⟨S200000x1, .i32⟩
  | 19 => ⟨S50000x1, .f32⟩
  | 20 => ⟨S_, .f32⟩
  | 21 => ⟨S50000x1, .f32⟩
  | 22 => ⟨S50000x1, .f32⟩
  | 23 => ⟨S50000x128, .f32⟩
  | 24 => ⟨S50000x128, .f32⟩
  | 25 => ⟨S1x128x128, .f32⟩
  | 26 => ⟨S128x128, .f32⟩
  | 27 => ⟨S1x128x128, .f32⟩
  | 28 => ⟨S128x128, .f32⟩
  | 29 => ⟨S1x128, .f32⟩
  | 30 => ⟨S128, .f32⟩
  | 31 => ⟨S1x128, .f32⟩
  | 32 => ⟨S50000x128, .f32⟩
  | 33 => ⟨S_, .f32⟩
  | 34 => ⟨S128, .f32⟩
  | 35 => ⟨S_, .f32⟩
  | 36 => ⟨S128, .f32⟩
  | 37 => ⟨S128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S50000x128, .f32⟩
  | 46 => ⟨S50000x128, .f32⟩
  | 47 => ⟨S50000x128, .f32⟩
  | 48 => ⟨S_, .f32⟩
  | 49 => ⟨S_, .f32⟩
  | 50 => ⟨S_, .f32⟩
  | 51 => ⟨S_, .f32⟩
  | 52 => ⟨S128, .f32⟩
  | 53 => ⟨S128, .f32⟩
  | 54 => ⟨S128, .f32⟩
  | 55 => ⟨S_, .f32⟩
  | 56 => ⟨S_, .i1⟩
  | 57 => ⟨S_, .f32⟩
  | 58 => ⟨S_, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S200000x128, .f32⟩
  | 90 => ⟨S200000x128, .f32⟩
  | 91 => ⟨S200000x128, .f32⟩
  | 92 => ⟨S_, .f32⟩
  | 93 => ⟨S_, .f32⟩
  | 94 => ⟨S_, .f32⟩
  | 95 => ⟨S_, .f32⟩
  | 96 => ⟨S128, .f32⟩
  | 97 => ⟨S128, .f32⟩
  | 98 => ⟨S128, .f32⟩
  | 99 => ⟨S_, .f32⟩
  | 100 => ⟨S_, .i1⟩
  | 101 => ⟨S_, .f32⟩
  | 102 => ⟨S_, .f32⟩
  | 103 => ⟨S128, .f32⟩
  | 104 => ⟨S128, .f32⟩
  | 105 => ⟨S1x128, .f32⟩
  | 106 => ⟨S200000x128, .f32⟩
  | 107 => ⟨S200000x128, .f32⟩
  | 108 => ⟨S_, .f32⟩
  | 109 => ⟨S128, .f32⟩
  | 110 => ⟨S128, .f32⟩
  | 111 => ⟨S128, .f32⟩
  | 112 => ⟨S1x128, .f32⟩
  | 113 => ⟨S200000x128, .f32⟩
  | 114 => ⟨S200000x128, .f32⟩
  | 115 => ⟨S1x128, .f32⟩
  | 116 => ⟨S200000x128, .f32⟩
  | 117 => ⟨S200000x128, .f32⟩
  | 118 => ⟨S1x128, .f32⟩
  | 119 => ⟨S200000x128, .f32⟩
  | 120 => ⟨S200000x128, .f32⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S50000x16, .f32⟩

abbrev hbmTy0_3 (i : Nat) : BufTy := match i % 128 with
  | 0 => ⟨S200000x1, .i32⟩
  | 1 => ⟨S1, .i32⟩
  | 2 => ⟨S_, .i32⟩
  | 3 => ⟨S200000x1, .i32⟩
  | 4 => ⟨S200000x1, .i1⟩
  | 5 => ⟨S1x1, .i32⟩
  | 6 => ⟨S200000x1, .i32⟩
  | 7 => ⟨S200000x1, .i1⟩
  | 8 => ⟨S200000x1, .i1⟩
  | 9 => ⟨S_, .i1⟩
  | 10 => ⟨S200000, .i1⟩
  | 11 => ⟨S200000x128, .f32⟩
  | 12 => ⟨S200000x128, .i1⟩
  | 13 => ⟨S_, .f32⟩
  | 14 => ⟨S200000x128, .f32⟩
  | 15 => ⟨S200000x128, .f32⟩
  | 16 => ⟨S_, .i32⟩
  | 17 => ⟨S200000, .i32⟩
  | 18 => ⟨S200000, .i1⟩
  | 19 => ⟨S_, .i32⟩
  | 20 => ⟨S200000, .i32⟩
  | 21 => ⟨S200000, .i32⟩
  | 22 => ⟨S200000, .i32⟩
  | 23 => ⟨S200000x1, .i32⟩
  | 24 => ⟨S1, .i32⟩
  | 25 => ⟨S_, .i32⟩
  | 26 => ⟨S200000x1, .i32⟩
  | 27 => ⟨S200000x1, .i1⟩
  | 28 => ⟨S1x1, .i32⟩
  | 29 => ⟨S200000x1, .i32⟩
  | 30 => ⟨S200000x1, .i1⟩
  | 31 => ⟨S200000x1, .i1⟩
  | 32 => ⟨S_, .i1⟩
  | 33 => ⟨S200000, .i1⟩
  | 34 => ⟨S200000x128, .f32⟩
  | 35 => ⟨S200000x128, .i1⟩
  | 36 => ⟨S_, .f32⟩
  | 37 => ⟨S200000x128, .f32⟩
  | 38 => ⟨S200000x128, .f32⟩
  | 39 => ⟨S1x128x128, .f32⟩
  | 40 => ⟨S128x128, .f32⟩
  | 41 => ⟨S1x128x128, .f32⟩
  | 42 => ⟨S128x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S200000x128, .f32⟩
  | 49 => ⟨S1x128x128, .f32⟩
  | 50 => ⟨S128x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S200000x128, .f32⟩
  | 57 => ⟨S_, .f32⟩
  | 58 => ⟨S50000x128, .f32⟩
  | 59 => ⟨S200000x1, .i32⟩
  | 60 => ⟨S50000x128, .f32⟩
  | 61 => ⟨S_, .f32⟩
  | 62 => ⟨S200000x1, .f32⟩
  | 63 => ⟨S_, .f32⟩
  | 64 => ⟨S50000x1, .f32⟩
  | 65 => ⟨S200000x1, .i32⟩
  | 66 => ⟨S50000x1, .f32⟩
  | 67 => ⟨S_, .f32⟩
  | 68 => ⟨S50000x1, .f32⟩
  | 69 => ⟨S50000x1, .f32⟩
  | 70 => ⟨S50000x128, .f32⟩
  | 71 => ⟨S50000x128, .f32⟩
  | 72 => ⟨S1x128x128, .f32⟩
  | 73 => ⟨S128x128, .f32⟩
  | 74 => ⟨S1x128x128, .f32⟩
  | 75 => ⟨S128x128, .f32⟩
  | 76 => ⟨S1x128, .f32⟩
  | 77 => ⟨S128, .f32⟩
  | 78 => ⟨S1x128, .f32⟩
  | 79 => ⟨S50000x128, .f32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S1x256, .f32⟩
  | 93 => ⟨S1x1, .f32⟩
  | 94 => ⟨S1x1, .f32⟩
  | 95 => ⟨S1x1, .f32⟩
  | _ => ⟨S50000x16, .f32⟩

abbrev hbmTy (i : Nat) : BufTy := match i / 128 with
  | 0 => hbmTy0_0 i
  | 1 => hbmTy0_1 i
  | 2 => hbmTy0_2 i
  | 3 => hbmTy0_3 i
  | _ => ⟨S50000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x16, .f32⟩
  | .local _ .vmem, ⟨7, _⟩ => ⟨S5000x16, .f32⟩
  | .local _ .vmem, ⟨8, _⟩ => ⟨S16x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S128x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S128x128, .f32⟩
  | .local _ .vmem, ⟨68, _⟩ => ⟨S128x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S128x128, .f32⟩
  | .local _ .vmem, ⟨79, _⟩ => ⟨S128x128, .f32⟩
  | .local _ .vmem, ⟨80, _⟩ => ⟨S128x128, .f32⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S5000x128, .f32⟩
  | .local _ .vmem, ⟨87, _⟩ => ⟨S5000x128, .f32⟩
  | .local _ .vmem, ⟨88, _⟩ => ⟨S128x128, .f32⟩
  | .local _ .vmem, ⟨89, _⟩ => ⟨S128x128, .f32⟩
  | .local _ .vmem, ⟨90, _⟩ => ⟨S1x128, .f32⟩
  | .local _ .vmem, ⟨91, _⟩ => ⟨S5000x128, .f32⟩
  | .local _ .vmem, ⟨92, _⟩ => ⟨S5000x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S5000x128, .f32⟩
  | .local _ .vmem, ⟨97, _⟩ => ⟨S128x128, .f32⟩
  | .local _ .vmem, ⟨98, _⟩ => ⟨S128x128, .f32⟩
  | .local _ .vmem, ⟨99, _⟩ => ⟨S1x128, .f32⟩
  | .local _ .vmem, ⟨100, _⟩ => ⟨S5000x128, .f32⟩
  | .local _ .vmem, ⟨101, _⟩ => ⟨S5000x128, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v8 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_cst : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_cst_0 : Ref sig .tc := ⟨.hbm, 95, rfl⟩
abbrev main_v31 : Ref sig .tc := ⟨.hbm, 96, rfl⟩
abbrev main_cst_1 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_cst_2 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_cst_3 : Ref sig .tc := ⟨.hbm, 114, rfl⟩
abbrev main_v47 : Ref sig .tc := ⟨.hbm, 115, rfl⟩
abbrev main_cst_4 : Ref sig .tc := ⟨.hbm, 116, rfl⟩
abbrev main_v48 : Ref sig .tc := ⟨.hbm, 117, rfl⟩
abbrev main_v49 : Ref sig .tc := ⟨.hbm, 118, rfl⟩
abbrev main_c : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_cst_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_cst_1 : Ref sig .tc := ⟨.hbm, 130, rfl⟩
abbrev main_call2_v8 : Ref sig .tc := ⟨.hbm, 131, rfl⟩
abbrev main_call2_cst_2 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_cst_3 : Ref sig .tc := ⟨.hbm, 136, rfl⟩
abbrev main_call2_v12 : Ref sig .tc := ⟨.hbm, 137, rfl⟩
abbrev main_call2_cst_4 : Ref sig .tc := ⟨.hbm, 138, rfl⟩
abbrev main_call2_call0_v0 : Ref sig .tc := ⟨.hbm, 139, rfl⟩
abbrev main_call2_call0_v1 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_cst_5 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_cst_6 : Ref sig .tc := ⟨.hbm, 158, rfl⟩
abbrev main_v66 : Ref sig .tc := ⟨.hbm, 159, rfl⟩
abbrev main_cst_7 : Ref sig .tc := ⟨.hbm, 160, rfl⟩
abbrev main_v67 : Ref sig .tc := ⟨.hbm, 161, rfl⟩
abbrev main_v68 : Ref sig .tc := ⟨.hbm, 162, rfl⟩
abbrev main_c_8 : Ref sig .tc := ⟨.hbm, 163, rfl⟩
abbrev main_call3_cst : Ref sig .tc := ⟨.hbm, 164, rfl⟩
abbrev main_call3_v0 : Ref sig .tc := ⟨.hbm, 165, rfl⟩
abbrev main_call3_v1 : Ref sig .tc := ⟨.hbm, 166, rfl⟩
abbrev main_call3_cst_0 : Ref sig .tc := ⟨.hbm, 167, rfl⟩
abbrev main_call3_v2 : Ref sig .tc := ⟨.hbm, 168, rfl⟩
abbrev main_call3_v3 : Ref sig .tc := ⟨.hbm, 169, rfl⟩
abbrev main_call3_v4 : Ref sig .tc := ⟨.hbm, 170, rfl⟩
abbrev main_call3_v5 : Ref sig .tc := ⟨.hbm, 171, rfl⟩
abbrev main_call3_v6 : Ref sig .tc := ⟨.hbm, 172, rfl⟩
abbrev main_call3_v7 : Ref sig .tc := ⟨.hbm, 173, rfl⟩
abbrev main_call3_cst_1 : Ref sig .tc := ⟨.hbm, 174, rfl⟩
abbrev main_call3_v8 : Ref sig .tc := ⟨.hbm, 175, rfl⟩
abbrev main_call3_cst_2 : Ref sig .tc := ⟨.hbm, 176, rfl⟩
abbrev main_call3_v9 : Ref sig .tc := ⟨.hbm, 177, rfl⟩
abbrev main_call3_v10 : Ref sig .tc := ⟨.hbm, 178, rfl⟩
abbrev main_call3_v11 : Ref sig .tc := ⟨.hbm, 179, rfl⟩
abbrev main_call3_cst_3 : Ref sig .tc := ⟨.hbm, 180, rfl⟩
abbrev main_call3_v12 : Ref sig .tc := ⟨.hbm, 181, rfl⟩
abbrev main_call3_cst_4 : Ref sig .tc := ⟨.hbm, 182, rfl⟩
abbrev main_call3_call0_v0 : Ref sig .tc := ⟨.hbm, 183, rfl⟩
abbrev main_call3_call0_v1 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_cst_9 : Ref sig .tc := ⟨.hbm, 189, rfl⟩
abbrev main_v73 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_v82 : Ref sig .tc := ⟨.hbm, 199, rfl⟩
abbrev main_v83 : Ref sig .tc := ⟨.hbm, 200, rfl⟩
abbrev main_v84 : Ref sig .tc := ⟨.hbm, 201, rfl⟩
abbrev main_call4_c : Ref sig .tc := ⟨.hbm, 202, rfl⟩
abbrev main_call4_v0 : Ref sig .tc := ⟨.hbm, 203, rfl⟩
abbrev main_call4_v1 : Ref sig .tc := ⟨.hbm, 204, rfl⟩
abbrev main_call4_c_0 : Ref sig .tc := ⟨.hbm, 205, rfl⟩
abbrev main_call4_v2 : Ref sig .tc := ⟨.hbm, 206, rfl⟩
abbrev main_call4_v3 : Ref sig .tc := ⟨.hbm, 207, rfl⟩
abbrev main_call4_v4 : Ref sig .tc := ⟨.hbm, 208, rfl⟩
abbrev main_call4_v5 : Ref sig .tc := ⟨.hbm, 209, rfl⟩
abbrev main_call4_c_1 : Ref sig .tc := ⟨.hbm, 210, rfl⟩
abbrev main_call4_c_2 : Ref sig .tc := ⟨.hbm, 211, rfl⟩
abbrev main_call4_v6 : Ref sig .tc := ⟨.hbm, 212, rfl⟩
abbrev main_call4_v7 : Ref sig .tc := ⟨.hbm, 213, rfl⟩
abbrev main_call4_v8 : Ref sig .tc := ⟨.hbm, 214, rfl⟩
abbrev main_call4_v9 : Ref sig .tc := ⟨.hbm, 215, rfl⟩
abbrev main_call4_v10 : Ref sig .tc := ⟨.hbm, 216, rfl⟩
abbrev main_call4_v11 : Ref sig .tc := ⟨.hbm, 217, rfl⟩
abbrev main_call4_c_3 : Ref sig .tc := ⟨.hbm, 218, rfl⟩
abbrev main_call4_v12 : Ref sig .tc := ⟨.hbm, 219, rfl⟩
abbrev main_call4_v13 : Ref sig .tc := ⟨.hbm, 220, rfl⟩
abbrev main_call4_v14 : Ref sig .tc := ⟨.hbm, 221, rfl⟩
abbrev main_call4_cst : Ref sig .tc := ⟨.hbm, 222, rfl⟩
abbrev main_call4_v15 : Ref sig .tc := ⟨.hbm, 223, rfl⟩
abbrev main_v85 : Ref sig .tc := ⟨.hbm, 224, rfl⟩
abbrev main_call5_c : Ref sig .tc := ⟨.hbm, 225, rfl⟩
abbrev main_call5_v0 : Ref sig .tc := ⟨.hbm, 226, rfl⟩
abbrev main_call5_v1 : Ref sig .tc := ⟨.hbm, 227, rfl⟩
abbrev main_call5_c_0 : Ref sig .tc := ⟨.hbm, 228, rfl⟩
abbrev main_call5_v2 : Ref sig .tc := ⟨.hbm, 229, rfl⟩
abbrev main_call5_v3 : Ref sig .tc := ⟨.hbm, 230, rfl⟩
abbrev main_call5_v4 : Ref sig .tc := ⟨.hbm, 231, rfl⟩
abbrev main_call5_v5 : Ref sig .tc := ⟨.hbm, 232, rfl⟩
abbrev main_call5_c_1 : Ref sig .tc := ⟨.hbm, 233, rfl⟩
abbrev main_call5_c_2 : Ref sig .tc := ⟨.hbm, 234, rfl⟩
abbrev main_call5_v6 : Ref sig .tc := ⟨.hbm, 235, rfl⟩
abbrev main_call5_v7 : Ref sig .tc := ⟨.hbm, 236, rfl⟩
abbrev main_call5_v8 : Ref sig .tc := ⟨.hbm, 237, rfl⟩
abbrev main_call5_v9 : Ref sig .tc := ⟨.hbm, 238, rfl⟩
abbrev main_call5_v10 : Ref sig .tc := ⟨.hbm, 239, rfl⟩
abbrev main_call5_v11 : Ref sig .tc := ⟨.hbm, 240, rfl⟩
abbrev main_call5_c_3 : Ref sig .tc := ⟨.hbm, 241, rfl⟩
abbrev main_call5_v12 : Ref sig .tc := ⟨.hbm, 242, rfl⟩
abbrev main_call5_v13 : Ref sig .tc := ⟨.hbm, 243, rfl⟩
abbrev main_call5_v14 : Ref sig .tc := ⟨.hbm, 244, rfl⟩
abbrev main_call5_cst : Ref sig .tc := ⟨.hbm, 245, rfl⟩
abbrev main_call5_v15 : Ref sig .tc := ⟨.hbm, 246, rfl⟩
abbrev main_v86 : Ref sig .tc := ⟨.hbm, 247, rfl⟩
abbrev main_v87 : Ref sig .tc := ⟨.hbm, 248, rfl⟩
abbrev main_v88 : Ref sig .tc := ⟨.hbm, 249, rfl⟩
abbrev main_v89 : Ref sig .tc := ⟨.hbm, 250, rfl⟩
abbrev main_v90 : Ref sig .tc := ⟨.hbm, 251, rfl⟩
abbrev main_v91 : Ref sig .tc := ⟨.hbm, 252, rfl⟩
abbrev main_v92 : Ref sig .tc := ⟨.hbm, 253, rfl⟩
abbrev main_v93 : Ref sig .tc := ⟨.hbm, 254, rfl⟩
abbrev main_v94 : Ref sig .tc := ⟨.hbm, 255, rfl⟩
abbrev main_v95 : Ref sig .tc := ⟨.hbm, 256, rfl⟩
abbrev main_v96 : Ref sig .tc := ⟨.hbm, 257, rfl⟩
abbrev main_v97 : Ref sig .tc := ⟨.hbm, 258, rfl⟩
abbrev main_v98 : Ref sig .tc := ⟨.hbm, 259, rfl⟩
abbrev main_v99 : Ref sig .tc := ⟨.hbm, 260, rfl⟩
abbrev main_v100 : Ref sig .tc := ⟨.hbm, 261, rfl⟩
abbrev main_v101 : Ref sig .tc := ⟨.hbm, 262, rfl⟩
abbrev main_v102 : Ref sig .tc := ⟨.hbm, 263, rfl⟩
abbrev main_v103 : Ref sig .tc := ⟨.hbm, 264, rfl⟩
abbrev main_v104 : Ref sig .tc := ⟨.hbm, 265, rfl⟩
abbrev main_cst_10 : Ref sig .tc := ⟨.hbm, 266, rfl⟩
abbrev main_v105 : Ref sig .tc := ⟨.hbm, 267, rfl⟩
abbrev main_v106 : Ref sig .tc := ⟨.hbm, 268, rfl⟩
abbrev main_v107 : Ref sig .tc := ⟨.hbm, 269, rfl⟩
abbrev main_cst_11 : Ref sig .tc := ⟨.hbm, 270, rfl⟩
abbrev main_v108 : Ref sig .tc := ⟨.hbm, 271, rfl⟩
abbrev main_cst_12 : Ref sig .tc := ⟨.hbm, 272, rfl⟩
abbrev main_v109 : Ref sig .tc := ⟨.hbm, 273, rfl⟩
abbrev main_v110 : Ref sig .tc := ⟨.hbm, 274, rfl⟩
abbrev main_v111 : Ref sig .tc := ⟨.hbm, 275, rfl⟩
abbrev main_cst_13 : Ref sig .tc := ⟨.hbm, 276, rfl⟩
abbrev main_v112 : Ref sig .tc := ⟨.hbm, 277, rfl⟩
abbrev main_v113 : Ref sig .tc := ⟨.hbm, 278, rfl⟩
abbrev main_v114 : Ref sig .tc := ⟨.hbm, 279, rfl⟩
abbrev main_v115 : Ref sig .tc := ⟨.hbm, 280, rfl⟩
abbrev main_v116 : Ref sig .tc := ⟨.hbm, 281, rfl⟩
abbrev main_v117 : Ref sig .tc := ⟨.hbm, 282, rfl⟩
abbrev main_v118 : Ref sig .tc := ⟨.hbm, 283, rfl⟩
abbrev main_v119 : Ref sig .tc := ⟨.hbm, 284, rfl⟩
abbrev main_v120 : Ref sig .tc := ⟨.hbm, 285, rfl⟩
abbrev main_v121 : Ref sig .tc := ⟨.hbm, 286, rfl⟩
abbrev main_v122 : Ref sig .tc := ⟨.hbm, 287, rfl⟩
abbrev main_v123 : Ref sig .tc := ⟨.hbm, 288, rfl⟩
abbrev main_cst_14 : Ref sig .tc := ⟨.hbm, 289, rfl⟩
abbrev main_v124 : Ref sig .tc := ⟨.hbm, 290, rfl⟩
abbrev main_cst_15 : Ref sig .tc := ⟨.hbm, 291, rfl⟩
abbrev main_v125 : Ref sig .tc := ⟨.hbm, 292, rfl⟩
abbrev main_v126 : Ref sig .tc := ⟨.hbm, 293, rfl⟩
abbrev main_c_16 : Ref sig .tc := ⟨.hbm, 294, rfl⟩
abbrev main_call6_cst : Ref sig .tc := ⟨.hbm, 295, rfl⟩
abbrev main_call6_v0 : Ref sig .tc := ⟨.hbm, 296, rfl⟩
abbrev main_call6_v1 : Ref sig .tc := ⟨.hbm, 297, rfl⟩
abbrev main_call6_cst_0 : Ref sig .tc := ⟨.hbm, 298, rfl⟩
abbrev main_call6_v2 : Ref sig .tc := ⟨.hbm, 299, rfl⟩
abbrev main_call6_v3 : Ref sig .tc := ⟨.hbm, 300, rfl⟩
abbrev main_call6_v4 : Ref sig .tc := ⟨.hbm, 301, rfl⟩
abbrev main_call6_v5 : Ref sig .tc := ⟨.hbm, 302, rfl⟩
abbrev main_call6_v6 : Ref sig .tc := ⟨.hbm, 303, rfl⟩
abbrev main_call6_v7 : Ref sig .tc := ⟨.hbm, 304, rfl⟩
abbrev main_call6_cst_1 : Ref sig .tc := ⟨.hbm, 305, rfl⟩
abbrev main_call6_v8 : Ref sig .tc := ⟨.hbm, 306, rfl⟩
abbrev main_call6_cst_2 : Ref sig .tc := ⟨.hbm, 307, rfl⟩
abbrev main_call6_v9 : Ref sig .tc := ⟨.hbm, 308, rfl⟩
abbrev main_call6_v10 : Ref sig .tc := ⟨.hbm, 309, rfl⟩
abbrev main_call6_v11 : Ref sig .tc := ⟨.hbm, 310, rfl⟩
abbrev main_call6_cst_3 : Ref sig .tc := ⟨.hbm, 311, rfl⟩
abbrev main_call6_v12 : Ref sig .tc := ⟨.hbm, 312, rfl⟩
abbrev main_call6_cst_4 : Ref sig .tc := ⟨.hbm, 313, rfl⟩
abbrev main_call6_call0_v0 : Ref sig .tc := ⟨.hbm, 314, rfl⟩
abbrev main_call6_call0_v1 : Ref sig .tc := ⟨.hbm, 315, rfl⟩
abbrev main_v127 : Ref sig .tc := ⟨.hbm, 316, rfl⟩
abbrev main_v128 : Ref sig .tc := ⟨.hbm, 317, rfl⟩
abbrev main_v129 : Ref sig .tc := ⟨.hbm, 318, rfl⟩
abbrev main_v130 : Ref sig .tc := ⟨.hbm, 319, rfl⟩
abbrev main_cst_17 : Ref sig .tc := ⟨.hbm, 320, rfl⟩
abbrev main_v131 : Ref sig .tc := ⟨.hbm, 321, rfl⟩
abbrev main_v132 : Ref sig .tc := ⟨.hbm, 322, rfl⟩
abbrev main_v133 : Ref sig .tc := ⟨.hbm, 323, rfl⟩
abbrev main_v134 : Ref sig .tc := ⟨.hbm, 324, rfl⟩
abbrev main_v135 : Ref sig .tc := ⟨.hbm, 325, rfl⟩
abbrev main_v136 : Ref sig .tc := ⟨.hbm, 326, rfl⟩
abbrev main_v137 : Ref sig .tc := ⟨.hbm, 327, rfl⟩
abbrev main_v138 : Ref sig .tc := ⟨.hbm, 328, rfl⟩
abbrev main_v139 : Ref sig .tc := ⟨.hbm, 329, rfl⟩
abbrev main_v140 : Ref sig .tc := ⟨.hbm, 330, rfl⟩
abbrev main_v141 : Ref sig .tc := ⟨.hbm, 331, rfl⟩
abbrev main_v142 : Ref sig .tc := ⟨.hbm, 332, rfl⟩
abbrev main_cst_18 : Ref sig .tc := ⟨.hbm, 333, rfl⟩
abbrev main_v143 : Ref sig .tc := ⟨.hbm, 334, rfl⟩
abbrev main_cst_19 : Ref sig .tc := ⟨.hbm, 335, rfl⟩
abbrev main_v144 : Ref sig .tc := ⟨.hbm, 336, rfl⟩
abbrev main_v145 : Ref sig .tc := ⟨.hbm, 337, rfl⟩
abbrev main_c_20 : Ref sig .tc := ⟨.hbm, 338, rfl⟩
abbrev main_call7_cst : Ref sig .tc := ⟨.hbm, 339, rfl⟩
abbrev main_call7_v0 : Ref sig .tc := ⟨.hbm, 340, rfl⟩
abbrev main_call7_v1 : Ref sig .tc := ⟨.hbm, 341, rfl⟩
abbrev main_call7_cst_0 : Ref sig .tc := ⟨.hbm, 342, rfl⟩
abbrev main_call7_v2 : Ref sig .tc := ⟨.hbm, 343, rfl⟩
abbrev main_call7_v3 : Ref sig .tc := ⟨.hbm, 344, rfl⟩
abbrev main_call7_v4 : Ref sig .tc := ⟨.hbm, 345, rfl⟩
abbrev main_call7_v5 : Ref sig .tc := ⟨.hbm, 346, rfl⟩
abbrev main_call7_v6 : Ref sig .tc := ⟨.hbm, 347, rfl⟩
abbrev main_call7_v7 : Ref sig .tc := ⟨.hbm, 348, rfl⟩
abbrev main_call7_cst_1 : Ref sig .tc := ⟨.hbm, 349, rfl⟩
abbrev main_call7_v8 : Ref sig .tc := ⟨.hbm, 350, rfl⟩
abbrev main_call7_cst_2 : Ref sig .tc := ⟨.hbm, 351, rfl⟩
abbrev main_call7_v9 : Ref sig .tc := ⟨.hbm, 352, rfl⟩
abbrev main_call7_v10 : Ref sig .tc := ⟨.hbm, 353, rfl⟩
abbrev main_call7_v11 : Ref sig .tc := ⟨.hbm, 354, rfl⟩
abbrev main_call7_cst_3 : Ref sig .tc := ⟨.hbm, 355, rfl⟩
abbrev main_call7_v12 : Ref sig .tc := ⟨.hbm, 356, rfl⟩
abbrev main_call7_cst_4 : Ref sig .tc := ⟨.hbm, 357, rfl⟩
abbrev main_call7_call0_v0 : Ref sig .tc := ⟨.hbm, 358, rfl⟩
abbrev main_call7_call0_v1 : Ref sig .tc := ⟨.hbm, 359, rfl⟩
abbrev main_v146 : Ref sig .tc := ⟨.hbm, 360, rfl⟩
abbrev main_v147 : Ref sig .tc := ⟨.hbm, 361, rfl⟩
abbrev main_v148 : Ref sig .tc := ⟨.hbm, 362, rfl⟩
abbrev main_v149 : Ref sig .tc := ⟨.hbm, 363, rfl⟩
abbrev main_cst_21 : Ref sig .tc := ⟨.hbm, 364, rfl⟩
abbrev main_v150 : Ref sig .tc := ⟨.hbm, 365, rfl⟩
abbrev main_v151 : Ref sig .tc := ⟨.hbm, 366, rfl⟩
abbrev main_v152 : Ref sig .tc := ⟨.hbm, 367, rfl⟩
abbrev main_v153 : Ref sig .tc := ⟨.hbm, 368, rfl⟩
abbrev main_v154 : Ref sig .tc := ⟨.hbm, 369, rfl⟩
abbrev main_v155 : Ref sig .tc := ⟨.hbm, 370, rfl⟩
abbrev main_v156 : Ref sig .tc := ⟨.hbm, 371, rfl⟩
abbrev main_v157 : Ref sig .tc := ⟨.hbm, 372, rfl⟩
abbrev main_v158 : Ref sig .tc := ⟨.hbm, 373, rfl⟩
abbrev main_v159 : Ref sig .tc := ⟨.hbm, 374, rfl⟩
abbrev main_v160 : Ref sig .tc := ⟨.hbm, 375, rfl⟩
abbrev main_v161 : Ref sig .tc := ⟨.hbm, 376, rfl⟩
abbrev main_call8_c : Ref sig .tc := ⟨.hbm, 377, rfl⟩
abbrev main_call8_v0 : Ref sig .tc := ⟨.hbm, 378, rfl⟩
abbrev main_call8_v1 : Ref sig .tc := ⟨.hbm, 379, rfl⟩
abbrev main_call8_c_0 : Ref sig .tc := ⟨.hbm, 380, rfl⟩
abbrev main_call8_v2 : Ref sig .tc := ⟨.hbm, 381, rfl⟩
abbrev main_call8_v3 : Ref sig .tc := ⟨.hbm, 382, rfl⟩
abbrev main_call8_v4 : Ref sig .tc := ⟨.hbm, 383, rfl⟩
abbrev main_call8_v5 : Ref sig .tc := ⟨.hbm, 384, rfl⟩
abbrev main_call8_c_1 : Ref sig .tc := ⟨.hbm, 385, rfl⟩
abbrev main_call8_c_2 : Ref sig .tc := ⟨.hbm, 386, rfl⟩
abbrev main_call8_v6 : Ref sig .tc := ⟨.hbm, 387, rfl⟩
abbrev main_call8_v7 : Ref sig .tc := ⟨.hbm, 388, rfl⟩
abbrev main_call8_v8 : Ref sig .tc := ⟨.hbm, 389, rfl⟩
abbrev main_call8_v9 : Ref sig .tc := ⟨.hbm, 390, rfl⟩
abbrev main_call8_v10 : Ref sig .tc := ⟨.hbm, 391, rfl⟩
abbrev main_call8_v11 : Ref sig .tc := ⟨.hbm, 392, rfl⟩
abbrev main_call8_c_3 : Ref sig .tc := ⟨.hbm, 393, rfl⟩
abbrev main_call8_v12 : Ref sig .tc := ⟨.hbm, 394, rfl⟩
abbrev main_call8_v13 : Ref sig .tc := ⟨.hbm, 395, rfl⟩
abbrev main_call8_v14 : Ref sig .tc := ⟨.hbm, 396, rfl⟩
abbrev main_call8_cst : Ref sig .tc := ⟨.hbm, 397, rfl⟩
abbrev main_call8_v15 : Ref sig .tc := ⟨.hbm, 398, rfl⟩
abbrev main_v162 : Ref sig .tc := ⟨.hbm, 399, rfl⟩
abbrev main_call9_c : Ref sig .tc := ⟨.hbm, 400, rfl⟩
abbrev main_call9_v0 : Ref sig .tc := ⟨.hbm, 401, rfl⟩
abbrev main_call9_v1 : Ref sig .tc := ⟨.hbm, 402, rfl⟩
abbrev main_call9_c_0 : Ref sig .tc := ⟨.hbm, 403, rfl⟩
abbrev main_call9_v2 : Ref sig .tc := ⟨.hbm, 404, rfl⟩
abbrev main_call9_v3 : Ref sig .tc := ⟨.hbm, 405, rfl⟩
abbrev main_call9_v4 : Ref sig .tc := ⟨.hbm, 406, rfl⟩
abbrev main_call9_v5 : Ref sig .tc := ⟨.hbm, 407, rfl⟩
abbrev main_call9_c_1 : Ref sig .tc := ⟨.hbm, 408, rfl⟩
abbrev main_call9_c_2 : Ref sig .tc := ⟨.hbm, 409, rfl⟩
abbrev main_call9_v6 : Ref sig .tc := ⟨.hbm, 410, rfl⟩
abbrev main_call9_v7 : Ref sig .tc := ⟨.hbm, 411, rfl⟩
abbrev main_call9_v8 : Ref sig .tc := ⟨.hbm, 412, rfl⟩
abbrev main_call9_v9 : Ref sig .tc := ⟨.hbm, 413, rfl⟩
abbrev main_call9_v10 : Ref sig .tc := ⟨.hbm, 414, rfl⟩
abbrev main_call9_v11 : Ref sig .tc := ⟨.hbm, 415, rfl⟩
abbrev main_call9_c_3 : Ref sig .tc := ⟨.hbm, 416, rfl⟩
abbrev main_call9_v12 : Ref sig .tc := ⟨.hbm, 417, rfl⟩
abbrev main_call9_v13 : Ref sig .tc := ⟨.hbm, 418, rfl⟩
abbrev main_call9_v14 : Ref sig .tc := ⟨.hbm, 419, rfl⟩
abbrev main_call9_cst : Ref sig .tc := ⟨.hbm, 420, rfl⟩
abbrev main_call9_v15 : Ref sig .tc := ⟨.hbm, 421, rfl⟩
abbrev main_v163 : Ref sig .tc := ⟨.hbm, 422, rfl⟩
abbrev main_v164 : Ref sig .tc := ⟨.hbm, 423, rfl⟩
abbrev main_v165 : Ref sig .tc := ⟨.hbm, 424, rfl⟩
abbrev main_v166 : Ref sig .tc := ⟨.hbm, 425, rfl⟩
abbrev main_v167 : Ref sig .tc := ⟨.hbm, 426, rfl⟩
abbrev main_v168 : Ref sig .tc := ⟨.hbm, 427, rfl⟩
abbrev main_v169 : Ref sig .tc := ⟨.hbm, 428, rfl⟩
abbrev main_v170 : Ref sig .tc := ⟨.hbm, 429, rfl⟩
abbrev main_v171 : Ref sig .tc := ⟨.hbm, 430, rfl⟩
abbrev main_v172 : Ref sig .tc := ⟨.hbm, 431, rfl⟩
abbrev main_v173 : Ref sig .tc := ⟨.hbm, 432, rfl⟩
abbrev main_v174 : Ref sig .tc := ⟨.hbm, 433, rfl⟩
abbrev main_v175 : Ref sig .tc := ⟨.hbm, 434, rfl⟩
abbrev main_v176 : Ref sig .tc := ⟨.hbm, 435, rfl⟩
abbrev main_v177 : Ref sig .tc := ⟨.hbm, 436, rfl⟩
abbrev main_v178 : Ref sig .tc := ⟨.hbm, 437, rfl⟩
abbrev main_v179 : Ref sig .tc := ⟨.hbm, 438, rfl⟩
abbrev main_v180 : Ref sig .tc := ⟨.hbm, 439, rfl⟩
abbrev main_v181 : Ref sig .tc := ⟨.hbm, 440, rfl⟩
abbrev main_cst_22 : Ref sig .tc := ⟨.hbm, 441, rfl⟩
abbrev main_v182 : Ref sig .tc := ⟨.hbm, 442, rfl⟩
abbrev main_v183 : Ref sig .tc := ⟨.hbm, 443, rfl⟩
abbrev main_v184 : Ref sig .tc := ⟨.hbm, 444, rfl⟩
abbrev main_cst_23 : Ref sig .tc := ⟨.hbm, 445, rfl⟩
abbrev main_v185 : Ref sig .tc := ⟨.hbm, 446, rfl⟩
abbrev main_cst_24 : Ref sig .tc := ⟨.hbm, 447, rfl⟩
abbrev main_v186 : Ref sig .tc := ⟨.hbm, 448, rfl⟩
abbrev main_v187 : Ref sig .tc := ⟨.hbm, 449, rfl⟩
abbrev main_v188 : Ref sig .tc := ⟨.hbm, 450, rfl⟩
abbrev main_cst_25 : Ref sig .tc := ⟨.hbm, 451, rfl⟩
abbrev main_v189 : Ref sig .tc := ⟨.hbm, 452, rfl⟩
abbrev main_v190 : Ref sig .tc := ⟨.hbm, 453, rfl⟩
abbrev main_v191 : Ref sig .tc := ⟨.hbm, 454, rfl⟩
abbrev main_v192 : Ref sig .tc := ⟨.hbm, 455, rfl⟩
abbrev main_v193 : Ref sig .tc := ⟨.hbm, 456, rfl⟩
abbrev main_v194 : Ref sig .tc := ⟨.hbm, 457, rfl⟩
abbrev main_v195 : Ref sig .tc := ⟨.hbm, 458, rfl⟩
abbrev main_v196 : Ref sig .tc := ⟨.hbm, 459, rfl⟩
abbrev main_v197 : Ref sig .tc := ⟨.hbm, 460, rfl⟩
abbrev main_v198 : Ref sig .tc := ⟨.hbm, 461, rfl⟩
abbrev main_v199 : Ref sig .tc := ⟨.hbm, 462, rfl⟩
abbrev main_v200 : Ref sig .tc := ⟨.hbm, 463, rfl⟩
abbrev main_cst_26 : Ref sig .tc := ⟨.hbm, 464, rfl⟩
abbrev main_v201 : Ref sig .tc := ⟨.hbm, 465, rfl⟩
abbrev main_v202 : Ref sig .tc := ⟨.hbm, 466, rfl⟩
abbrev main_cst_27 : Ref sig .tc := ⟨.hbm, 467, rfl⟩
abbrev main_v203 : Ref sig .tc := ⟨.hbm, 468, rfl⟩
abbrev main_v204 : Ref sig .tc := ⟨.hbm, 469, rfl⟩
abbrev main_cst_28 : Ref sig .tc := ⟨.hbm, 470, rfl⟩
abbrev main_v205 : Ref sig .tc := ⟨.hbm, 471, rfl⟩
abbrev main_v206 : Ref sig .tc := ⟨.hbm, 472, rfl⟩
abbrev main_cst_29 : Ref sig .tc := ⟨.hbm, 473, rfl⟩
abbrev main_v207 : Ref sig .tc := ⟨.hbm, 474, rfl⟩
abbrev main_v208 : Ref sig .tc := ⟨.hbm, 475, rfl⟩
abbrev main_v209 : Ref sig .tc := ⟨.hbm, 476, rfl⟩
abbrev main_v210 : Ref sig .tc := ⟨.hbm, 477, rfl⟩
abbrev main_v211 : Ref sig .tc := ⟨.hbm, 478, rfl⟩
abbrev main_v212 : Ref sig .tc := ⟨.hbm, 479, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg2_1 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg5_0 : Ref sig .tc := ⟨.vmem, 80, rfl⟩
abbrev cc8_stg6_0 : Ref sig .tc := ⟨.vmem, 81, rfl⟩
abbrev cc8_stg7_0 : Ref sig .tc := ⟨.vmem, 82, rfl⟩
abbrev cc8_stg7_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg1_1 : Ref sig .tc := ⟨.vmem, 87, rfl⟩
abbrev cc9_stg2_0 : Ref sig .tc := ⟨.vmem, 88, rfl⟩
abbrev cc9_stg3_0 : Ref sig .tc := ⟨.vmem, 89, rfl⟩
abbrev cc9_stg4_0 : Ref sig .tc := ⟨.vmem, 90, rfl⟩
abbrev cc9_stg5_0 : Ref sig .tc := ⟨.vmem, 91, rfl⟩
abbrev cc9_stg5_1 : Ref sig .tc := ⟨.vmem, 92, rfl⟩
abbrev cc10_stg0_0 : Ref sig .tc := ⟨.vmem, 93, rfl⟩
abbrev cc10_stg0_1 : Ref sig .tc := ⟨.vmem, 94, rfl⟩
abbrev cc10_stg1_0 : Ref sig .tc := ⟨.vmem, 95, rfl⟩
abbrev cc10_stg1_1 : Ref sig .tc := ⟨.vmem, 96, rfl⟩
abbrev cc10_stg2_0 : Ref sig .tc := ⟨.vmem, 97, rfl⟩
abbrev cc10_stg3_0 : Ref sig .tc := ⟨.vmem, 98, rfl⟩
abbrev cc10_stg4_0 : Ref sig .tc := ⟨.vmem, 99, rfl⟩
abbrev cc10_stg5_0 : Ref sig .tc := ⟨.vmem, 100, rfl⟩
abbrev cc10_stg5_1 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem5_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem2_1 : DmaSem sig := 77
abbrev cc8_sem3_0 : DmaSem sig := 78
abbrev cc8_sem4_0 : DmaSem sig := 79
abbrev cc8_sem5_0 : DmaSem sig := 80
abbrev cc8_sem6_0 : DmaSem sig := 81
abbrev cc8_sem7_0 : DmaSem sig := 82
abbrev cc8_sem7_1 : DmaSem sig := 83
abbrev cc9_sem0_0 : DmaSem sig := 84
abbrev cc9_sem0_1 : DmaSem sig := 85
abbrev cc9_sem1_0 : DmaSem sig := 86
abbrev cc9_sem1_1 : DmaSem sig := 87
abbrev cc9_sem2_0 : DmaSem sig := 88
abbrev cc9_sem3_0 : DmaSem sig := 89
abbrev cc9_sem4_0 : DmaSem sig := 90
abbrev cc9_sem5_0 : DmaSem sig := 91
abbrev cc9_sem5_1 : DmaSem sig := 92
abbrev cc10_sem0_0 : DmaSem sig := 93
abbrev cc10_sem0_1 : DmaSem sig := 94
abbrev cc10_sem1_0 : DmaSem sig := 95
abbrev cc10_sem1_1 : DmaSem sig := 96
abbrev cc10_sem2_0 : DmaSem sig := 97
abbrev cc10_sem3_0 : DmaSem sig := 98
abbrev cc10_sem4_0 : DmaSem sig := 99
abbrev cc10_sem5_0 : DmaSem sig := 100
abbrev cc10_sem5_1 : DmaSem sig := 101

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![40], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  shapeCasts_S128_S1x128 : S128.ShapeCasts S1x128
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x128_0 : S200000.BroadcastsInDim S200000x128 (![0] : Fin 1 → Fin S200000x128.rank)
  bcast_S_S200000x128 : S_.BroadcastsInDim S200000x128 (![] : Fin 0 → Fin S200000x128.rank)
  slices_S3x384x128_S1x128x128_0_0_0 : S3x384x128.Slices ![0, 0, 0] S1x128x128
  shapeCasts_S1x128x128_S128x128 : S1x128x128.ShapeCasts S128x128
  slices_S3x384x128_S1x128x128_0_128_0 : S3x384x128.Slices ![0, 128, 0] S1x128x128
  slices_S3x384x128_S1x128x128_0_256_0 : S3x384x128.Slices ![0, 256, 0] S1x128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x256x128_S1x128x128_0_0_0 : S3x256x128.Slices ![0, 0, 0] S1x128x128
  slices_S3x256x128_S1x128x128_0_128_0 : S3x256x128.Slices ![0, 128, 0] S1x128x128
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  reducesTo_S200000x128_S128_d0 : S200000x128.ReducesTo [0] S128
  bcast_S1x128_S200000x128_0_1 : S1x128.BroadcastsInDim S200000x128 (![0, 1] : Fin 2 → Fin S200000x128.rank)
  slices_S3x384x128_S1x128x128_1_0_0 : S3x384x128.Slices ![1, 0, 0] S1x128x128
  slices_S3x384x128_S1x128x128_1_128_0 : S3x384x128.Slices ![1, 128, 0] S1x128x128
  slices_S3x384x128_S1x128x128_1_256_0 : S3x384x128.Slices ![1, 256, 0] S1x128x128
  slices_S3x128_S1x128_1_0 : S3x128.Slices ![1, 0] S1x128
  slices_S3x256x128_S1x128x128_1_0_0 : S3x256x128.Slices ![1, 0, 0] S1x128x128
  slices_S3x256x128_S1x128x128_1_128_0 : S3x256x128.Slices ![1, 128, 0] S1x128x128
  slices_S3x384x128_S1x128x128_2_0_0 : S3x384x128.Slices ![2, 0, 0] S1x128x128
  slices_S3x384x128_S1x128x128_2_128_0 : S3x384x128.Slices ![2, 128, 0] S1x128x128
  slices_S3x384x128_S1x128x128_2_256_0 : S3x384x128.Slices ![2, 256, 0] S1x128x128
  slices_S3x128_S1x128_2_0 : S3x128.Slices ![2, 0] S1x128
  slices_S3x256x128_S1x128x128_2_0_0 : S3x256x128.Slices ![2, 0, 0] S1x128x128
  slices_S3x256x128_S1x128x128_2_128_0 : S3x256x128.Slices ![2, 128, 0] S1x128x128
  concatenates_S1x128_S1x128_S1x256_d1 : Shape.Concatenates [S1x128, S1x128] S1x256 1
  dot_S5000x16_S16x128_S5000x128_1_0_0_1_n_n_wf : DotDims.WF S5000x16 S16x128 S5000x128 [1] [0] [0] [1] [] []
  gather_S50000x128_S200000x1_S200000x128_1_0_n_n_0_1_1128_wf : GatherDims.WF S50000x128 S200000x1 S200000x128 [1] [0] [] [0] [] 1 ![1, 128]
  dot_S5000x128_S128x128_S5000x128_1_0_0_1_n_n_wf : DotDims.WF S5000x128 S128x128 S5000x128 [1] [0] [0] [1] [] []
  scatter_S50000x128_S200000x1_S200000x128_1_0_0_1_wf : ScatterDims.WF S50000x128 S200000x1 S200000x128 [1] [0] [0] 1
  scatter_S50000x1_S200000x1_S200000x1_1_0_0_1_wf : ScatterDims.WF S50000x1 S200000x1 S200000x1 [1] [0] [0] 1
  dot_S1x256_S256x1_S1x1_1_0_0_1_n_n_wf : DotDims.WF S1x256 S256x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S200000x16.size a
  hwx1_0 : ∀ i : grid1.Coords, EltTy.bits .f32 = 32 ∨ (Rect.block (s := S200000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S200000x128.size a
  hwx1_3 : ∀ i : grid1.Coords, EltTy.bits .f32 = 32 ∨ (Rect.block (s := S200000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S200000x128.size a
  hwx2_2 : ∀ i : grid2.Coords, EltTy.bits .f32 = 32 ∨ (Rect.block (s := S200000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S200000x128.size a
  hwx2_7 : ∀ i : grid2.Coords, EltTy.bits .f32 = 32 ∨ (Rect.block (s := S200000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S200000x128.size a
  hwx3_1 : ∀ i : grid3.Coords, EltTy.bits .f32 = 32 ∨ (Rect.block (s := S200000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S200000x128.size a
  hwx3_5 : ∀ i : grid3.Coords, EltTy.bits .f32 = 32 ∨ (Rect.block (s := S200000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S200000x128.size a
  hwx5_0 : ∀ i : grid5.Coords, EltTy.bits .f32 = 32 ∨ (Rect.block (s := S200000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S200000x128.size a
  hwx5_1 : ∀ i : grid5.Coords, EltTy.bits .f32 = 32 ∨ (Rect.block (s := S200000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S200000x128.size a
  hwx5_2 : ∀ i : grid5.Coords, EltTy.bits .f32 = 32 ∨ (Rect.block (s := S200000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S200000x128.size a
  hwx5_7 : ∀ i : grid5.Coords, EltTy.bits .f32 = 32 ∨ (Rect.block (s := S200000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S200000x128.size a
  hwx6_0 : ∀ i : grid6.Coords, EltTy.bits .f32 = 32 ∨ (Rect.block (s := S200000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S200000x128.size a
  hwx6_1 : ∀ i : grid6.Coords, EltTy.bits .f32 = 32 ∨ (Rect.block (s := S200000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S200000x128.size a
  hwx6_5 : ∀ i : grid6.Coords, EltTy.bits .f32 = 32 ∨ (Rect.block (s := S200000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S200000x128.size a
  hwx8_0 : ∀ i : grid8.Coords, EltTy.bits .f32 = 32 ∨ (Rect.block (s := S200000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S200000x128.size a
  hwx8_1 : ∀ i : grid8.Coords, EltTy.bits .f32 = 32 ∨ (Rect.block (s := S200000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S200000x128.size a
  hwx8_2 : ∀ i : grid8.Coords, EltTy.bits .f32 = 32 ∨ (Rect.block (s := S200000x128) S5000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S200000x128.size a
  hwx8_7 : ∀ i : grid8.Coords, EltTy.bits .f32 = 32 ∨ (Rect.block (s := S200000x128) S5000x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S200000x128.size a
  hwx9_0 : ∀ i : grid9.Coords, EltTy.bits .f32 = 32 ∨ (Rect.block (s := S200000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S200000x128.size a
  hwx9_1 : ∀ i : grid9.Coords, EltTy.bits .f32 = 32 ∨ (Rect.block (s := S200000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S200000x128.size a
  hwx9_5 : ∀ i : grid9.Coords, EltTy.bits .f32 = 32 ∨ (Rect.block (s := S200000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S50000x128.size a
  hwx10_5 : ∀ i : grid10.Coords, EltTy.bits .f32 = 32 ∨ (Rect.block (s := S50000x128) S5000x128.size (cc10_transform_5 i) (hinb10_5 i)).WholeWords (EltTy.packing .f32)

variable [Facts₀]

def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def scatter_S50000x1_S200000x1_S200000x1_1_0_0_1 : ScatterDims S50000x1 S200000x1 S200000x1 where
  updateWindowDims := [1]
  insertedWindowDims := [0]
  scatterDimsToOperandDims := [0]
  indexVectorDim := 1
  wf := scatter_S50000x1_S200000x1_S200000x1_1_0_0_1_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v8) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v27) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v5) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v40) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v46) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v85) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v84) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v88) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v92) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v95) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v96) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v85) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v96) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v98) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v103) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v104) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v65) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v115) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v117) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v119) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v122) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v123) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v162) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v163) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v161) S5000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v165) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v167) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v169) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v172) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v173) S5000x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v162) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v173) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v175) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v177) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v180) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v181) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v142) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v192) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v194) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v196) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v199) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v200) S5000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x16 : Shape := ⟨2, ![50000, 16]⟩
abbrev S2x200000 : Shape := ⟨2, ![2, 200000]⟩
abbrev S200000x16 : Shape := ⟨2, ![200000, 16]⟩
abbrev S16x128 : Shape := ⟨2, ![16, 128]⟩
abbrev S128 : Shape := ⟨1, ![128]⟩
abbrev S3x384x128 : Shape := ⟨3, ![3, 384, 128]⟩
abbrev S3x128 : Shape := ⟨2, ![3, 128]⟩
abbrev S3x256x128 : Shape := ⟨3, ![3, 256, 128]⟩
abbrev S256x1 : Shape := ⟨2, ![256, 1]⟩
abbrev S1 : Shape := ⟨1, ![1]⟩
abbrev S1x200000 : Shape := ⟨2, ![1, 200000]⟩
abbrev S200000 : Shape := ⟨1, ![200000]⟩
abbrev S50000x128 : Shape := ⟨2, ![50000, 128]⟩
abbrev S1x128 : Shape := ⟨2, ![1, 128]⟩
abbrev S_ : Shape := ⟨0, ![]⟩
abbrev S200000x128 : Shape := ⟨2, ![200000, 128]⟩
abbrev S200000x1 : Shape := ⟨2, ![200000, 1]⟩
abbrev S200000x384 : Shape := ⟨2, ![200000, 384]⟩
abbrev S1x384x128 : Shape := ⟨3, ![1, 384, 128]⟩
abbrev S384x128 : Shape := ⟨2, ![384, 128]⟩
abbrev S200000x256 : Shape := ⟨2, ![200000, 256]⟩
abbrev S1x256x128 : Shape := ⟨3, ![1, 256, 128]⟩
abbrev S256x128 : Shape := ⟨2, ![256, 128]⟩
abbrev S50000x1 : Shape := ⟨2, ![50000, 1]⟩
abbrev S50000x256 : Shape := ⟨2, ![50000, 256]⟩
abbrev S1x256 : Shape := ⟨2, ![1, 256]⟩
abbrev S1x1 : Shape := ⟨2, ![1, 1]⟩

abbrev nBuf : Space → Nat
  | .hbm => 463
  | .vmem => 0
  | .smem => 0
  | _ => 0

abbrev hbmTy0_0 (i : Nat) : BufTy := match i % 128 with
  | 0 => ⟨S50000x16, .f32⟩
  | 1 => ⟨S2x200000, .i32⟩
  | 2 => ⟨S200000x16, .f32⟩
  | 3 => ⟨S16x128, .f32⟩
  | 4 => ⟨S128, .f32⟩
  | 5 => ⟨S16x128, .f32⟩
  | 6 => ⟨S128, .f32⟩
  | 7 => ⟨S3x384x128, .f32⟩
  | 8 => ⟨S3x128, .f32⟩
  | 9 => ⟨S3x256x128, .f32⟩
  | 10 => ⟨S3x128, .f32⟩
  | 11 => ⟨S3x256x128, .f32⟩
  | 12 => ⟨S3x128, .f32⟩
  | 13 => ⟨S128, .f32⟩
  | 14 => ⟨S128, .f32⟩
  | 15 => ⟨S128, .f32⟩
  | 16 => ⟨S128, .f32⟩
  | 17 => ⟨S256x1, .f32⟩
  | 18 => ⟨S1, .f32⟩
  | 19 => ⟨S1x200000, .i32⟩
  | 20 => ⟨S200000, .i32⟩
  | 21 => ⟨S1x200000, .i32⟩
  | 22 => ⟨S200000, .i32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S200000x128, .f32⟩
  | 31 => ⟨S1x128, .f32⟩
  | 32 => ⟨S200000x128, .f32⟩
  | 33 => ⟨S200000x128, .f32⟩
  | 34 => ⟨S_, .f32⟩
  | 35 => ⟨S200000x128, .f32⟩
  | 36 => ⟨S200000x128, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000x128, .f32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S200000x1, .i32⟩
  | 54 => ⟨S200000x128, .f32⟩
  | 55 => ⟨S200000x384, .f32⟩
  | 56 => ⟨S1x384x128, .f32⟩
  | 57 => ⟨S384x128, .f32⟩
  | 58 => ⟨S200000x128, .f32⟩
  | 59 => ⟨S1x128, .f32⟩
  | 60 => ⟨S128, .f32⟩
  | 61 => ⟨S1x128, .f32⟩
  | 62 => ⟨S200000x128, .f32⟩
  | 63 => ⟨S200000x128, .f32⟩
  | 64 => ⟨S_, .f32⟩
  | 65 => ⟨S200000x128, .f32⟩
  | 66 => ⟨S200000x128, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x128, .f32⟩
  | 76 => ⟨S200000x256, .f32⟩
  | 77 => ⟨S1x256x128, .f32⟩
  | 78 => ⟨S256x128, .f32⟩
  | 79 => ⟨S200000x128, .f32⟩
  | 80 => ⟨S1x128, .f32⟩
  | 81 => ⟨S128, .f32⟩
  | 82 => ⟨S1x128, .f32⟩
  | 83 => ⟨S200000x128, .f32⟩
  | 84 => ⟨S200000x128, .f32⟩
  | 85 => ⟨S_, .f32⟩
  | 86 => ⟨S200000x128, .f32⟩
  | 87 => ⟨S200000x128, .f32⟩
  | 88 => ⟨S_, .f32⟩
  | 89 => ⟨S50000x128, .f32⟩
  | 90 => ⟨S200000x1, .i32⟩
  | 91 => ⟨S50000x128, .f32⟩
  | 92 => ⟨S_, .f32⟩
  | 93 => ⟨S200000x1, .f32⟩
  | 94 => ⟨S_, .f32⟩
  | 95 => ⟨S50000x1, .f32⟩
  | 96 => ⟨S200000x1, .i32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S50000x256, .f32⟩
  | 104 => ⟨S1x256x128, .f32⟩
  | 105 => ⟨S256x128, .f32⟩
  | 106 => ⟨S50000x128, .f32⟩
  | 107 => ⟨S1x128, .f32⟩
  | 108 => ⟨S128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S50000x128, .f32⟩
  | _ => ⟨S50000x16, .f32⟩

abbrev hbmTy0_1 (i : Nat) : BufTy := match i % 128 with
  | 0 => ⟨S50000x128, .f32⟩
  | 1 => ⟨S50000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S128, .f32⟩
  | 33 => ⟨S_, .f32⟩
  | 34 => ⟨S128, .f32⟩
  | 35 => ⟨S128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S200000x128, .f32⟩
  | 44 => ⟨S200000x128, .f32⟩
  | 45 => ⟨S200000x128, .f32⟩
  | 46 => ⟨S_, .f32⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S_, .f32⟩
  | 54 => ⟨S_, .i1⟩
  | 55 => ⟨S_, .f32⟩
  | 56 => ⟨S_, .f32⟩
  | 57 => ⟨S128, .f32⟩
  | 58 => ⟨S128, .f32⟩
  | 59 => ⟨S1x128, .f32⟩
  | 60 => ⟨S200000x128, .f32⟩
  | 61 => ⟨S200000x128, .f32⟩
  | 62 => ⟨S_, .f32⟩
  | 63 => ⟨S128, .f32⟩
  | 64 => ⟨S128, .f32⟩
  | 65 => ⟨S128, .f32⟩
  | 66 => ⟨S1x128, .f32⟩
  | 67 => ⟨S200000x128, .f32⟩
  | 68 => ⟨S200000x128, .f32⟩
  | 69 => ⟨S1x128, .f32⟩
  | 70 => ⟨S200000x128, .f32⟩
  | 71 => ⟨S200000x128, .f32⟩
  | 72 => ⟨S1x128, .f32⟩
  | 73 => ⟨S200000x128, .f32⟩
  | 74 => ⟨S200000x128, .f32⟩
  | 75 => ⟨S_, .i32⟩
  | 76 => ⟨S200000, .i32⟩
  | 77 => ⟨S200000, .i1⟩
  | 78 => ⟨S_, .i32⟩
  | 79 => ⟨S200000, .i32⟩
  | 80 => ⟨S200000, .i32⟩
  | 81 => ⟨S200000, .i32⟩
  | 82 => ⟨S200000x1, .i32⟩
  | 83 => ⟨S200000x128, .f32⟩
  | 84 => ⟨S_, .i32⟩
  | 85 => ⟨S200000, .i32⟩
  | 86 => ⟨S200000, .i1⟩
  | 87 => ⟨S_, .i32⟩
  | 88 => ⟨S200000, .i32⟩
  | 89 => ⟨S200000, .i32⟩
  | 90 => ⟨S200000, .i32⟩
  | 91 => ⟨S200000x1, .i32⟩
  | 92 => ⟨S200000x128, .f32⟩
  | 93 => ⟨S200000x384, .f32⟩
  | 94 => ⟨S1x384x128, .f32⟩
  | 95 => ⟨S384x128, .f32⟩
  | 96 => ⟨S200000x128, .f32⟩
  | 97 => ⟨S1x128, .f32⟩
  | 98 => ⟨S128, .f32⟩
  | 99 => ⟨S1x128, .f32⟩
  | 100 => ⟨S200000x128, .f32⟩
  | 101 => ⟨S200000x128, .f32⟩
  | 102 => ⟨S_, .f32⟩
  | 103 => ⟨S200000x128, .f32⟩
  | 104 => ⟨S200000x128, .f32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S200000x1, .i32⟩
  | 113 => ⟨S200000x128, .f32⟩
  | 114 => ⟨S200000x256, .f32⟩
  | 115 => ⟨S1x256x128, .f32⟩
  | 116 => ⟨S256x128, .f32⟩
  | 117 => ⟨S200000x128, .f32⟩
  | 118 => ⟨S1x128, .f32⟩
  | 119 => ⟨S128, .f32⟩
  | 120 => ⟨S1x128, .f32⟩
  | 121 => ⟨S200000x128, .f32⟩
  | 122 => ⟨S200000x128, .f32⟩
  | 123 => ⟨S_, .f32⟩
  | 124 => ⟨S200000x128, .f32⟩
  | 125 => ⟨S200000x128, .f32⟩
  | 126 => ⟨S_, .f32⟩
  | 127 => ⟨S50000x128, .f32⟩
  | _ => ⟨S50000x16, .f32⟩

abbrev hbmTy0_2 (i : Nat) : BufTy := match i % 128 with
  | 0 => ⟨S200000x1, .i32⟩
  | 1 => ⟨S50000x128, .f32⟩
  | 2 => ⟨S_, .f32⟩
  | 3 => ⟨S200000x1, .f32⟩
  | 4 => ⟨S_, .f32⟩
  | 5 => ⟨S50000x1, .f32⟩
  | 6 => ⟨S200000x1, .i32⟩
  | 7 => ⟨S50000x1, .f32⟩
  | 8 => ⟨S_, .f32⟩
  | 9 => ⟨S50000x1, .f32⟩
  | 10 => ⟨S50000x1, .f32⟩
  | 11 => ⟨S50000x128, .f32⟩
  | 12 => ⟨S50000x128, .f32⟩
  | 13 => ⟨S50000x256, .f32⟩
  | 14 => ⟨S1x256x128, .f32⟩
  | 15 => ⟨S256x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S50000x128, .f32⟩
  | 38 => ⟨S50000x128, .f32⟩
  | 39 => ⟨S50000x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S200000x128, .f32⟩
  | 82 => ⟨S200000x128, .f32⟩
  | 83 => ⟨S200000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S200000x128, .f32⟩
  | 99 => ⟨S200000x128, .f32⟩
  | 100 => ⟨S_, .f32⟩
  | 101 => ⟨S128, .f32⟩
  | 102 => ⟨S128, .f32⟩
  | 103 => ⟨S128, .f32⟩
  | 104 => ⟨S1x128, .f32⟩
  | 105 => ⟨S200000x128, .f32⟩
  | 106 => ⟨S200000x128, .f32⟩
  | 107 => ⟨S1x128, .f32⟩
  | 108 => ⟨S200000x128, .f32⟩
  | 109 => ⟨S200000x128, .f32⟩
  | 110 => ⟨S1x128, .f32⟩
  | 111 => ⟨S200000x128, .f32⟩
  | 112 => ⟨S200000x128, .f32⟩
  | 113 => ⟨S_, .i32⟩
  | 114 => ⟨S200000, .i32⟩
  | 115 => ⟨S200000, .i1⟩
  | 116 => ⟨S_, .i32⟩
  | 117 => ⟨S200000, .i32⟩
  | 118 => ⟨S200000, .i32⟩
  | 119 => ⟨S200000, .i32⟩
  | 120 => ⟨S200000x1, .i32⟩
  | 121 => ⟨S200000x128, .f32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S50000x16, .f32⟩

abbrev hbmTy0_3 (i : Nat) : BufTy := match i % 128 with
  | 0 => ⟨S200000, .i32⟩
  | 1 => ⟨S200000x1, .i32⟩
  | 2 => ⟨S200000x128, .f32⟩
  | 3 => ⟨S200000x384, .f32⟩
  | 4 => ⟨S1x384x128, .f32⟩
  | 5 => ⟨S384x128, .f32⟩
  | 6 => ⟨S200000x128, .f32⟩
  | 7 => ⟨S1x128, .f32⟩
  | 8 => ⟨S128, .f32⟩
  | 9 => ⟨S1x128, .f32⟩
  | 10 => ⟨S200000x128, .f32⟩
  | 11 => ⟨S200000x128, .f32⟩
  | 12 => ⟨S_, .f32⟩
  | 13 => ⟨S200000x128, .f32⟩
  | 14 => ⟨S200000x128, .f32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x128, .f32⟩
  | 24 => ⟨S200000x256, .f32⟩
  | 25 => ⟨S1x256x128, .f32⟩
  | 26 => ⟨S256x128, .f32⟩
  | 27 => ⟨S200000x128, .f32⟩
  | 28 => ⟨S1x128, .f32⟩
  | 29 => ⟨S128, .f32⟩
  | 30 => ⟨S1x128, .f32⟩
  | 31 => ⟨S200000x128, .f32⟩
  | 32 => ⟨S200000x128, .f32⟩
  | 33 => ⟨S_, .f32⟩
  | 34 => ⟨S200000x128, .f32⟩
  | 35 => ⟨S200000x128, .f32⟩
  | 36 => ⟨S_, .f32⟩
  | 37 => ⟨S50000x128, .f32⟩
  | 38 => ⟨S200000x1, .i32⟩
  | 39 => ⟨S50000x128, .f32⟩
  | 40 => ⟨S_, .f32⟩
  | 41 => ⟨S200000x1, .f32⟩
  | 42 => ⟨S_, .f32⟩
  | 43 => ⟨S50000x1, .f32⟩
  | 44 => ⟨S200000x1, .i32⟩
  | 45 => ⟨S50000x1, .f32⟩
  | 46 => ⟨S_, .f32⟩
  | 47 => ⟨S50000x1, .f32⟩
  | 48 => ⟨S50000x1, .f32⟩
  | 49 => ⟨S50000x128, .f32⟩
  | 50 => ⟨S50000x128, .f32⟩
  | 51 => ⟨S50000x256, .f32⟩
  | 52 => ⟨S1x256x128, .f32⟩
  | 53 => ⟨S256x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S1x256, .f32⟩
  | 76 => ⟨S1x1, .f32⟩
  | 77 => ⟨S1x1, .f32⟩
  | 78 => ⟨S1x1, .f32⟩
  | _ => ⟨S50000x16, .f32⟩

abbrev hbmTy (i : Nat) : BufTy := match i / 128 with
  | 0 => hbmTy0_0 i
  | 1 => hbmTy0_1 i
  | 2 => hbmTy0_2 i
  | 3 => hbmTy0_3 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_cst : Ref sig .tc := ⟨.hbm, 34, rfl⟩
abbrev main_call1_v0 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_1 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call2_cst : Ref sig .tc := ⟨.hbm, 64, rfl⟩
abbrev main_call2_v0 : Ref sig .tc := ⟨.hbm, 65, rfl⟩
abbrev main_v37 : Ref sig .tc := ⟨.hbm, 66, rfl⟩
abbrev main_c_3 : Ref sig .tc := ⟨.hbm, 67, rfl⟩
abbrev main_v38 : Ref sig .tc := ⟨.hbm, 68, rfl⟩
abbrev main_v39 : Ref sig .tc := ⟨.hbm, 69, rfl⟩
abbrev main_c_4 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call3_cst : Ref sig .tc := ⟨.hbm, 85, rfl⟩
abbrev main_call3_v0 : Ref sig .tc := ⟨.hbm, 86, rfl⟩
abbrev main_v54 : Ref sig .tc := ⟨.hbm, 87, rfl⟩
abbrev main_cst : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_5 : Ref sig .tc := ⟨.hbm, 92, rfl⟩
abbrev main_v58 : Ref sig .tc := ⟨.hbm, 93, rfl⟩
abbrev main_cst_6 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_7 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call4_cst : Ref sig .tc := ⟨.hbm, 112, rfl⟩
abbrev main_call4_v0 : Ref sig .tc := ⟨.hbm, 113, rfl⟩
abbrev main_v75 : Ref sig .tc := ⟨.hbm, 114, rfl⟩
abbrev main_cst_8 : Ref sig .tc := ⟨.hbm, 115, rfl⟩
abbrev main_v76 : Ref sig .tc := ⟨.hbm, 116, rfl⟩
abbrev main_cst_9 : Ref sig .tc := ⟨.hbm, 117, rfl⟩
abbrev main_v77 : Ref sig .tc := ⟨.hbm, 118, rfl⟩
abbrev main_v78 : Ref sig .tc := ⟨.hbm, 119, rfl⟩
abbrev main_c_10 : Ref sig .tc := ⟨.hbm, 120, rfl⟩
abbrev main_call5_cst : Ref sig .tc := ⟨.hbm, 121, rfl⟩
abbrev main_call5_v0 : Ref sig .tc := ⟨.hbm, 122, rfl⟩
abbrev main_call5_v1 : Ref sig .tc := ⟨.hbm, 123, rfl⟩
abbrev main_call5_cst_0 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_call5_v5 : Ref sig .tc := ⟨.hbm, 128, rfl⟩
abbrev main_call5_v6 : Ref sig .tc := ⟨.hbm, 129, rfl⟩
abbrev main_call5_v7 : Ref sig .tc := ⟨.hbm, 130, rfl⟩
abbrev main_call5_cst_1 : Ref sig .tc := ⟨.hbm, 131, rfl⟩
abbrev main_call5_v8 : Ref sig .tc := ⟨.hbm, 132, rfl⟩
abbrev main_call5_cst_2 : Ref sig .tc := ⟨.hbm, 133, rfl⟩
abbrev main_call5_v9 : Ref sig .tc := ⟨.hbm, 134, rfl⟩
abbrev main_call5_v10 : Ref sig .tc := ⟨.hbm, 135, rfl⟩
abbrev main_call5_v11 : Ref sig .tc := ⟨.hbm, 136, rfl⟩
abbrev main_call5_cst_3 : Ref sig .tc := ⟨.hbm, 137, rfl⟩
abbrev main_call5_v12 : Ref sig .tc := ⟨.hbm, 138, rfl⟩
abbrev main_call5_cst_4 : Ref sig .tc := ⟨.hbm, 139, rfl⟩
abbrev main_call5_call0_v0 : Ref sig .tc := ⟨.hbm, 140, rfl⟩
abbrev main_call5_call0_v1 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_11 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_12 : Ref sig .tc := ⟨.hbm, 159, rfl⟩
abbrev main_v95 : Ref sig .tc := ⟨.hbm, 160, rfl⟩
abbrev main_cst_13 : Ref sig .tc := ⟨.hbm, 161, rfl⟩
abbrev main_v96 : Ref sig .tc := ⟨.hbm, 162, rfl⟩
abbrev main_v97 : Ref sig .tc := ⟨.hbm, 163, rfl⟩
abbrev main_c_14 : Ref sig .tc := ⟨.hbm, 164, rfl⟩
abbrev main_call6_cst : Ref sig .tc := ⟨.hbm, 165, rfl⟩
abbrev main_call6_v0 : Ref sig .tc := ⟨.hbm, 166, rfl⟩
abbrev main_call6_v1 : Ref sig .tc := ⟨.hbm, 167, rfl⟩
abbrev main_call6_cst_0 : Ref sig .tc := ⟨.hbm, 168, rfl⟩
abbrev main_call6_v2 : Ref sig .tc := ⟨.hbm, 169, rfl⟩
abbrev main_call6_v3 : Ref sig .tc := ⟨.hbm, 170, rfl⟩
abbrev main_call6_v4 : Ref sig .tc := ⟨.hbm, 171, rfl⟩
abbrev main_call6_v5 : Ref sig .tc := ⟨.hbm, 172, rfl⟩
abbrev main_call6_v6 : Ref sig .tc := ⟨.hbm, 173, rfl⟩
abbrev main_call6_v7 : Ref sig .tc := ⟨.hbm, 174, rfl⟩
abbrev main_call6_cst_1 : Ref sig .tc := ⟨.hbm, 175, rfl⟩
abbrev main_call6_v8 : Ref sig .tc := ⟨.hbm, 176, rfl⟩
abbrev main_call6_cst_2 : Ref sig .tc := ⟨.hbm, 177, rfl⟩
abbrev main_call6_v9 : Ref sig .tc := ⟨.hbm, 178, rfl⟩
abbrev main_call6_v10 : Ref sig .tc := ⟨.hbm, 179, rfl⟩
abbrev main_call6_v11 : Ref sig .tc := ⟨.hbm, 180, rfl⟩
abbrev main_call6_cst_3 : Ref sig .tc := ⟨.hbm, 181, rfl⟩
abbrev main_call6_v12 : Ref sig .tc := ⟨.hbm, 182, rfl⟩
abbrev main_call6_cst_4 : Ref sig .tc := ⟨.hbm, 183, rfl⟩
abbrev main_call6_call0_v0 : Ref sig .tc := ⟨.hbm, 184, rfl⟩
abbrev main_call6_call0_v1 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_cst_15 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_c_16 : Ref sig .tc := ⟨.hbm, 203, rfl⟩
abbrev main_v114 : Ref sig .tc := ⟨.hbm, 204, rfl⟩
abbrev main_v115 : Ref sig .tc := ⟨.hbm, 205, rfl⟩
abbrev main_c_17 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_c_18 : Ref sig .tc := ⟨.hbm, 212, rfl⟩
abbrev main_v121 : Ref sig .tc := ⟨.hbm, 213, rfl⟩
abbrev main_v122 : Ref sig .tc := ⟨.hbm, 214, rfl⟩
abbrev main_c_19 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_call7_cst : Ref sig .tc := ⟨.hbm, 230, rfl⟩
abbrev main_call7_v0 : Ref sig .tc := ⟨.hbm, 231, rfl⟩
abbrev main_v137 : Ref sig .tc := ⟨.hbm, 232, rfl⟩
abbrev main_c_20 : Ref sig .tc := ⟨.hbm, 233, rfl⟩
abbrev main_v138 : Ref sig .tc := ⟨.hbm, 234, rfl⟩
abbrev main_v139 : Ref sig .tc := ⟨.hbm, 235, rfl⟩
abbrev main_c_21 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_call8_cst : Ref sig .tc := ⟨.hbm, 251, rfl⟩
abbrev main_call8_v0 : Ref sig .tc := ⟨.hbm, 252, rfl⟩
abbrev main_v154 : Ref sig .tc := ⟨.hbm, 253, rfl⟩
abbrev main_cst_22 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_cst_23 : Ref sig .tc := ⟨.hbm, 258, rfl⟩
abbrev main_v158 : Ref sig .tc := ⟨.hbm, 259, rfl⟩
abbrev main_cst_24 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_cst_25 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev main_call9_cst : Ref sig .tc := ⟨.hbm, 278, rfl⟩
abbrev main_call9_v0 : Ref sig .tc := ⟨.hbm, 279, rfl⟩
abbrev main_v175 : Ref sig .tc := ⟨.hbm, 280, rfl⟩
abbrev main_cst_26 : Ref sig .tc := ⟨.hbm, 281, rfl⟩
abbrev main_v176 : Ref sig .tc := ⟨.hbm, 282, rfl⟩
abbrev main_cst_27 : Ref sig .tc := ⟨.hbm, 283, rfl⟩
abbrev main_v177 : Ref sig .tc := ⟨.hbm, 284, rfl⟩
abbrev main_v178 : Ref sig .tc := ⟨.hbm, 285, rfl⟩
abbrev main_c_28 : Ref sig .tc := ⟨.hbm, 286, rfl⟩
abbrev main_call10_cst : Ref sig .tc := ⟨.hbm, 287, rfl⟩
abbrev main_call10_v0 : Ref sig .tc := ⟨.hbm, 288, rfl⟩
abbrev main_call10_v1 : Ref sig .tc := ⟨.hbm, 289, rfl⟩
abbrev main_call10_cst_0 : Ref sig .tc := ⟨.hbm, 290, rfl⟩
abbrev main_call10_v2 : Ref sig .tc := ⟨.hbm, 291, rfl⟩
abbrev main_call10_v3 : Ref sig .tc := ⟨.hbm, 292, rfl⟩
abbrev main_call10_v4 : Ref sig .tc := ⟨.hbm, 293, rfl⟩
abbrev main_call10_v5 : Ref sig .tc := ⟨.hbm, 294, rfl⟩
abbrev main_call10_v6 : Ref sig .tc := ⟨.hbm, 295, rfl⟩
abbrev main_call10_v7 : Ref sig .tc := ⟨.hbm, 296, rfl⟩
abbrev main_call10_cst_1 : Ref sig .tc := ⟨.hbm, 297, rfl⟩
abbrev main_call10_v8 : Ref sig .tc := ⟨.hbm, 298, rfl⟩
abbrev main_call10_cst_2 : Ref sig .tc := ⟨.hbm, 299, rfl⟩
abbrev main_call10_v9 : Ref sig .tc := ⟨.hbm, 300, rfl⟩
abbrev main_call10_v10 : Ref sig .tc := ⟨.hbm, 301, rfl⟩
abbrev main_call10_v11 : Ref sig .tc := ⟨.hbm, 302, rfl⟩
abbrev main_call10_cst_3 : Ref sig .tc := ⟨.hbm, 303, rfl⟩
abbrev main_call10_v12 : Ref sig .tc := ⟨.hbm, 304, rfl⟩
abbrev main_call10_cst_4 : Ref sig .tc := ⟨.hbm, 305, rfl⟩
abbrev main_call10_call0_v0 : Ref sig .tc := ⟨.hbm, 306, rfl⟩
abbrev main_call10_call0_v1 : Ref sig .tc := ⟨.hbm, 307, rfl⟩
abbrev main_v179 : Ref sig .tc := ⟨.hbm, 308, rfl⟩
abbrev main_v180 : Ref sig .tc := ⟨.hbm, 309, rfl⟩
abbrev main_v181 : Ref sig .tc := ⟨.hbm, 310, rfl⟩
abbrev main_v182 : Ref sig .tc := ⟨.hbm, 311, rfl⟩
abbrev main_cst_29 : Ref sig .tc := ⟨.hbm, 312, rfl⟩
abbrev main_v183 : Ref sig .tc := ⟨.hbm, 313, rfl⟩
abbrev main_v184 : Ref sig .tc := ⟨.hbm, 314, rfl⟩
abbrev main_v185 : Ref sig .tc := ⟨.hbm, 315, rfl⟩
abbrev main_v186 : Ref sig .tc := ⟨.hbm, 316, rfl⟩
abbrev main_v187 : Ref sig .tc := ⟨.hbm, 317, rfl⟩
abbrev main_v188 : Ref sig .tc := ⟨.hbm, 318, rfl⟩
abbrev main_v189 : Ref sig .tc := ⟨.hbm, 319, rfl⟩
abbrev main_v190 : Ref sig .tc := ⟨.hbm, 320, rfl⟩
abbrev main_v191 : Ref sig .tc := ⟨.hbm, 321, rfl⟩
abbrev main_v192 : Ref sig .tc := ⟨.hbm, 322, rfl⟩
abbrev main_v193 : Ref sig .tc := ⟨.hbm, 323, rfl⟩
abbrev main_v194 : Ref sig .tc := ⟨.hbm, 324, rfl⟩
abbrev main_cst_30 : Ref sig .tc := ⟨.hbm, 325, rfl⟩
abbrev main_v195 : Ref sig .tc := ⟨.hbm, 326, rfl⟩
abbrev main_cst_31 : Ref sig .tc := ⟨.hbm, 327, rfl⟩
abbrev main_v196 : Ref sig .tc := ⟨.hbm, 328, rfl⟩
abbrev main_v197 : Ref sig .tc := ⟨.hbm, 329, rfl⟩
abbrev main_c_32 : Ref sig .tc := ⟨.hbm, 330, rfl⟩
abbrev main_call11_cst : Ref sig .tc := ⟨.hbm, 331, rfl⟩
abbrev main_call11_v0 : Ref sig .tc := ⟨.hbm, 332, rfl⟩
abbrev main_call11_v1 : Ref sig .tc := ⟨.hbm, 333, rfl⟩
abbrev main_call11_cst_0 : Ref sig .tc := ⟨.hbm, 334, rfl⟩
abbrev main_call11_v2 : Ref sig .tc := ⟨.hbm, 335, rfl⟩
abbrev main_call11_v3 : Ref sig .tc := ⟨.hbm, 336, rfl⟩
abbrev main_call11_v4 : Ref sig .tc := ⟨.hbm, 337, rfl⟩
abbrev main_call11_v5 : Ref sig .tc := ⟨.hbm, 338, rfl⟩
abbrev main_call11_v6 : Ref sig .tc := ⟨.hbm, 339, rfl⟩
abbrev main_call11_v7 : Ref sig .tc := ⟨.hbm, 340, rfl⟩
abbrev main_call11_cst_1 : Ref sig .tc := ⟨.hbm, 341, rfl⟩
abbrev main_call11_v8 : Ref sig .tc := ⟨.hbm, 342, rfl⟩
abbrev main_call11_cst_2 : Ref sig .tc := ⟨.hbm, 343, rfl⟩
abbrev main_call11_v9 : Ref sig .tc := ⟨.hbm, 344, rfl⟩
abbrev main_call11_v10 : Ref sig .tc := ⟨.hbm, 345, rfl⟩
abbrev main_call11_v11 : Ref sig .tc := ⟨.hbm, 346, rfl⟩
abbrev main_call11_cst_3 : Ref sig .tc := ⟨.hbm, 347, rfl⟩
abbrev main_call11_v12 : Ref sig .tc := ⟨.hbm, 348, rfl⟩
abbrev main_call11_cst_4 : Ref sig .tc := ⟨.hbm, 349, rfl⟩
abbrev main_call11_call0_v0 : Ref sig .tc := ⟨.hbm, 350, rfl⟩
abbrev main_call11_call0_v1 : Ref sig .tc := ⟨.hbm, 351, rfl⟩
abbrev main_v198 : Ref sig .tc := ⟨.hbm, 352, rfl⟩
abbrev main_v199 : Ref sig .tc := ⟨.hbm, 353, rfl⟩
abbrev main_v200 : Ref sig .tc := ⟨.hbm, 354, rfl⟩
abbrev main_v201 : Ref sig .tc := ⟨.hbm, 355, rfl⟩
abbrev main_cst_33 : Ref sig .tc := ⟨.hbm, 356, rfl⟩
abbrev main_v202 : Ref sig .tc := ⟨.hbm, 357, rfl⟩
abbrev main_v203 : Ref sig .tc := ⟨.hbm, 358, rfl⟩
abbrev main_v204 : Ref sig .tc := ⟨.hbm, 359, rfl⟩
abbrev main_v205 : Ref sig .tc := ⟨.hbm, 360, rfl⟩
abbrev main_v206 : Ref sig .tc := ⟨.hbm, 361, rfl⟩
abbrev main_v207 : Ref sig .tc := ⟨.hbm, 362, rfl⟩
abbrev main_v208 : Ref sig .tc := ⟨.hbm, 363, rfl⟩
abbrev main_v209 : Ref sig .tc := ⟨.hbm, 364, rfl⟩
abbrev main_v210 : Ref sig .tc := ⟨.hbm, 365, rfl⟩
abbrev main_v211 : Ref sig .tc := ⟨.hbm, 366, rfl⟩
abbrev main_v212 : Ref sig .tc := ⟨.hbm, 367, rfl⟩
abbrev main_v213 : Ref sig .tc := ⟨.hbm, 368, rfl⟩
abbrev main_c_34 : Ref sig .tc := ⟨.hbm, 369, rfl⟩
abbrev main_v214 : Ref sig .tc := ⟨.hbm, 370, rfl⟩
abbrev main_v215 : Ref sig .tc := ⟨.hbm, 371, rfl⟩
abbrev main_c_35 : Ref sig .tc := ⟨.hbm, 372, rfl⟩
abbrev main_v216 : Ref sig .tc := ⟨.hbm, 373, rfl⟩
abbrev main_v217 : Ref sig .tc := ⟨.hbm, 374, rfl⟩
abbrev main_v218 : Ref sig .tc := ⟨.hbm, 375, rfl⟩
abbrev main_v219 : Ref sig .tc := ⟨.hbm, 376, rfl⟩
abbrev main_v220 : Ref sig .tc := ⟨.hbm, 377, rfl⟩
abbrev main_c_36 : Ref sig .tc := ⟨.hbm, 378, rfl⟩
abbrev main_v221 : Ref sig .tc := ⟨.hbm, 379, rfl⟩
abbrev main_v222 : Ref sig .tc := ⟨.hbm, 380, rfl⟩
abbrev main_c_37 : Ref sig .tc := ⟨.hbm, 381, rfl⟩
abbrev main_v223 : Ref sig .tc := ⟨.hbm, 382, rfl⟩
abbrev main_v224 : Ref sig .tc := ⟨.hbm, 383, rfl⟩
abbrev main_v225 : Ref sig .tc := ⟨.hbm, 384, rfl⟩
abbrev main_v226 : Ref sig .tc := ⟨.hbm, 385, rfl⟩
abbrev main_v227 : Ref sig .tc := ⟨.hbm, 386, rfl⟩
abbrev main_v228 : Ref sig .tc := ⟨.hbm, 387, rfl⟩
abbrev main_v229 : Ref sig .tc := ⟨.hbm, 388, rfl⟩
abbrev main_v230 : Ref sig .tc := ⟨.hbm, 389, rfl⟩
abbrev main_v231 : Ref sig .tc := ⟨.hbm, 390, rfl⟩
abbrev main_v232 : Ref sig .tc := ⟨.hbm, 391, rfl⟩
abbrev main_v233 : Ref sig .tc := ⟨.hbm, 392, rfl⟩
abbrev main_v234 : Ref sig .tc := ⟨.hbm, 393, rfl⟩
abbrev main_v235 : Ref sig .tc := ⟨.hbm, 394, rfl⟩
abbrev main_v236 : Ref sig .tc := ⟨.hbm, 395, rfl⟩
abbrev main_call12_cst : Ref sig .tc := ⟨.hbm, 396, rfl⟩
abbrev main_call12_v0 : Ref sig .tc := ⟨.hbm, 397, rfl⟩
abbrev main_v237 : Ref sig .tc := ⟨.hbm, 398, rfl⟩
abbrev main_c_38 : Ref sig .tc := ⟨.hbm, 399, rfl⟩
abbrev main_v238 : Ref sig .tc := ⟨.hbm, 400, rfl⟩
abbrev main_v239 : Ref sig .tc := ⟨.hbm, 401, rfl⟩
abbrev main_c_39 : Ref sig .tc := ⟨.hbm, 402, rfl⟩
abbrev main_v240 : Ref sig .tc := ⟨.hbm, 403, rfl⟩
abbrev main_v241 : Ref sig .tc := ⟨.hbm, 404, rfl⟩
abbrev main_v242 : Ref sig .tc := ⟨.hbm, 405, rfl⟩
abbrev main_v243 : Ref sig .tc := ⟨.hbm, 406, rfl⟩
abbrev main_v244 : Ref sig .tc := ⟨.hbm, 407, rfl⟩
abbrev main_v245 : Ref sig .tc := ⟨.hbm, 408, rfl⟩
abbrev main_v246 : Ref sig .tc := ⟨.hbm, 409, rfl⟩
abbrev main_v247 : Ref sig .tc := ⟨.hbm, 410, rfl⟩
abbrev main_v248 : Ref sig .tc := ⟨.hbm, 411, rfl⟩
abbrev main_v249 : Ref sig .tc := ⟨.hbm, 412, rfl⟩
abbrev main_v250 : Ref sig .tc := ⟨.hbm, 413, rfl⟩
abbrev main_v251 : Ref sig .tc := ⟨.hbm, 414, rfl⟩
abbrev main_v252 : Ref sig .tc := ⟨.hbm, 415, rfl⟩
abbrev main_v253 : Ref sig .tc := ⟨.hbm, 416, rfl⟩
abbrev main_call13_cst : Ref sig .tc := ⟨.hbm, 417, rfl⟩
abbrev main_call13_v0 : Ref sig .tc := ⟨.hbm, 418, rfl⟩
abbrev main_v254 : Ref sig .tc := ⟨.hbm, 419, rfl⟩
abbrev main_cst_40 : Ref sig .tc := ⟨.hbm, 420, rfl⟩
abbrev main_v255 : Ref sig .tc := ⟨.hbm, 421, rfl⟩
abbrev main_v256 : Ref sig .tc := ⟨.hbm, 422, rfl⟩
abbrev main_v257 : Ref sig .tc := ⟨.hbm, 423, rfl⟩
abbrev main_cst_41 : Ref sig .tc := ⟨.hbm, 424, rfl⟩
abbrev main_v258 : Ref sig .tc := ⟨.hbm, 425, rfl⟩
abbrev main_cst_42 : Ref sig .tc := ⟨.hbm, 426, rfl⟩
abbrev main_v259 : Ref sig .tc := ⟨.hbm, 427, rfl⟩
abbrev main_v260 : Ref sig .tc := ⟨.hbm, 428, rfl⟩
abbrev main_v261 : Ref sig .tc := ⟨.hbm, 429, rfl⟩
abbrev main_cst_43 : Ref sig .tc := ⟨.hbm, 430, rfl⟩
abbrev main_v262 : Ref sig .tc := ⟨.hbm, 431, rfl⟩
abbrev main_v263 : Ref sig .tc := ⟨.hbm, 432, rfl⟩
abbrev main_v264 : Ref sig .tc := ⟨.hbm, 433, rfl⟩
abbrev main_v265 : Ref sig .tc := ⟨.hbm, 434, rfl⟩
abbrev main_v266 : Ref sig .tc := ⟨.hbm, 435, rfl⟩
abbrev main_v267 : Ref sig .tc := ⟨.hbm, 436, rfl⟩
abbrev main_v268 : Ref sig .tc := ⟨.hbm, 437, rfl⟩
abbrev main_v269 : Ref sig .tc := ⟨.hbm, 438, rfl⟩
abbrev main_v270 : Ref sig .tc := ⟨.hbm, 439, rfl⟩
abbrev main_v271 : Ref sig .tc := ⟨.hbm, 440, rfl⟩
abbrev main_v272 : Ref sig .tc := ⟨.hbm, 441, rfl⟩
abbrev main_v273 : Ref sig .tc := ⟨.hbm, 442, rfl⟩
abbrev main_v274 : Ref sig .tc := ⟨.hbm, 443, rfl⟩
abbrev main_call14_cst : Ref sig .tc := ⟨.hbm, 444, rfl⟩
abbrev main_call14_v0 : Ref sig .tc := ⟨.hbm, 445, rfl⟩
abbrev main_v275 : Ref sig .tc := ⟨.hbm, 446, rfl⟩
abbrev main_cst_44 : Ref sig .tc := ⟨.hbm, 447, rfl⟩
abbrev main_v276 : Ref sig .tc := ⟨.hbm, 448, rfl⟩
abbrev main_v277 : Ref sig .tc := ⟨.hbm, 449, rfl⟩
abbrev main_cst_45 : Ref sig .tc := ⟨.hbm, 450, rfl⟩
abbrev main_v278 : Ref sig .tc := ⟨.hbm, 451, rfl⟩
abbrev main_v279 : Ref sig .tc := ⟨.hbm, 452, rfl⟩
abbrev main_cst_46 : Ref sig .tc := ⟨.hbm, 453, rfl⟩
abbrev main_v280 : Ref sig .tc := ⟨.hbm, 454, rfl⟩
abbrev main_v281 : Ref sig .tc := ⟨.hbm, 455, rfl⟩
abbrev main_cst_47 : Ref sig .tc := ⟨.hbm, 456, rfl⟩
abbrev main_v282 : Ref sig .tc := ⟨.hbm, 457, rfl⟩
abbrev main_v283 : Ref sig .tc := ⟨.hbm, 458, rfl⟩
abbrev main_v284 : Ref sig .tc := ⟨.hbm, 459, rfl⟩
abbrev main_v285 : Ref sig .tc := ⟨.hbm, 460, rfl⟩
abbrev main_v286 : Ref sig .tc := ⟨.hbm, 461, rfl⟩
abbrev main_v287 : Ref sig .tc := ⟨.hbm, 462, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  slices_S3x384x128_S1x384x128_0_0_0 : S3x384x128.Slices ![0, 0, 0] S1x384x128
  shapeCasts_S1x384x128_S384x128 : S1x384x128.ShapeCasts S384x128
  slices_S3x128_S1x128_0_0 : S3x128.Slices ![0, 0] S1x128
  shapeCasts_S1x128_S128 : S1x128.ShapeCasts S128
  concatenates_S200000x128_S200000x128_S200000x256_d1 : Shape.Concatenates [S200000x128, S200000x128] S200000x256 1
  slices_S3x256x128_S1x256x128_0_0_0 : S3x256x128.Slices ![0, 0, 0] S1x256x128
  shapeCasts_S1x256x128_S256x128 : S1x256x128.ShapeCasts S256x128
  bcast_S_S200000x1 : S_.BroadcastsInDim S200000x1 (![] : Fin 0 → Fin S200000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S200000x128_S128_d0 : S200000x128.ReducesTo [0] S128
  slices_S3x384x128_S1x384x128_1_0_0 : S3x384x128.Slices ![1, 0, 0] S1x384x128
  slices_S3x128_S1x128_1_0 : S3x128.Slices ![1, 0] S1x128
  slices_S3x256x128_S1x256x128_1_0_0 : S3x256x128.Slices ![1, 0, 0] S1x256x128
  slices_S3x384x128_S1x384x128_2_0_0 : S3x384x128.Slices ![2, 0, 0] S1x384x128
  slices_S3x128_S1x128_2_0 : S3x128.Slices ![2, 0] S1x128
  slices_S3x256x128_S1x256x128_2_0_0 : S3x256x128.Slices ![2, 0, 0] S1x256x128
  concatenates_S1x128_S1x128_S1x256_d1 : Shape.Concatenates [S1x128, S1x128] S1x256 1
  bcast_S1_S1x1_1 : S1.BroadcastsInDim S1x1 (![1] : Fin 1 → Fin S1x1.rank)
  dot_S50000x16_S16x128_S50000x128_1_0_0_1_n_n_wf : DotDims.WF S50000x16 S16x128 S50000x128 [1] [0] [0] [1] [] []
  dot_S200000x16_S16x128_S200000x128_1_0_0_1_n_n_wf : DotDims.WF S200000x16 S16x128 S200000x128 [1] [0] [0] [1] [] []
  gather_S50000x128_S200000x1_S200000x128_1_0_n_n_0_1_1128_wf : GatherDims.WF S50000x128 S200000x1 S200000x128 [1] [0] [] [0] [] 1 ![1, 128]
  dot_S200000x384_S384x128_S200000x128_1_0_0_1_n_n_wf : DotDims.WF S200000x384 S384x128 S200000x128 [1] [0] [0] [1] [] []
  dot_S200000x256_S256x128_S200000x128_1_0_0_1_n_n_wf : DotDims.WF S200000x256 S256x128 S200000x128 [1] [0] [0] [1] [] []
  scatter_S50000x128_S200000x1_S200000x128_1_0_0_1_wf : ScatterDims.WF S50000x128 S200000x1 S200000x128 [1] [0] [0] 1
  scatter_S50000x1_S200000x1_S200000x1_1_0_0_1_wf : ScatterDims.WF S50000x1 S200000x1 S200000x1 [1] [0] [0] 1
  dot_S50000x256_S256x128_S50000x128_1_0_0_1_n_n_wf : DotDims.WF S50000x256 S256x128 S50000x128 [1] [0] [0] [1] [] []
  dot_S1x256_S256x1_S1x1_1_0_0_1_n_n_wf : DotDims.WF S1x256 S256x1 S1x1 [1] [0] [0] [1] [] []

variable [Facts₀]

def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def dot_S200000x16_S16x128_S200000x128_1_0_0_1_n_n : DotDims S200000x16 S16x128 S200000x128 where
  lhsContracting := [1]
  rhsContracting := [0]
  lhsNonContracting := [0]
  rhsNonContracting := [1]
  lhsBatch := []
  rhsBatch := []
  wf := dot_S200000x16_S16x128_S200000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x384_S384x128_S200000x128_1_0_0_1_n_n : DotDims S200000x384 S384x128 S200000x128 where
  lhsContracting := [1]
  rhsContracting := [0]
  lhsNonContracting := [0]
  rhsNonContracting := [1]
  lhsBatch := []
  rhsBatch := []
  wf := dot_S200000x384_S384x128_S200000x128_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def scatter_S50000x1_S200000x1_S200000x1_1_0_0_1 : ScatterDims S50000x1 S200000x1 S200000x1 where
  updateWindowDims := [1]
  insertedWindowDims := [0]
  scatterDimsToOperandDims := [0]
  indexVectorDim := 1
  wf := scatter_S50000x1_S200000x1_S200000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

class Facts : Prop extends Facts₀ where

variable [Facts]
-- ==== Proof.RefOps0.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops0 : List (HloOp τ sig (Elt F)) :=
  [ StableHlo.unary main_arg1 main_v0 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v0 main_v1 rfl shapeCasts_S1x200000_S200000,
    StableHlo.unary main_arg1 main_v2 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v2 main_v3 rfl shapeCasts_S1x200000_S200000 ]

end Cert.ReferenceIdeal.Ops

end
-- ==== Proof.RefOps1.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops1 : List (HloOp τ sig (Elt F)) :=
  [ StableHlo.binary main_arg0 main_arg3 main_v4 ((fun l r => Host.dotGeneral dot_S50000x16_S16x128_S50000x128_1_0_0_1_n_n none l r) : (⟨S50000x16, .f32⟩ : BufTy).Contents (Elt F) → (⟨S16x128, .f32⟩ : BufTy).Contents (Elt F) → (⟨S50000x128, .f32⟩ : BufTy).Contents (Elt F)),
    StableHlo.unary main_arg4 main_v5 (broadcastInDim S1x128 ![1] bcast_S128_S1x128_1),
    StableHlo.unary main_v5 main_v6 (broadcastInDim S50000x128 ![0, 1] bcast_S1x128_S50000x128_0_1),
    StableHlo.binary main_v4 main_v6 main_v7 addf,
    StableHlo.TRef.nullary main_call0.cst (constant S_ .f32 0x00000000#32),
    StableHlo.TRef.unary main_call0.cst main_call0.v0 (broadcastInDim S50000x128 ![] bcast_S_S50000x128),
    StableHlo.TRef.binary (.of main_v7) main_call0.v0 main_call0.v1 maximumf ]

end Cert.ReferenceIdeal.Ops

end
-- ==== Proof.RefOps2.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops2 : List (HloOp τ sig (Elt F)) :=
  [ StableHlo.binary main_arg2 main_arg5 main_v9 ((fun l r => Host.dotGeneral dot_S200000x16_S16x128_S200000x128_1_0_0_1_n_n none l r) : (⟨S200000x16, .f32⟩ : BufTy).Contents (Elt F) → (⟨S16x128, .f32⟩ : BufTy).Contents (Elt F) → (⟨S200000x128, .f32⟩ : BufTy).Contents (Elt F)),
    StableHlo.unary main_arg6 main_v10 (broadcastInDim S1x128 ![1] bcast_S128_S1x128_1),
    StableHlo.unary main_v10 main_v11 (broadcastInDim S200000x128 ![0, 1] bcast_S1x128_S200000x128_0_1),
    StableHlo.binary main_v9 main_v11 main_v12 addf,
    StableHlo.TRef.nullary main_call1.cst (constant S_ .f32 0x00000000#32),
    StableHlo.TRef.unary main_call1.cst main_call1.v0 (broadcastInDim S200000x128 ![] bcast_S_S200000x128),
    StableHlo.TRef.binary (.of main_v12) main_call1.v0 main_call1.v1 maximumf ]

end Cert.ReferenceIdeal.Ops

end
-- ==== Proof.RefOps3.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops3 : List (HloOp τ sig (Elt F)) :=
  [ StableHlo.nullary main_c (constantI S_ 32 0#32),
    StableHlo.unary main_c main_v14 (broadcastInDim S200000 ![] bcast_S_S200000),
    StableHlo.binary main_v1 main_v14 main_v15 (cmpi .slt),
    StableHlo.nullary main_c_0 (constantI S_ 32 50000#32),
    StableHlo.unary main_c_0 main_v16 (broadcastInDim S200000 ![] bcast_S_S200000),
    StableHlo.binary main_v1 main_v16 main_v17 addi,
    StableHlo.ternary main_v15 main_v17 main_v1 main_v18 select,
    StableHlo.unary main_v18 main_v19 (broadcastInDim S200000x1 ![0] bcast_S200000_S200000x1_0),
    StableHlo.binary main_v8 main_v19 main_v20 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    StableHlo.nullary main_c_1 (constantI S_ 32 0#32),
    StableHlo.unary main_c_1 main_v21 (broadcastInDim S200000 ![] bcast_S_S200000),
    StableHlo.binary main_v3 main_v21 main_v22 (cmpi .slt),
    StableHlo.nullary main_c_2 (constantI S_ 32 50000#32),
    StableHlo.unary main_c_2 main_v23 (broadcastInDim S200000 ![] bcast_S_S200000),
    StableHlo.binary main_v3 main_v23 main_v24 addi,
    StableHlo.ternary main_v22 main_v24 main_v3 main_v25 select,
    StableHlo.unary main_v25 main_v26 (broadcastInDim S200000x1 ![0] bcast_S200000_S200000x1_0),
    StableHlo.binary main_v8 main_v26 main_v27 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)) ]

end Cert.ReferenceIdeal.Ops

end
-- ==== Proof.RefOps4.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops4 : List (HloOp τ sig (Elt F)) :=
  [ StableHlo.nary ![main_v20, main_v27, main_v13] main_v28 (fun u => concatenate S200000x384 1 [⟨S200000x128, u 0⟩, ⟨S200000x128, u 1⟩, ⟨S200000x128, u 2⟩] concatenates_S200000x128_S200000x128_S200000x128_S200000x384_d1),
    StableHlo.unary main_arg7 main_v29 ((extractStridedSlice S1x384x128 ![0, 0, 0] · slices_S3x384x128_S1x384x128_0_0_0) : (⟨S3x384x128, .f32⟩ : BufTy).Contents (Elt F) → (⟨S1x384x128, .f32⟩ : BufTy).Contents (Elt F)),
    StableHlo.reshape main_v29 main_v30 rfl shapeCasts_S1x384x128_S384x128,
    StableHlo.binary main_v28 main_v30 main_v31 ((fun l r => Host.dotGeneral dot_S200000x384_S384x128_S200000x128_1_0_0_1_n_n none l r) : (⟨S200000x384, .f32⟩ : BufTy).Contents (Elt F) → (⟨S384x128, .f32⟩ : BufTy).Contents (Elt F) → (⟨S200000x128, .f32⟩ : BufTy).Contents (Elt F)),
    StableHlo.unary main_arg8 main_v32 ((extractStridedSlice S1x128 ![0, 0] · slices_S3x128_S1x128_0_0) : (⟨S3x128, .f32⟩ : BufTy).Contents (Elt F) → (⟨S1x128, .f32⟩ : BufTy).Contents (Elt F)),
    StableHlo.reshape main_v32 main_v33 rfl shapeCasts_S1x128_S128,
    StableHlo.unary main_v33 main_v34 (broadcastInDim S1x128 ![1] bcast_S128_S1x128_1),
    StableHlo.unary main_v34 main_v35 (broadcastInDim S200000x128 ![0, 1] bcast_S1x128_S200000x128_0_1),
    StableHlo.binary main_v31 main_v35 main_v36 addf,
    StableHlo.TRef.nullary main_call2.cst (constant S_ .f32 0x00000000#32),
    StableHlo.TRef.unary main_call2.cst main_call2.v0 (broadcastInDim S200000x128 ![] bcast_S_S200000x128),
    StableHlo.TRef.binary (.of main_v36) main_call2.v0 main_call2.v1 maximumf ]

end Cert.ReferenceIdeal.Ops

end
-- ==== Proof.RefOps5.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops5 : List (HloOp τ sig (Elt F)) :=
  [ StableHlo.nullary main_c_3 (constantI S_ 32 0#32),
    StableHlo.unary main_c_3 main_v38 (broadcastInDim S200000 ![] bcast_S_S200000),
    StableHlo.binary main_v1 main_v38 main_v39 (cmpi .slt),
    StableHlo.nullary main_c_4 (constantI S_ 32 50000#32),
    StableHlo.unary main_c_4 main_v40 (broadcastInDim S200000 ![] bcast_S_S200000),
    StableHlo.binary main_v1 main_v40 main_v41 addi,
    StableHlo.ternary main_v39 main_v41 main_v1 main_v42 select,
    StableHlo.unary main_v42 main_v43 (broadcastInDim S200000x1 ![0] bcast_S200000_S200000x1_0),
    StableHlo.binary main_v8 main_v43 main_v44 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)) ]

end Cert.ReferenceIdeal.Ops

end
-- ==== Proof.RefOps6.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops6 : List (HloOp τ sig (Elt F)) :=
  [ StableHlo.binary main_v44 main_v37 main_v45 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    StableHlo.unary main_arg9 main_v46 ((extractStridedSlice S1x256x128 ![0, 0, 0] · slices_S3x256x128_S1x256x128_0_0_0) : (⟨S3x256x128, .f32⟩ : BufTy).Contents (Elt F) → (⟨S1x256x128, .f32⟩ : BufTy).Contents (Elt F)),
    StableHlo.reshape main_v46 main_v47 rfl shapeCasts_S1x256x128_S256x128,
    StableHlo.binary main_v45 main_v47 main_v48 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    StableHlo.unary main_arg10 main_v49 ((extractStridedSlice S1x128 ![0, 0] · slices_S3x128_S1x128_0_0) : (⟨S3x128, .f32⟩ : BufTy).Contents (Elt F) → (⟨S1x128, .f32⟩ : BufTy).Contents (Elt F)),
    StableHlo.reshape main_v49 main_v50 rfl shapeCasts_S1x128_S128,
    StableHlo.unary main_v50 main_v51 (broadcastInDim S1x128 ![1] bcast_S128_S1x128_1),
    StableHlo.unary main_v51 main_v52 (broadcastInDim S200000x128 ![0, 1] bcast_S1x128_S200000x128_0_1),
    StableHlo.binary main_v48 main_v52 main_v53 addf ]

end Cert.ReferenceIdeal.Ops

end
-- ==== Proof.RefOps7.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops7 : List (HloOp τ sig (Elt F)) :=
  [ StableHlo.TRef.nullary main_call3.cst (constant S_ .f32 0x00000000#32),
    StableHlo.TRef.unary main_call3.cst main_call3.v0 (broadcastInDim S200000x128 ![] bcast_S_S200000x128),
    StableHlo.TRef.binary (.of main_v53) main_call3.v0 main_call3.v1 maximumf ]

end Cert.ReferenceIdeal.Ops

end
-- ==== Proof.RefOps8.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops8 : List (HloOp τ sig (Elt F)) :=
  [ StableHlo.nullary main_cst (constant S_ .f32 0x00000000#32),
    StableHlo.unary main_cst main_v55 (broadcastInDim S50000x128 ![] bcast_S_S50000x128),
    StableHlo.unary main_v3 main_v56 (broadcastInDim S200000x1 ![0] bcast_S200000_S200000x1_0),
    StableHlo.ternary main_v55 main_v56 main_v54 main_v57 ((fun x i u => Host.scatterAdd scatter_S50000x128_S200000x1_S200000x128_1_0_0_1 x i u) : (⟨S50000x128, .f32⟩ : BufTy).Contents (Elt F) → (⟨S200000x1, .i32⟩ : BufTy).Contents (Elt F) → (⟨S200000x128, .f32⟩ : BufTy).Contents (Elt F) → (⟨S50000x128, .f32⟩ : BufTy).Contents (Elt F)),
    StableHlo.nullary main_cst_5 (constant S_ .f32 0x3F800000#32),
    StableHlo.unary main_cst_5 main_v58 (broadcastInDim S200000x1 ![] bcast_S_S200000x1),
    StableHlo.nullary main_cst_6 (constant S_ .f32 0x00000000#32),
    StableHlo.unary main_cst_6 main_v59 (broadcastInDim S50000x1 ![] bcast_S_S50000x1),
    StableHlo.unary main_v3 main_v60 (broadcastInDim S200000x1 ![0] bcast_S200000_S200000x1_0),
    StableHlo.ternary main_v59 main_v60 main_v58 main_v61 ((fun x i u => Host.scatterAdd scatter_S50000x1_S200000x1_S200000x1_1_0_0_1 x i u) : (⟨S50000x1, .f32⟩ : BufTy).Contents (Elt F) → (⟨S200000x1, .i32⟩ : BufTy).Contents (Elt F) → (⟨S200000x1, .f32⟩ : BufTy).Contents (Elt F) → (⟨S50000x1, .f32⟩ : BufTy).Contents (Elt F)),
    StableHlo.nullary main_cst_7 (constant S_ .f32 0x3F800000#32),
    StableHlo.unary main_cst_7 main_v62 (broadcastInDim S50000x1 ![] bcast_S_S50000x1),
    StableHlo.binary main_v61 main_v62 main_v63 maximumf,
    StableHlo.unary main_v63 main_v64 (broadcastInDim S50000x128 ![0, 1] bcast_S50000x1_S50000x128_0_1),
    StableHlo.binary main_v57 main_v64 main_v65 Host.divf ]

end Cert.ReferenceIdeal.Ops

end
-- ==== Proof.RefOps9.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops9 : List (HloOp τ sig (Elt F)) :=
  [ StableHlo.binary main_v8 main_v65 main_v66 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg11 main_v67 ((extractStridedSlice S1x256x128 ![0, 0, 0] · slices_S3x256x128_S1x256x128_0_0_0) : (⟨S3x256x128, .f32⟩ : BufTy).Contents (Elt F) → (⟨S1x256x128, .f32⟩ : BufTy).Contents (Elt F)),
    StableHlo.reshape main_v67 main_v68 rfl shapeCasts_S1x256x128_S256x128,
    StableHlo.binary main_v66 main_v68 main_v69 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v70 ((extractStridedSlice S1x128 ![0, 0] · slices_S3x128_S1x128_0_0) : (⟨S3x128, .f32⟩ : BufTy).Contents (Elt F) → (⟨S1x128, .f32⟩ : BufTy).Contents (Elt F)),
    StableHlo.reshape main_v70 main_v71 rfl shapeCasts_S1x128_S128,
    StableHlo.unary main_v71 main_v72 (broadcastInDim S1x128 ![1] bcast_S128_S1x128_1),
    StableHlo.unary main_v72 main_v73 (broadcastInDim S50000x128 ![0, 1] bcast_S1x128_S50000x128_0_1),
    StableHlo.binary main_v69 main_v73 main_v74 addf,
    StableHlo.TRef.nullary main_call4.cst (constant S_ .f32 0x00000000#32),
    StableHlo.TRef.unary main_call4.cst main_call4.v0 (broadcastInDim S50000x128 ![] bcast_S_S50000x128),
    StableHlo.TRef.binary (.of main_v74) main_call4.v0 main_call4.v1 maximumf ]

end Cert.ReferenceIdeal.Ops

end
-- ==== Proof.RefOps10.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops10 : List (HloOp τ sig (Elt F)) :=
  [ StableHlo.nullary main_cst_8 (constant S_ .f32 0x00000000#32),
    StableHlo.binary main_v75 main_cst_8 main_v76 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v77 (broadcastInDim S128 ![] bcast_S_S128),
    StableHlo.binary main_v76 main_v77 main_v78 Host.divf,
    StableHlo.nullary main_c_10 (constantI S_ 32 0#32),
    StableHlo.TRef.nullary main_call5.cst (constant S_ .f32 0x00000000#32),
    StableHlo.TRef.binary (.of main_v75) main_call5.cst main_call5.v0 (fun x v => Host.reduceAdd x v reducesTo_S50000x128_S128_d0 h_S_),
    StableHlo.TRef.unary main_call5.v0 main_call5.v1 (broadcastInDim S1x128 ![1] bcast_S128_S1x128_1),
    StableHlo.TRef.nullary main_call5.cst_0 (constant S_ .f32 0x47435000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S50000x128 ![0, 1] bcast_S1x128_S50000x128_0_1),
    StableHlo.TRef.binary (.of main_v75) main_call5.v4 main_call5.v5 subf,
    StableHlo.TRef.binary main_call5.v5 main_call5.v5 main_call5.v6 mulf,
    StableHlo.TRef.unary (.of main_c_10) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v78 main_v80 (broadcastInDim S1x128 ![1] bcast_S128_S1x128_1),
    StableHlo.unary main_v80 main_v81 (broadcastInDim S50000x128 ![0, 1] bcast_S1x128_S50000x128_0_1),
    StableHlo.binary main_v75 main_v81 main_v82 subf,
    StableHlo.nullary main_cst_11 (constant S_ .f32 0x3727C5AC#32),
    StableHlo.unary main_cst_11 main_v83 (broadcastInDim S128 ![] bcast_S_S128),
    StableHlo.binary main_v79 main_v83 main_v84 addf,
    StableHlo.unary main_v84 main_v85 Host.rsqrt,
    StableHlo.unary main_v85 main_v86 (broadcastInDim S1x128 ![1] bcast_S128_S1x128_1),
    StableHlo.unary main_v86 main_v87 (broadcastInDim S50000x128 ![0, 1] bcast_S1x128_S50000x128_0_1),
    StableHlo.binary main_v82 main_v87 main_v88 mulf,
    StableHlo.unary main_arg13 main_v89 (broadcastInDim S1x128 ![1] bcast_S128_S1x128_1),
    StableHlo.unary main_v89 main_v90 (broadcastInDim S50000x128 ![0, 1] bcast_S1x128_S50000x128_0_1),
    StableHlo.binary main_v88 main_v90 main_v91 mulf,
    StableHlo.unary main_arg14 main_v92 (broadcastInDim S1x128 ![1] bcast_S128_S1x128_1),
    StableHlo.unary main_v92 main_v93 (broadcastInDim S50000x128 ![0, 1] bcast_S1x128_S50000x128_0_1),
    StableHlo.binary main_v91 main_v93 main_v94 addf ]

end Cert.ReferenceIdeal.Ops

end
-- ==== Proof.RefOps11.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops11 : List (HloOp τ sig (Elt F)) :=
  [ StableHlo.nullary main_cst_12 (constant S_ .f32 0x00000000#32),
    StableHlo.binary main_v37 main_cst_12 main_v95 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    StableHlo.nullary main_cst_13 (constant S_ .f32 0x48435000#32),
    StableHlo.unary main_cst_13 main_v96 (broadcastInDim S128 ![] bcast_S_S128),
    StableHlo.binary main_v95 main_v96 main_v97 Host.divf,
    StableHlo.nullary main_c_14 (constantI S_ 32 0#32),
    StableHlo.TRef.nullary main_call6.cst (constant S_ .f32 0x00000000#32),
    StableHlo.TRef.binary (.of main_v37) main_call6.cst main_call6.v0 (fun x v => Host.reduceAdd x v reducesTo_S200000x128_S128_d0 h_S_),
    StableHlo.TRef.unary main_call6.v0 main_call6.v1 (broadcastInDim S1x128 ![1] bcast_S128_S1x128_1),
    StableHlo.TRef.nullary main_call6.cst_0 (constant S_ .f32 0x48435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S200000x128 ![0, 1] bcast_S1x128_S200000x128_0_1),
    StableHlo.TRef.binary (.of main_v37) main_call6.v4 main_call6.v5 subf,
    StableHlo.TRef.binary main_call6.v5 main_call6.v5 main_call6.v6 mulf,
    StableHlo.TRef.unary (.of main_c_14) main_call6.v7 (sitofp .f32),
    StableHlo.TRef.nullary main_call6.cst_1 (constant S_ .f32 0x48435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S200000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v97 main_v99 (broadcastInDim S1x128 ![1] bcast_S128_S1x128_1),
    StableHlo.unary main_v99 main_v100 (broadcastInDim S200000x128 ![0, 1] bcast_S1x128_S200000x128_0_1),
    StableHlo.binary main_v37 main_v100 main_v101 subf,
    StableHlo.nullary main_cst_15 (constant S_ .f32 0x3727C5AC#32) ]

end Cert.ReferenceIdeal.Ops

end
-- ==== Proof.RefOps12.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops12 : List (HloOp τ sig (Elt F)) :=
  [ StableHlo.unary main_cst_15 main_v102 (broadcastInDim S128 ![] bcast_S_S128),
    StableHlo.binary main_v98 main_v102 main_v103 addf,
    StableHlo.unary main_v103 main_v104 Host.rsqrt,
    StableHlo.unary main_v104 main_v105 (broadcastInDim S1x128 ![1] bcast_S128_S1x128_1),
    StableHlo.unary main_v105 main_v106 (broadcastInDim S200000x128 ![0, 1] bcast_S1x128_S200000x128_0_1),
    StableHlo.binary main_v101 main_v106 main_v107 mulf,
    StableHlo.unary main_arg15 main_v108 (broadcastInDim S1x128 ![1] bcast_S128_S1x128_1),
    StableHlo.unary main_v108 main_v109 (broadcastInDim S200000x128 ![0, 1] bcast_S1x128_S200000x128_0_1),
    StableHlo.binary main_v107 main_v109 main_v110 mulf,
    StableHlo.unary main_arg16 main_v111 (broadcastInDim S1x128 ![1] bcast_S128_S1x128_1),
    StableHlo.unary main_v111 main_v112 (broadcastInDim S200000x128 ![0, 1] bcast_S1x128_S200000x128_0_1),
    StableHlo.binary main_v110 main_v112 main_v113 addf ]

end Cert.ReferenceIdeal.Ops

end
-- ==== Proof.RefOps13.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops13 : List (HloOp τ sig (Elt F)) :=
  [ StableHlo.nullary main_c_16 (constantI S_ 32 0#32),
    StableHlo.unary main_c_16 main_v114 (broadcastInDim S200000 ![] bcast_S_S200000),
    StableHlo.binary main_v1 main_v114 main_v115 (cmpi .slt),
    StableHlo.nullary main_c_17 (constantI S_ 32 50000#32),
    StableHlo.unary main_c_17 main_v116 (broadcastInDim S200000 ![] bcast_S_S200000),
    StableHlo.binary main_v1 main_v116 main_v117 addi,
    StableHlo.ternary main_v115 main_v117 main_v1 main_v118 select,
    StableHlo.unary main_v118 main_v119 (broadcastInDim S200000x1 ![0] bcast_S200000_S200000x1_0),
    StableHlo.binary main_v94 main_v119 main_v120 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    StableHlo.nullary main_c_18 (constantI S_ 32 0#32),
    StableHlo.unary main_c_18 main_v121 (broadcastInDim S200000 ![] bcast_S_S200000),
    StableHlo.binary main_v3 main_v121 main_v122 (cmpi .slt),
    StableHlo.nullary main_c_19 (constantI S_ 32 50000#32),
    StableHlo.unary main_c_19 main_v123 (broadcastInDim S200000 ![] bcast_S_S200000),
    StableHlo.binary main_v3 main_v123 main_v124 addi,
    StableHlo.ternary main_v122 main_v124 main_v3 main_v125 select,
    StableHlo.unary main_v125 main_v126 (broadcastInDim S200000x1 ![0] bcast_S200000_S200000x1_0),
    StableHlo.binary main_v94 main_v126 main_v127 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)) ]

end Cert.ReferenceIdeal.Ops

end
-- ==== Proof.RefOps14.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops14 : List (HloOp τ sig (Elt F)) :=
  [ StableHlo.nary ![main_v120, main_v127, main_v113] main_v128 (fun u => concatenate S200000x384 1 [⟨S200000x128, u 0⟩, ⟨S200000x128, u 1⟩, ⟨S200000x128, u 2⟩] concatenates_S200000x128_S200000x128_S200000x128_S200000x384_d1),
    StableHlo.unary main_arg7 main_v129 ((extractStridedSlice S1x384x128 ![1, 0, 0] · slices_S3x384x128_S1x384x128_1_0_0) : (⟨S3x384x128, .f32⟩ : BufTy).Contents (Elt F) → (⟨S1x384x128, .f32⟩ : BufTy).Contents (Elt F)),
    StableHlo.reshape main_v129 main_v130 rfl shapeCasts_S1x384x128_S384x128,
    StableHlo.binary main_v128 main_v130 main_v131 ((fun l r => Host.dotGeneral dot_S200000x384_S384x128_S200000x128_1_0_0_1_n_n none l r) : (⟨S200000x384, .f32⟩ : BufTy).Contents (Elt F) → (⟨S384x128, .f32⟩ : BufTy).Contents (Elt F) → (⟨S200000x128, .f32⟩ : BufTy).Contents (Elt F)),
    StableHlo.unary main_arg8 main_v132 ((extractStridedSlice S1x128 ![1, 0] · slices_S3x128_S1x128_1_0) : (⟨S3x128, .f32⟩ : BufTy).Contents (Elt F) → (⟨S1x128, .f32⟩ : BufTy).Contents (Elt F)),
    StableHlo.reshape main_v132 main_v133 rfl shapeCasts_S1x128_S128,
    StableHlo.unary main_v133 main_v134 (broadcastInDim S1x128 ![1] bcast_S128_S1x128_1),
    StableHlo.unary main_v134 main_v135 (broadcastInDim S200000x128 ![0, 1] bcast_S1x128_S200000x128_0_1),
    StableHlo.binary main_v131 main_v135 main_v136 addf,
    StableHlo.TRef.nullary main_call7.cst (constant S_ .f32 0x00000000#32),
    StableHlo.TRef.unary main_call7.cst main_call7.v0 (broadcastInDim S200000x128 ![] bcast_S_S200000x128),
    StableHlo.TRef.binary (.of main_v136) main_call7.v0 main_call7.v1 maximumf ]

end Cert.ReferenceIdeal.Ops

end
-- ==== Proof.RefOps15.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops15 : List (HloOp τ sig (Elt F)) :=
  [ StableHlo.nullary main_c_20 (constantI S_ 32 0#32),
    StableHlo.unary main_c_20 main_v138 (broadcastInDim S200000 ![] bcast_S_S200000),
    StableHlo.binary main_v1 main_v138 main_v139 (cmpi .slt),
    StableHlo.nullary main_c_21 (constantI S_ 32 50000#32),
    StableHlo.unary main_c_21 main_v140 (broadcastInDim S200000 ![] bcast_S_S200000),
    StableHlo.binary main_v1 main_v140 main_v141 addi,
    StableHlo.ternary main_v139 main_v141 main_v1 main_v142 select,
    StableHlo.unary main_v142 main_v143 (broadcastInDim S200000x1 ![0] bcast_S200000_S200000x1_0),
    StableHlo.binary main_v94 main_v143 main_v144 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)) ]

end Cert.ReferenceIdeal.Ops

end
-- ==== Proof.RefOps16.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops16 : List (HloOp τ sig (Elt F)) :=
  [ StableHlo.binary main_v144 main_v137 main_v145 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    StableHlo.unary main_arg9 main_v146 ((extractStridedSlice S1x256x128 ![1, 0, 0] · slices_S3x256x128_S1x256x128_1_0_0) : (⟨S3x256x128, .f32⟩ : BufTy).Contents (Elt F) → (⟨S1x256x128, .f32⟩ : BufTy).Contents (Elt F)),
    StableHlo.reshape main_v146 main_v147 rfl shapeCasts_S1x256x128_S256x128,
    StableHlo.binary main_v145 main_v147 main_v148 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    StableHlo.unary main_arg10 main_v149 ((extractStridedSlice S1x128 ![1, 0] · slices_S3x128_S1x128_1_0) : (⟨S3x128, .f32⟩ : BufTy).Contents (Elt F) → (⟨S1x128, .f32⟩ : BufTy).Contents (Elt F)),
    StableHlo.reshape main_v149 main_v150 rfl shapeCasts_S1x128_S128,
    StableHlo.unary main_v150 main_v151 (broadcastInDim S1x128 ![1] bcast_S128_S1x128_1),
    StableHlo.unary main_v151 main_v152 (broadcastInDim S200000x128 ![0, 1] bcast_S1x128_S200000x128_0_1),
    StableHlo.binary main_v148 main_v152 main_v153 addf,
    StableHlo.TRef.nullary main_call8.cst (constant S_ .f32 0x00000000#32),
    StableHlo.TRef.unary main_call8.cst main_call8.v0 (broadcastInDim S200000x128 ![] bcast_S_S200000x128),
    StableHlo.TRef.binary (.of main_v153) main_call8.v0 main_call8.v1 maximumf ]

end Cert.ReferenceIdeal.Ops

end
-- ==== Proof.RefOps17.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops17 : List (HloOp τ sig (Elt F)) :=
  [ StableHlo.nullary main_cst_22 (constant S_ .f32 0x00000000#32) ]

end Cert.ReferenceIdeal.Ops

end
-- ==== Proof.RefOps18.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops18 : List (HloOp τ sig (Elt F)) :=
  [ StableHlo.unary main_cst_22 main_v155 (broadcastInDim S50000x128 ![] bcast_S_S50000x128),
    StableHlo.unary main_v3 main_v156 (broadcastInDim S200000x1 ![0] bcast_S200000_S200000x1_0),
    StableHlo.ternary main_v155 main_v156 main_v154 main_v157 ((fun x i u => Host.scatterAdd scatter_S50000x128_S200000x1_S200000x128_1_0_0_1 x i u) : (⟨S50000x128, .f32⟩ : BufTy).Contents (Elt F) → (⟨S200000x1, .i32⟩ : BufTy).Contents (Elt F) → (⟨S200000x128, .f32⟩ : BufTy).Contents (Elt F) → (⟨S50000x128, .f32⟩ : BufTy).Contents (Elt F)),
    StableHlo.nullary main_cst_23 (constant S_ .f32 0x3F800000#32),
    StableHlo.unary main_cst_23 main_v158 (broadcastInDim S200000x1 ![] bcast_S_S200000x1),
    StableHlo.nullary main_cst_24 (constant S_ .f32 0x00000000#32),
    StableHlo.unary main_cst_24 main_v159 (broadcastInDim S50000x1 ![] bcast_S_S50000x1),
    StableHlo.unary main_v3 main_v160 (broadcastInDim S200000x1 ![0] bcast_S200000_S200000x1_0),
    StableHlo.ternary main_v159 main_v160 main_v158 main_v161 ((fun x i u => Host.scatterAdd scatter_S50000x1_S200000x1_S200000x1_1_0_0_1 x i u) : (⟨S50000x1, .f32⟩ : BufTy).Contents (Elt F) → (⟨S200000x1, .i32⟩ : BufTy).Contents (Elt F) → (⟨S200000x1, .f32⟩ : BufTy).Contents (Elt F) → (⟨S50000x1, .f32⟩ : BufTy).Contents (Elt F)),
    StableHlo.nullary main_cst_25 (constant S_ .f32 0x3F800000#32),
    StableHlo.unary main_cst_25 main_v162 (broadcastInDim S50000x1 ![] bcast_S_S50000x1),
    StableHlo.binary main_v161 main_v162 main_v163 maximumf,
    StableHlo.unary main_v163 main_v164 (broadcastInDim S50000x128 ![0, 1] bcast_S50000x1_S50000x128_0_1),
    StableHlo.binary main_v157 main_v164 main_v165 Host.divf ]

end Cert.ReferenceIdeal.Ops

end
-- ==== Proof.RefOps19.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops19 : List (HloOp τ sig (Elt F)) :=
  [ StableHlo.binary main_v94 main_v165 main_v166 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg11 main_v167 ((extractStridedSlice S1x256x128 ![1, 0, 0] · slices_S3x256x128_S1x256x128_1_0_0) : (⟨S3x256x128, .f32⟩ : BufTy).Contents (Elt F) → (⟨S1x256x128, .f32⟩ : BufTy).Contents (Elt F)),
    StableHlo.reshape main_v167 main_v168 rfl shapeCasts_S1x256x128_S256x128,
    StableHlo.binary main_v166 main_v168 main_v169 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v170 ((extractStridedSlice S1x128 ![1, 0] · slices_S3x128_S1x128_1_0) : (⟨S3x128, .f32⟩ : BufTy).Contents (Elt F) → (⟨S1x128, .f32⟩ : BufTy).Contents (Elt F)),
    StableHlo.reshape main_v170 main_v171 rfl shapeCasts_S1x128_S128,
    StableHlo.unary main_v171 main_v172 (broadcastInDim S1x128 ![1] bcast_S128_S1x128_1),
    StableHlo.unary main_v172 main_v173 (broadcastInDim S50000x128 ![0, 1] bcast_S1x128_S50000x128_0_1),
    StableHlo.binary main_v169 main_v173 main_v174 addf,
    StableHlo.TRef.nullary main_call9.cst (constant S_ .f32 0x00000000#32),
    StableHlo.TRef.unary main_call9.cst main_call9.v0 (broadcastInDim S50000x128 ![] bcast_S_S50000x128),
    StableHlo.TRef.binary (.of main_v174) main_call9.v0 main_call9.v1 maximumf ]

end Cert.ReferenceIdeal.Ops

end
-- ==== Proof.RefOps20.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops20 : List (HloOp τ sig (Elt F)) :=
  [ StableHlo.nullary main_cst_26 (constant S_ .f32 0x00000000#32),
    StableHlo.binary main_v175 main_cst_26 main_v176 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_27 (constant S_ .f32 0x47435000#32),
    StableHlo.unary main_cst_27 main_v177 (broadcastInDim S128 ![] bcast_S_S128),
    StableHlo.binary main_v176 main_v177 main_v178 Host.divf,
    StableHlo.nullary main_c_28 (constantI S_ 32 0#32),
    StableHlo.TRef.nullary main_call10.cst (constant S_ .f32 0x00000000#32),
    StableHlo.TRef.binary (.of main_v175) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v175) main_call10.v4 main_call10.v5 subf,
    StableHlo.TRef.binary main_call10.v5 main_call10.v5 main_call10.v6 mulf,
    StableHlo.TRef.unary (.of main_c_28) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v178 main_v180 (broadcastInDim S1x128 ![1] bcast_S128_S1x128_1),
    StableHlo.unary main_v180 main_v181 (broadcastInDim S50000x128 ![0, 1] bcast_S1x128_S50000x128_0_1),
    StableHlo.binary main_v175 main_v181 main_v182 subf,
    StableHlo.nullary main_cst_29 (constant S_ .f32 0x3727C5AC#32),
    StableHlo.unary main_cst_29 main_v183 (broadcastInDim S128 ![] bcast_S_S128),
    StableHlo.binary main_v179 main_v183 main_v184 addf,
    StableHlo.unary main_v184 main_v185 Host.rsqrt,
    StableHlo.unary main_v185 main_v186 (broadcastInDim S1x128 ![1] bcast_S128_S1x128_1),
    StableHlo.unary main_v186 main_v187 (broadcastInDim S50000x128 ![0, 1] bcast_S1x128_S50000x128_0_1),
    StableHlo.binary main_v182 main_v187 main_v188 mulf,
    StableHlo.unary main_arg13 main_v189 (broadcastInDim S1x128 ![1] bcast_S128_S1x128_1),
    StableHlo.unary main_v189 main_v190 (broadcastInDim S50000x128 ![0, 1] bcast_S1x128_S50000x128_0_1),
    StableHlo.binary main_v188 main_v190 main_v191 mulf,
    StableHlo.unary main_arg14 main_v192 (broadcastInDim S1x128 ![1] bcast_S128_S1x128_1),
    StableHlo.unary main_v192 main_v193 (broadcastInDim S50000x128 ![0, 1] bcast_S1x128_S50000x128_0_1),
    StableHlo.binary main_v191 main_v193 main_v194 addf ]

end Cert.ReferenceIdeal.Ops

end
-- ==== Proof.RefOps21.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops21 : List (HloOp τ sig (Elt F)) :=
  [ StableHlo.nullary main_cst_30 (constant S_ .f32 0x00000000#32),
    StableHlo.binary main_v137 main_cst_30 main_v195 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    StableHlo.nullary main_cst_31 (constant S_ .f32 0x48435000#32),
    StableHlo.unary main_cst_31 main_v196 (broadcastInDim S128 ![] bcast_S_S128),
    StableHlo.binary main_v195 main_v196 main_v197 Host.divf,
    StableHlo.nullary main_c_32 (constantI S_ 32 0#32),
    StableHlo.TRef.nullary main_call11.cst (constant S_ .f32 0x00000000#32),
    StableHlo.TRef.binary (.of main_v137) main_call11.cst main_call11.v0 (fun x v => Host.reduceAdd x v reducesTo_S200000x128_S128_d0 h_S_),
    StableHlo.TRef.unary main_call11.v0 main_call11.v1 (broadcastInDim S1x128 ![1] bcast_S128_S1x128_1),
    StableHlo.TRef.nullary main_call11.cst_0 (constant S_ .f32 0x48435000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S200000x128 ![0, 1] bcast_S1x128_S200000x128_0_1),
    StableHlo.TRef.binary (.of main_v137) main_call11.v4 main_call11.v5 subf,
    StableHlo.TRef.binary main_call11.v5 main_call11.v5 main_call11.v6 mulf,
    StableHlo.TRef.unary (.of main_c_32) main_call11.v7 (sitofp .f32),
    StableHlo.TRef.nullary main_call11.cst_1 (constant S_ .f32 0x48435000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S200000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v197 main_v199 (broadcastInDim S1x128 ![1] bcast_S128_S1x128_1),
    StableHlo.unary main_v199 main_v200 (broadcastInDim S200000x128 ![0, 1] bcast_S1x128_S200000x128_0_1),
    StableHlo.binary main_v137 main_v200 main_v201 subf,
    StableHlo.nullary main_cst_33 (constant S_ .f32 0x3727C5AC#32),
    StableHlo.unary main_cst_33 main_v202 (broadcastInDim S128 ![] bcast_S_S128),
    StableHlo.binary main_v198 main_v202 main_v203 addf ]

end Cert.ReferenceIdeal.Ops

end
-- ==== Proof.RefOps22.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops22 : List (HloOp τ sig (Elt F)) :=
  [ StableHlo.unary main_v203 main_v204 Host.rsqrt,
    StableHlo.unary main_v204 main_v205 (broadcastInDim S1x128 ![1] bcast_S128_S1x128_1),
    StableHlo.unary main_v205 main_v206 (broadcastInDim S200000x128 ![0, 1] bcast_S1x128_S200000x128_0_1),
    StableHlo.binary main_v201 main_v206 main_v207 mulf,
    StableHlo.unary main_arg15 main_v208 (broadcastInDim S1x128 ![1] bcast_S128_S1x128_1),
    StableHlo.unary main_v208 main_v209 (broadcastInDim S200000x128 ![0, 1] bcast_S1x128_S200000x128_0_1),
    StableHlo.binary main_v207 main_v209 main_v210 mulf,
    StableHlo.unary main_arg16 main_v211 (broadcastInDim S1x128 ![1] bcast_S128_S1x128_1),
    StableHlo.unary main_v211 main_v212 (broadcastInDim S200000x128 ![0, 1] bcast_S1x128_S200000x128_0_1),
    StableHlo.binary main_v210 main_v212 main_v213 addf ]

end Cert.ReferenceIdeal.Ops

end
-- ==== Proof.RefOps23.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops23 : List (HloOp τ sig (Elt F)) :=
  [ StableHlo.nullary main_c_34 (constantI S_ 32 0#32),
    StableHlo.unary main_c_34 main_v214 (broadcastInDim S200000 ![] bcast_S_S200000),
    StableHlo.binary main_v1 main_v214 main_v215 (cmpi .slt),
    StableHlo.nullary main_c_35 (constantI S_ 32 50000#32),
    StableHlo.unary main_c_35 main_v216 (broadcastInDim S200000 ![] bcast_S_S200000),
    StableHlo.binary main_v1 main_v216 main_v217 addi,
    StableHlo.ternary main_v215 main_v217 main_v1 main_v218 select,
    StableHlo.unary main_v218 main_v219 (broadcastInDim S200000x1 ![0] bcast_S200000_S200000x1_0),
    StableHlo.binary main_v194 main_v219 main_v220 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    StableHlo.nullary main_c_36 (constantI S_ 32 0#32),
    StableHlo.unary main_c_36 main_v221 (broadcastInDim S200000 ![] bcast_S_S200000),
    StableHlo.binary main_v3 main_v221 main_v222 (cmpi .slt),
    StableHlo.nullary main_c_37 (constantI S_ 32 50000#32),
    StableHlo.unary main_c_37 main_v223 (broadcastInDim S200000 ![] bcast_S_S200000),
    StableHlo.binary main_v3 main_v223 main_v224 addi,
    StableHlo.ternary main_v222 main_v224 main_v3 main_v225 select,
    StableHlo.unary main_v225 main_v226 (broadcastInDim S200000x1 ![0] bcast_S200000_S200000x1_0),
    StableHlo.binary main_v194 main_v226 main_v227 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)) ]

end Cert.ReferenceIdeal.Ops

end
-- ==== Proof.RefOps24.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops24 : List (HloOp τ sig (Elt F)) :=
  [ StableHlo.nary ![main_v220, main_v227, main_v213] main_v228 (fun u => concatenate S200000x384 1 [⟨S200000x128, u 0⟩, ⟨S200000x128, u 1⟩, ⟨S200000x128, u 2⟩] concatenates_S200000x128_S200000x128_S200000x128_S200000x384_d1),
    StableHlo.unary main_arg7 main_v229 ((extractStridedSlice S1x384x128 ![2, 0, 0] · slices_S3x384x128_S1x384x128_2_0_0) : (⟨S3x384x128, .f32⟩ : BufTy).Contents (Elt F) → (⟨S1x384x128, .f32⟩ : BufTy).Contents (Elt F)),
    StableHlo.reshape main_v229 main_v230 rfl shapeCasts_S1x384x128_S384x128,
    StableHlo.binary main_v228 main_v230 main_v231 ((fun l r => Host.dotGeneral dot_S200000x384_S384x128_S200000x128_1_0_0_1_n_n none l r) : (⟨S200000x384, .f32⟩ : BufTy).Contents (Elt F) → (⟨S384x128, .f32⟩ : BufTy).Contents (Elt F) → (⟨S200000x128, .f32⟩ : BufTy).Contents (Elt F)),
    StableHlo.unary main_arg8 main_v232 ((extractStridedSlice S1x128 ![2, 0] · slices_S3x128_S1x128_2_0) : (⟨S3x128, .f32⟩ : BufTy).Contents (Elt F) → (⟨S1x128, .f32⟩ : BufTy).Contents (Elt F)),
    StableHlo.reshape main_v232 main_v233 rfl shapeCasts_S1x128_S128,
    StableHlo.unary main_v233 main_v234 (broadcastInDim S1x128 ![1] bcast_S128_S1x128_1),
    StableHlo.unary main_v234 main_v235 (broadcastInDim S200000x128 ![0, 1] bcast_S1x128_S200000x128_0_1),
    StableHlo.binary main_v231 main_v235 main_v236 addf,
    StableHlo.TRef.nullary main_call12.cst (constant S_ .f32 0x00000000#32),
    StableHlo.TRef.unary main_call12.cst main_call12.v0 (broadcastInDim S200000x128 ![] bcast_S_S200000x128),
    StableHlo.TRef.binary (.of main_v236) main_call12.v0 main_call12.v1 maximumf ]

end Cert.ReferenceIdeal.Ops

end
-- ==== Proof.RefOps25.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops25 : List (HloOp τ sig (Elt F)) :=
  [ StableHlo.nullary main_c_38 (constantI S_ 32 0#32),
    StableHlo.unary main_c_38 main_v238 (broadcastInDim S200000 ![] bcast_S_S200000),
    StableHlo.binary main_v1 main_v238 main_v239 (cmpi .slt),
    StableHlo.nullary main_c_39 (constantI S_ 32 50000#32),
    StableHlo.unary main_c_39 main_v240 (broadcastInDim S200000 ![] bcast_S_S200000),
    StableHlo.binary main_v1 main_v240 main_v241 addi,
    StableHlo.ternary main_v239 main_v241 main_v1 main_v242 select,
    StableHlo.unary main_v242 main_v243 (broadcastInDim S200000x1 ![0] bcast_S200000_S200000x1_0),
    StableHlo.binary main_v194 main_v243 main_v244 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)) ]

end Cert.ReferenceIdeal.Ops

end
-- ==== Proof.RefOps26.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops26 : List (HloOp τ sig (Elt F)) :=
  [ StableHlo.binary main_v244 main_v237 main_v245 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    StableHlo.unary main_arg9 main_v246 ((extractStridedSlice S1x256x128 ![2, 0, 0] · slices_S3x256x128_S1x256x128_2_0_0) : (⟨S3x256x128, .f32⟩ : BufTy).Contents (Elt F) → (⟨S1x256x128, .f32⟩ : BufTy).Contents (Elt F)),
    StableHlo.reshape main_v246 main_v247 rfl shapeCasts_S1x256x128_S256x128,
    StableHlo.binary main_v245 main_v247 main_v248 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    StableHlo.unary main_arg10 main_v249 ((extractStridedSlice S1x128 ![2, 0] · slices_S3x128_S1x128_2_0) : (⟨S3x128, .f32⟩ : BufTy).Contents (Elt F) → (⟨S1x128, .f32⟩ : BufTy).Contents (Elt F)),
    StableHlo.reshape main_v249 main_v250 rfl shapeCasts_S1x128_S128,
    StableHlo.unary main_v250 main_v251 (broadcastInDim S1x128 ![1] bcast_S128_S1x128_1),
    StableHlo.unary main_v251 main_v252 (broadcastInDim S200000x128 ![0, 1] bcast_S1x128_S200000x128_0_1),
    StableHlo.binary main_v248 main_v252 main_v253 addf,
    StableHlo.TRef.nullary main_call13.cst (constant S_ .f32 0x00000000#32),
    StableHlo.TRef.unary main_call13.cst main_call13.v0 (broadcastInDim S200000x128 ![] bcast_S_S200000x128),
    StableHlo.TRef.binary (.of main_v253) main_call13.v0 main_call13.v1 maximumf ]

end Cert.ReferenceIdeal.Ops

end
-- ==== Proof.RefOps27.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops27 : List (HloOp τ sig (Elt F)) :=
  [ StableHlo.nullary main_cst_40 (constant S_ .f32 0x00000000#32),
    StableHlo.unary main_cst_40 main_v255 (broadcastInDim S50000x128 ![] bcast_S_S50000x128),
    StableHlo.unary main_v3 main_v256 (broadcastInDim S200000x1 ![0] bcast_S200000_S200000x1_0) ]

end Cert.ReferenceIdeal.Ops

end
-- ==== Proof.RefOps28.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops28 : List (HloOp τ sig (Elt F)) :=
  [ StableHlo.ternary main_v255 main_v256 main_v254 main_v257 ((fun x i u => Host.scatterAdd scatter_S50000x128_S200000x1_S200000x128_1_0_0_1 x i u) : (⟨S50000x128, .f32⟩ : BufTy).Contents (Elt F) → (⟨S200000x1, .i32⟩ : BufTy).Contents (Elt F) → (⟨S200000x128, .f32⟩ : BufTy).Contents (Elt F) → (⟨S50000x128, .f32⟩ : BufTy).Contents (Elt F)),
    StableHlo.nullary main_cst_41 (constant S_ .f32 0x3F800000#32),
    StableHlo.unary main_cst_41 main_v258 (broadcastInDim S200000x1 ![] bcast_S_S200000x1),
    StableHlo.nullary main_cst_42 (constant S_ .f32 0x00000000#32),
    StableHlo.unary main_cst_42 main_v259 (broadcastInDim S50000x1 ![] bcast_S_S50000x1),
    StableHlo.unary main_v3 main_v260 (broadcastInDim S200000x1 ![0] bcast_S200000_S200000x1_0),
    StableHlo.ternary main_v259 main_v260 main_v258 main_v261 ((fun x i u => Host.scatterAdd scatter_S50000x1_S200000x1_S200000x1_1_0_0_1 x i u) : (⟨S50000x1, .f32⟩ : BufTy).Contents (Elt F) → (⟨S200000x1, .i32⟩ : BufTy).Contents (Elt F) → (⟨S200000x1, .f32⟩ : BufTy).Contents (Elt F) → (⟨S50000x1, .f32⟩ : BufTy).Contents (Elt F)),
    StableHlo.nullary main_cst_43 (constant S_ .f32 0x3F800000#32),
    StableHlo.unary main_cst_43 main_v262 (broadcastInDim S50000x1 ![] bcast_S_S50000x1),
    StableHlo.binary main_v261 main_v262 main_v263 maximumf,
    StableHlo.unary main_v263 main_v264 (broadcastInDim S50000x128 ![0, 1] bcast_S50000x1_S50000x128_0_1),
    StableHlo.binary main_v257 main_v264 main_v265 Host.divf ]

end Cert.ReferenceIdeal.Ops

end
-- ==== Proof.RefOps29.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops29 : List (HloOp τ sig (Elt F)) :=
  [ StableHlo.binary main_v194 main_v265 main_v266 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg11 main_v267 ((extractStridedSlice S1x256x128 ![2, 0, 0] · slices_S3x256x128_S1x256x128_2_0_0) : (⟨S3x256x128, .f32⟩ : BufTy).Contents (Elt F) → (⟨S1x256x128, .f32⟩ : BufTy).Contents (Elt F)),
    StableHlo.reshape main_v267 main_v268 rfl shapeCasts_S1x256x128_S256x128,
    StableHlo.binary main_v266 main_v268 main_v269 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v270 ((extractStridedSlice S1x128 ![2, 0] · slices_S3x128_S1x128_2_0) : (⟨S3x128, .f32⟩ : BufTy).Contents (Elt F) → (⟨S1x128, .f32⟩ : BufTy).Contents (Elt F)),
    StableHlo.reshape main_v270 main_v271 rfl shapeCasts_S1x128_S128,
    StableHlo.unary main_v271 main_v272 (broadcastInDim S1x128 ![1] bcast_S128_S1x128_1),
    StableHlo.unary main_v272 main_v273 (broadcastInDim S50000x128 ![0, 1] bcast_S1x128_S50000x128_0_1),
    StableHlo.binary main_v269 main_v273 main_v274 addf,
    StableHlo.TRef.nullary main_call14.cst (constant S_ .f32 0x00000000#32),
    StableHlo.TRef.unary main_call14.cst main_call14.v0 (broadcastInDim S50000x128 ![] bcast_S_S50000x128),
    StableHlo.TRef.binary (.of main_v274) main_call14.v0 main_call14.v1 maximumf ]

end Cert.ReferenceIdeal.Ops

end
-- ==== Proof.RefOps30.lean ====
import proofs.«412421_j54589034332476_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

noncomputable abbrev rops30 : List (HloOp τ sig (Elt F)) :=
  [ StableHlo.nullary main_cst_44 (constant S_ .f32 0x00000000#32),
    StableHlo.binary main_v275 main_cst_44 main_v276 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v276 main_v277 (broadcastInDim S1x128 ![1] bcast_S128_S1x128_1),
    StableHlo.nullary main_cst_45 (constant S_ .f32 0x47435000#32),
    StableHlo.unary main_cst_45 main_v278 (broadcastInDim S1x128 ![] bcast_S_S1x128),
    StableHlo.binary main_v277 main_v278 main_v279 Host.divf,
    StableHlo.nullary main_cst_46 (constant S_ .f32 0x00000000#32),
    StableHlo.binary main_v237 main_cst_46 main_v280 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    StableHlo.unary main_v280 main_v281 (broadcastInDim S1x128 ![1] bcast_S128_S1x128_1),
    StableHlo.nullary main_cst_47 (constant S_ .f32 0x48435000#32),
    StableHlo.unary main_cst_47 main_v282 (broadcastInDim S1x128 ![] bcast_S_S1x128),
    StableHlo.binary main_v281 main_v282 main_v283 Host.divf,
    StableHlo.binary main_v279 main_v283 main_v284 ((fun a b => concatenate S1x256 1 [⟨S1x128, a⟩, ⟨S1x128, b⟩] concatenates_S1x128_S1x128_S1x256_d1) : (⟨S1x128, .f32⟩ : BufTy).Contents (Elt F) → (⟨S1x128, .f32⟩ : BufTy).Contents (Elt F) → (⟨S1x256, .f32⟩ : BufTy).Contents (Elt F)),
    StableHlo.binary main_v284 main_arg17 main_v285 ((fun l r => Host.dotGeneral dot_S1x256_S256x1_S1x1_1_0_0_1_n_n none l r) : (⟨S1x256, .f32⟩ : BufTy).Contents (Elt F) → (⟨S256x1, .f32⟩ : BufTy).Contents (Elt F) → (⟨S1x1, .f32⟩ : BufTy).Contents (Elt F)),
    StableHlo.unary main_arg18 main_v286 (broadcastInDim S1x1 ![1] bcast_S1_S1x1_1),
    StableHlo.binary main_v285 main_v286 main_v287 addf ]

end Cert.ReferenceIdeal.Ops

end
-- ==== Proof.RefRun.lean ====
import proofs.«412421_j54589034332476_1_alg».proof.Proof.RefOps0
import proofs.«412421_j54589034332476_1_alg».proof.Proof.RefOps1
import proofs.«412421_j54589034332476_1_alg».proof.Proof.RefOps2
import proofs.«412421_j54589034332476_1_alg».proof.Proof.RefOps3
import proofs.«412421_j54589034332476_1_alg».proof.Proof.RefOps4
import proofs.«412421_j54589034332476_1_alg».proof.Proof.RefOps5
import proofs.«412421_j54589034332476_1_alg».proof.Proof.RefOps6
import proofs.«412421_j54589034332476_1_alg».proof.Proof.RefOps7
import proofs.«412421_j54589034332476_1_alg».proof.Proof.RefOps8
import proofs.«412421_j54589034332476_1_alg».proof.Proof.RefOps9
import proofs.«412421_j54589034332476_1_alg».proof.Proof.RefOps10
import proofs.«412421_j54589034332476_1_alg».proof.Proof.RefOps11
import proofs.«412421_j54589034332476_1_alg».proof.Proof.RefOps12
import proofs.«412421_j54589034332476_1_alg».proof.Proof.RefOps13
import proofs.«412421_j54589034332476_1_alg».proof.Proof.RefOps14
import proofs.«412421_j54589034332476_1_alg».proof.Proof.RefOps15
import proofs.«412421_j54589034332476_1_alg».proof.Proof.RefOps16
import proofs.«412421_j54589034332476_1_alg».proof.Proof.RefOps17
import proofs.«412421_j54589034332476_1_alg».proof.Proof.RefOps18
import proofs.«412421_j54589034332476_1_alg».proof.Proof.RefOps19
import proofs.«412421_j54589034332476_1_alg».proof.Proof.RefOps20
import proofs.«412421_j54589034332476_1_alg».proof.Proof.RefOps21
import proofs.«412421_j54589034332476_1_alg».proof.Proof.RefOps22
import proofs.«412421_j54589034332476_1_alg».proof.Proof.RefOps23
import proofs.«412421_j54589034332476_1_alg».proof.Proof.RefOps24
import proofs.«412421_j54589034332476_1_alg».proof.Proof.RefOps25
import proofs.«412421_j54589034332476_1_alg».proof.Proof.RefOps26
import proofs.«412421_j54589034332476_1_alg».proof.Proof.RefOps27
import proofs.«412421_j54589034332476_1_alg».proof.Proof.RefOps28
import proofs.«412421_j54589034332476_1_alg».proof.Proof.RefOps29
import proofs.«412421_j54589034332476_1_alg».proof.Proof.RefOps30
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

noncomputable abbrev RV0 : Valuation τ sig (Elt F) := after rops0 V
noncomputable abbrev RV1 : Valuation τ sig (Elt F) := after rops1 (RV0 V)
noncomputable abbrev RV2 : Valuation τ sig (Elt F) := after rops2 (RV1 V)
noncomputable abbrev RV3 : Valuation τ sig (Elt F) := after rops3 (RV2 V)
noncomputable abbrev RV4 : Valuation τ sig (Elt F) := after rops4 (RV3 V)
noncomputable abbrev RV5 : Valuation τ sig (Elt F) := after rops5 (RV4 V)
noncomputable abbrev RV6 : Valuation τ sig (Elt F) := after rops6 (RV5 V)
noncomputable abbrev RV7 : Valuation τ sig (Elt F) := after rops7 (RV6 V)
noncomputable abbrev RV8 : Valuation τ sig (Elt F) := after rops8 (RV7 V)
noncomputable abbrev RV9 : Valuation τ sig (Elt F) := after rops9 (RV8 V)
noncomputable abbrev RV10 : Valuation τ sig (Elt F) := after rops10 (RV9 V)
noncomputable abbrev RV11 : Valuation τ sig (Elt F) := after rops11 (RV10 V)
noncomputable abbrev RV12 : Valuation τ sig (Elt F) := after rops12 (RV11 V)
noncomputable abbrev RV13 : Valuation τ sig (Elt F) := after rops13 (RV12 V)
noncomputable abbrev RV14 : Valuation τ sig (Elt F) := after rops14 (RV13 V)
noncomputable abbrev RV15 : Valuation τ sig (Elt F) := after rops15 (RV14 V)
noncomputable abbrev RV16 : Valuation τ sig (Elt F) := after rops16 (RV15 V)
noncomputable abbrev RV17 : Valuation τ sig (Elt F) := after rops17 (RV16 V)
noncomputable abbrev RV18 : Valuation τ sig (Elt F) := after rops18 (RV17 V)
noncomputable abbrev RV19 : Valuation τ sig (Elt F) := after rops19 (RV18 V)
noncomputable abbrev RV20 : Valuation τ sig (Elt F) := after rops20 (RV19 V)
noncomputable abbrev RV21 : Valuation τ sig (Elt F) := after rops21 (RV20 V)
noncomputable abbrev RV22 : Valuation τ sig (Elt F) := after rops22 (RV21 V)
noncomputable abbrev RV23 : Valuation τ sig (Elt F) := after rops23 (RV22 V)
noncomputable abbrev RV24 : Valuation τ sig (Elt F) := after rops24 (RV23 V)
noncomputable abbrev RV25 : Valuation τ sig (Elt F) := after rops25 (RV24 V)
noncomputable abbrev RV26 : Valuation τ sig (Elt F) := after rops26 (RV25 V)
noncomputable abbrev RV27 : Valuation τ sig (Elt F) := after rops27 (RV26 V)
noncomputable abbrev RV28 : Valuation τ sig (Elt F) := after rops28 (RV27 V)
noncomputable abbrev RV29 : Valuation τ sig (Elt F) := after rops29 (RV28 V)
noncomputable abbrev RV30 : Valuation τ sig (Elt F) := after rops30 (RV29 V)

/-- The reference's operations, piece by piece. -/
noncomputable def pieces : List (List (HloOp τ sig (Elt F))) :=
  [rops0, rops1, rops2, rops3, rops4, rops5, rops6, rops7, rops8, rops9, rops10, rops11, rops12, rops13, rops14, rops15, rops16, rops17, rops18, rops19, rops20, rops21, rops22, rops23, rops24, rops25, rops26, rops27, rops28, rops29, rops30]

noncomputable def rops : List (HloOp τ sig (Elt F)) := pieces.flatten

end Cert.ReferenceIdeal.Ops

end
-- ==== Proof.Order.lean ====
import Idealize.ShloMosaic.Lib.StableHlo.RunLoop

noncomputable section

namespace Idealize.ShloMosaic.StableHlo

variable {τ : Topo} {sig : RefSig} {F : FTy → Type}

/-- No operation of the list writes a reference of index below `n`. -/
def From (n : ℕ) (l : List (HloOp τ sig (Elt F))) : Prop :=
  l.Forall fun op => ∀ b : Ref sig .tc, b.idx.1 < n → Proc.devRef .tc b ∉ op.writes

theorem ne_of_lt {n : ℕ} {y : Ref sig .tc} (hy : n ≤ y.idx.1) (b : Ref sig .tc) (hb : b.idx.1 < n) :
    Proc.devRef (τ := τ) .tc b ≠ Proc.devRef .tc y :=
  fun e => absurd (Proc.devRef_injective _ e ▸ hb) (Nat.not_lt.mpr hy)

/-- An operation whose one written reference has index at least `n` writes none below `n`. -/
theorem not_writes {n : ℕ} {op : HloOp τ sig (Elt F)} {y : Ref sig .tc} (hw : op.writes = {Proc.devRef .tc y})
    (hy : n ≤ y.idx.1) (b : Ref sig .tc) (hb : b.idx.1 < n) : Proc.devRef .tc b ∉ op.writes :=
  hw ▸ fun h => ne_of_lt hy b hb (Finset.mem_singleton.mp h)

/-- Values are numbered in the order they are computed, so a list that writes no index below `n` leaves every
    reference of index below `n` as it was. -/
theorem From.after {n : ℕ} {l : List (HloOp τ sig (Elt F))} (h : From n l) {b : Ref sig .tc} (hb : b.idx.1 < n)
    (V : Valuation τ sig (Elt F)) : after l V (Proc.devRef .tc b) = V (Proc.devRef .tc b) :=
  after_of_forall_not_mem l V fun op ho => List.forall_iff_forall_mem.mp h op ho b hb

theorem From.afterL {n : ℕ} {b : Ref sig .tc} (hb : b.idx.1 < n) :
    ∀ (ps : List (List (HloOp τ sig (Elt F)))) (V : Valuation τ sig (Elt F)), ps.Forall (From n) →
      afterL ps V (Proc.devRef .tc b) = V (Proc.devRef .tc b)
  | [], _, _ => rfl
  | l :: ps, V, h => (From.afterL hb ps _ ((List.forall_cons _ _ _).mp h).2).trans (((List.forall_cons _ _ _).mp h).1.after hb V)

end Idealize.ShloMosaic.StableHlo

end
-- ==== Proof.RefArgs.lean ====
import proofs.«412421_j54589034332476_1_alg».proof.Proof.RefRun
import proofs.«412421_j54589034332476_1_alg».proof.Proof.Order

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Values are numbered in the order they are computed: no piece writes an argument, none from piece 5 on an index below 67, none from piece 15 on one below 233. -/
theorem froms : ((pieces (F := F)).drop 0).Forall (From 19) ∧ ((pieces (F := F)).drop 5).Forall (From 67) ∧ ((pieces (F := F)).drop 15).Forall (From 233) := by
  simp only [pieces, List.drop_succ_cons, List.drop_zero, From, rops0, rops1, rops2, rops3, rops4, rops5, rops6, rops7, rops8, rops9, rops10, rops11, rops12, rops13, rops14, rops15, rops16, rops17, rops18, rops19, rops20, rops21, rops22, rops23, rops24, rops25, rops26, rops27, rops28, rops29, rops30, List.Forall, nullary_writes, unary_writes, binary_writes, ternary_writes, quaternary_writes, reshape_writes, nary_writes, binaryIndexed_writes, unaryIndexed_writes, Finset.mem_singleton]
  repeat' apply And.intro
  all_goals exact ne_of_lt (by decide)

/-- Pieces `i`, …, `i + n - 1` leave a reference of index below `t` as it was, when no piece from `i` on writes an index below `t`. -/
theorem kept {i t : ℕ} (h : ((pieces (F := F)).drop i).Forall (From t)) (n : ℕ) {b : Ref sig .tc} (hb : b.idx.1 < t) (V : Valuation τ sig (Elt F)) :
    afterL ((pieces.drop i).take n) V (Proc.devRef .tc b) = V (Proc.devRef .tc b) :=
  From.afterL hb _ V (List.forall_iff_forall_mem.mpr fun l hl => List.forall_iff_forall_mem.mp h l (List.mem_of_mem_take hl))

/-- No operation writes an argument. -/
theorem keeps {b : Ref sig .tc} (hb : b.idx.1 < 19) (V : Valuation τ sig (Elt F)) : after rops V (Proc.devRef .tc b) = V (Proc.devRef .tc b) :=
  (congrFun (afterL_eq_after_flatten pieces V).symm _).trans (From.afterL hb _ V froms.1)

end Cert.ReferenceIdeal.Ops

end
-- ==== Proof.RefMain.lean ====
import proofs.«412421_j54589034332476_1_alg».proof.Proof.RefArgs
import Idealize.ShloMosaic.Lib.Pipeline.Regions

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

abbrev ropsAll : List (HloOp τ sig (Elt F)) := rops

theorem after_rops (V : Valuation τ sig (Elt F)) : after ropsAll V = RV30 V := (afterL_eq_after_flatten pieces V).symm

theorem after_ropsAll_eq_rops (V : Valuation τ sig (Elt F)) : after ropsAll V = after rops V := rfl

/-- @main is its operations in order, the functions it calls laid out where they are called. -/
theorem main_eq (c : Dev nD) : main (F := F) c = seq ropsAll := by chain_rfl

theorem forall_flatten {α : Type} {p : α → Prop} : ∀ {L : List (List α)}, L.Forall (·.Forall p) → L.flatten.Forall p
  | [], _ => trivial
  | l :: L, h => List.forall_append.mpr ⟨((List.forall_cons _ _ _).mp h).1, forall_flatten ((List.forall_cons _ _ _).mp h).2⟩

theorem plain : (pieces (F := F)).Forall (·.Forall fun op => op.bufs ⊆ tcRefs τ sig ∧ op.fresh = ∅) := by
  simp only [pieces, rops0, rops1, rops2, rops3, rops4, rops5, rops6, rops7, rops8, rops9, rops10, rops11, rops12, rops13, rops14, rops15, rops16, rops17, rops18, rops19, rops20, rops21, rops22, rops23, rops24, rops25, rops26, rops27, rops28, rops29, rops30, List.Forall, nullary_bufs_sub, unary_bufs_sub, binary_bufs_sub, ternary_bufs_sub, quaternary_bufs_sub, reshape_bufs_sub, nary_bufs_sub, binaryIndexed_bufs_sub, unaryIndexed_bufs_sub, true_and]
  repeat' apply And.intro
  all_goals rfl

theorem unscoped : (Finset.univ.filter fun b : Ref sig .tc => b.isScoped) = ∅ ∧ (Finset.univ.filter fun sm : SemLoc sig => sm.isScoped .tc) = ∅ := by decide

/-- Every weakly fair execution of @main ends, each buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ropsAll (launchContents m c) (Proc.devRef .tc b) :=
  have h := List.forall_iff_forall_mem.mp (forall_flatten (plain (F := F)))
  run_seq unscoped.1 unscoped.2 defs main (fun _ => ropsAll) main_eq (fun _ => List.forall_iff_forall_mem.mpr fun op ho => (h op ho).1) m ρ fun _ op ho => (h op ho).2

end Cert.ReferenceIdeal.Ops

end
-- ==== Proof.Spec.lean ====
import Idealize.ShloMosaic.PureOps.Ideal
import Idealize.ShloMosaic.Lib.ValueIdx

noncomputable section

namespace Cert.Spec

open Idealize.ShloMosaic

abbrev at2 {A B : Nat} (x : (⟨2, ![A, B]⟩ : Shape).Idx → EReal) (p : Fin A) (q : Fin B) : EReal := x (ValueIdx.ix2 p q)

abbrev at3 {L A B : Nat} (x : (⟨3, ![L, A, B]⟩ : Shape).Idx → EReal) (l : Fin L) (p : Fin A) (q : Fin B) : EReal :=
  x (ValueIdx.ix3 l p q)

abbrev at1 {A : Nat} (x : (⟨1, ![A]⟩ : Shape).Idx → EReal) (q : Fin A) : EReal := x (ValueIdx.ix1 q)

abbrev rowAt {R : Nat} (off : Nat) (h : off + 128 ≤ R) (k : Fin 128) : Fin R := ⟨off + k.val, by omega⟩

/-- relu (x · w + b), row by row. -/
def lin1N (x : (⟨2, ![50000, 16]⟩ : Shape).Idx → EReal) (w : (⟨2, ![16, 128]⟩ : Shape).Idx → EReal)
    (b : (⟨1, ![128]⟩ : Shape).Idx → EReal) : (⟨2, ![50000, 128]⟩ : Shape).Idx → EReal :=
  fun i => max ((∑ k : Fin 16, at2 x (i 0) k * at2 w k (i 1)) + at1 b (i 1)) 0

def lin1E (x : (⟨2, ![200000, 16]⟩ : Shape).Idx → EReal) (w : (⟨2, ![16, 128]⟩ : Shape).Idx → EReal)
    (b : (⟨1, ![128]⟩ : Shape).Idx → EReal) : (⟨2, ![200000, 128]⟩ : Shape).Idx → EReal :=
  fun i => max ((∑ k : Fin 16, at2 x (i 0) k * at2 w k (i 1)) + at1 b (i 1)) 0

/-- relu (a · W[l, 0:128] + c · W[l, 128:256] + B[l]). -/
def lin2E (a c : (⟨2, ![200000, 128]⟩ : Shape).Idx → EReal) (W : (⟨3, ![3, 256, 128]⟩ : Shape).Idx → EReal)
    (B : (⟨2, ![3, 128]⟩ : Shape).Idx → EReal) (l : Fin 3) : (⟨2, ![200000, 128]⟩ : Shape).Idx → EReal :=
  fun i => max (((∑ k : Fin 128, at2 a (i 0) k * at3 W l (rowAt 0 (by omega) k) (i 1))
      + (∑ k : Fin 128, at2 c (i 0) k * at3 W l (rowAt 128 (by omega) k) (i 1))) + at2 B l (i 1)) 0

def lin2N (a c : (⟨2, ![50000, 128]⟩ : Shape).Idx → EReal) (W : (⟨3, ![3, 256, 128]⟩ : Shape).Idx → EReal)
    (B : (⟨2, ![3, 128]⟩ : Shape).Idx → EReal) (l : Fin 3) : (⟨2, ![50000, 128]⟩ : Shape).Idx → EReal :=
  fun i => max (((∑ k : Fin 128, at2 a (i 0) k * at3 W l (rowAt 0 (by omega) k) (i 1))
      + (∑ k : Fin 128, at2 c (i 0) k * at3 W l (rowAt 128 (by omega) k) (i 1))) + at2 B l (i 1)) 0

/-- relu (a · W[l, 0:128] + c · W[l, 128:256] + d · W[l, 256:384] + B[l]). -/
def lin3E (a c d : (⟨2, ![200000, 128]⟩ : Shape).Idx → EReal) (W : (⟨3, ![3, 384, 128]⟩ : Shape).Idx → EReal)
    (B : (⟨2, ![3, 128]⟩ : Shape).Idx → EReal) (l : Fin 3) : (⟨2, ![200000, 128]⟩ : Shape).Idx → EReal :=
  fun i => max ((((∑ k : Fin 128, at2 a (i 0) k * at3 W l (rowAt 0 (by omega) k) (i 1))
      + (∑ k : Fin 128, at2 c (i 0) k * at3 W l (rowAt 128 (by omega) k) (i 1)))
      + (∑ k : Fin 128, at2 d (i 0) k * at3 W l (rowAt 256 (by omega) k) (i 1))) + at2 B l (i 1)) 0

end Cert.Spec

end
-- ==== Proof.Gath2.lean ====
import proofs.«412421_j54589034332476_1_alg».proof.Proof.RefRun
import Idealize.ShloMosaic.PureOps.Ideal.Laws
noncomputable section
namespace Cert.Bridge
open Idealize.ShloMosaic Idealize.ShloMosaic.TcCoe Idealize.SL.Sem Idealize.ShloMosaic.StableHlo Cert.ReferenceIdeal.Ops

variable (m' : (ℓ : Loc Cert.ReferenceIdeal.nD Cert.ReferenceIdeal.τ Cert.ReferenceIdeal.sig) → Buf (Elt Ideal) ℓ)
  (c : Dev Cert.ReferenceIdeal.nD)

-- The second gather reads the same table by the same index chain, and nothing between the two writes either.
theorem gath2_0 : Cert.ReferenceIdeal.Ops.RV5 (F := Ideal) (StableHlo.launchContents m' c) (Proc.devRef .tc Cert.ReferenceIdeal.main_v44)
    = Cert.ReferenceIdeal.Ops.RV3 (F := Ideal) (StableHlo.launchContents m' c) (Proc.devRef .tc Cert.ReferenceIdeal.main_v20) := by
  unfold RV5 RV4 RV3; generalize RV2 (StableHlo.launchContents m' c) = X; after_results_simp

theorem gath2_1 : Cert.ReferenceIdeal.Ops.RV15 (F := Ideal) (StableHlo.launchContents m' c) (Proc.devRef .tc Cert.ReferenceIdeal.main_v144)
    = Cert.ReferenceIdeal.Ops.RV13 (F := Ideal) (StableHlo.launchContents m' c) (Proc.devRef .tc Cert.ReferenceIdeal.main_v120) := by
  unfold RV15 RV14 RV13; generalize RV12 (StableHlo.launchContents m' c) = X; after_results_simp

theorem gath2_2 : Cert.ReferenceIdeal.Ops.RV25 (F := Ideal) (StableHlo.launchContents m' c) (Proc.devRef .tc Cert.ReferenceIdeal.main_v244)
    = Cert.ReferenceIdeal.Ops.RV23 (F := Ideal) (StableHlo.launchContents m' c) (Proc.devRef .tc Cert.ReferenceIdeal.main_v220) := by
  unfold RV25 RV24 RV23; generalize RV22 (StableHlo.launchContents m' c) = X; after_results_simp

end Cert.Bridge
end
-- ==== Proof.KEnc.lean ====
import proofs.«412421_j54589034332476_1_alg».proof.Proof.Gen.KernelIdeal.Frame
import proofs.«412421_j54589034332476_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.StackMember

noncomputable section

namespace Cert.Bridge.KEnc

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

/-- The encoder on R rows: entry (p, q) is the maximum of zero and row p's inner product with column q plus β q. -/
def enc {R : Nat} (x : (⟨2, ![R, 16]⟩ : Shape).Idx → EReal) (w : (⟨2, ![16, 128]⟩ : Shape).Idx → EReal)
    (β : Fin 128 → EReal) : (⟨2, ![R, 128]⟩ : Shape).Idx → EReal :=
  fun i => max ((∑ k : Fin 16, x (ix2 (i 0) k) * w (ix2 k (i 1))) + β (i 1)) 0

/-- The block product is the plain product of a 5000×16 by a 16×128 matrix: at an entry, the sum over the sixteen features. -/
theorem matmul_enc_apply (a : FVec Ideal S5000x16 .bf16) (b : FVec Ideal S16x128 .bf16) (p : Fin 5000) (q : Fin 128) :
    matmul dot_S5000x16_S16x128_S5000x128_1_0_0_1_n_n none a b (constant (F := Ideal) S5000x128 .f32 0x00000000#32) (ix2 p q)
      = ∑ k : Fin 16, a (ix2 p k) * b (ix2 k q) :=
  (Ideal.matmul_constant_zero_apply _ none a b (ix2 p q)).trans
    ((Ideal.dotGeneral_apply (DotDims.plain 5000 16 128) none .single a b (ix2 p q)).symm.trans
      (StackMember.dotGeneral_plain_apply none a b p q))

theorem hz : (![0, 0] : Fin 2 → Nat) = fun _ => 0 := funext fun a => by fin_cases a <;> rfl

/-- Each region's body is the encoder's map of the three blocks it is given. -/
theorem out_eq (x0 : Vec Ideal S5000x16 .f32) (x1 : Vec Ideal S16x128 .f32) (x2 : Vec Ideal S1x128 .f32) :
    out0_3 (F := Ideal) x0 x1 x2 = enc x0 x1 fun q => x2 (ix2 (0 : Fin 1) q) := by
  unfold out0_3
  rw [View.canon_unit_zero hz]
  simp only [View.ld_unit_zero (S := S5000x16) hz, View.ld_unit_zero (S := S16x128) hz, View.ld_unit_zero (S := S1x128) hz]
  funext j
  obtain ⟨p, q, rfl⟩ : ∃ (p : Fin 5000) (q : Fin 128), j = ix2 p q := ⟨j 0, j 1, eq_ix2 j⟩
  unfold k0_pay1 enc
  rw [maximumf_apply, addf_apply, matmul_enc_apply, broadcastTo_1b_ab_apply, shapeCast_self, broadcast_apply]
  simp only [truncf_apply]
  show max _ (Ideal.ofBits .f32 0x00000000#32) = _
  rw [Ideal.ofBits_zero_f32]

/-- At a point whose row blocks sit at block index o and whose other blocks are whole, the body gives the output block of the encoder's map. -/
theorem enc_point {R : Nat} (X : (⟨2, ![R, 16]⟩ : Shape).Idx → EReal) (W : S16x128.Idx → EReal) (B : S1x128.Idx → EReal)
    (e0 : S5000x16.Idx → (⟨2, ![R, 16]⟩ : Shape).Idx) (e1 : S16x128.Idx → S16x128.Idx) (e2 : S1x128.Idx → S1x128.Idx)
    (e3 : S5000x128.Idx → (⟨2, ![R, 128]⟩ : Shape).Idx) (i0 i1 i2 i3 : Fin 2 → Nat) (o : Nat)
    (h0 : ∀ z, (e0 z 0 : Nat) = i0 0 * 5000 + 1 * z 0 ∧ (e0 z 1 : Nat) = i0 1 * 16 + 1 * z 1)
    (h1 : ∀ z, (e1 z 0 : Nat) = i1 0 * 16 + 1 * z 0 ∧ (e1 z 1 : Nat) = i1 1 * 128 + 1 * z 1)
    (h2 : ∀ z, (e2 z 0 : Nat) = i2 0 * 1 + 1 * z 0 ∧ (e2 z 1 : Nat) = i2 1 * 128 + 1 * z 1)
    (h3 : ∀ z, (e3 z 0 : Nat) = i3 0 * 5000 + 1 * z 0 ∧ (e3 z 1 : Nat) = i3 1 * 128 + 1 * z 1)
    (hi : i3 0 = o ∧ i3 1 = 0 ∧ i0 0 = o ∧ i0 1 = 0 ∧ i1 0 = 0 ∧ i1 1 = 0 ∧ i2 0 = 0 ∧ i2 1 = 0) (y : S5000x128.Idx) :
    enc (fun z => X (e0 z)) (fun z => W (e1 z)) (fun q => B (e2 (ix2 (0 : Fin 1) q))) y
      = enc X W (fun q => B (ix2 (0 : Fin 1) q)) (e3 y) := by
  obtain ⟨d0, d1, a0, a1, b0, b1, c0, c1⟩ := hi
  obtain ⟨g0, g1⟩ := h3 y
  have hx (k : Fin 16) : e0 (ix2 (y 0) k) = ix2 (e3 y 0) k := Shape.idx_ext₂
    ((h0 _).1.trans (by show i0 0 * 5000 + 1 * (y 0).val = (e3 y 0).val; omega))
    ((h0 _).2.trans (by show i0 1 * 16 + 1 * k.val = k.val; omega))
  have hw (k : Fin 16) : e1 (ix2 k (y 1)) = ix2 k (e3 y 1) := Shape.idx_ext₂
    ((h1 _).1.trans (by show i1 0 * 16 + 1 * k.val = k.val; omega))
    ((h1 _).2.trans (by show i1 1 * 128 + 1 * (y 1).val = (e3 y 1).val; omega))
  have hβ : e2 (ix2 (0 : Fin 1) (y 1)) = ix2 (0 : Fin 1) (e3 y 1) := Shape.idx_ext₂
    ((h2 _).1.trans (by show i2 0 * 1 + 1 * 0 = 0; omega))
    ((h2 _).2.trans (by show i2 1 * 128 + 1 * (y 1).val = (e3 y 1).val; omega))
  unfold enc
  simp only [hx, hw, hβ]
  rfl

/-- Runs of 5000 rows tile an array of 5000 N rows: row r lies in run r / 5000. -/
theorem rows_tile {N R : Nat} (hR : R = 5000 * N) (idx : Fin N → Fin 2 → Nat) (h0 : ∀ t, idx t 0 = t.val) (h1 : ∀ t, idx t 1 = 0)
    (i : (⟨2, ![R, 128]⟩ : Shape).Idx) : ∃ t : Fin N, ∀ a : Fin 2,
      idx t a * S5000x128.size a ≤ (i a).val ∧ (i a).val < idx t a * S5000x128.size a + S5000x128.size a := by
  have hi0 : (i 0).val < R := (i 0).isLt
  have hi1 : (i 1).val < 128 := (i 1).isLt
  refine ⟨⟨(i 0).val / 5000, by omega⟩, fun a => ?_⟩
  match a with
  | ⟨0, _⟩ => show idx _ 0 * 5000 ≤ (i 0).val ∧ (i 0).val < idx _ 0 * 5000 + 5000; rw [h0]; show (i 0).val / 5000 * 5000 ≤ _ ∧ _ < (i 0).val / 5000 * 5000 + 5000; omega
  | ⟨1, _⟩ => show idx _ 1 * 128 ≤ (i 1).val ∧ (i 1).val < idx _ 1 * 128 + 128; rw [h1]; omega

section Region0

variable (V : (c : Dev nD) → (b : Ref sig .tc) → Buf (Elt Ideal) ((c : Thread nD τ).loc b)) (c : Dev nD)

theorem idx0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Each point writes its block of the encoder's map of the arrays region 0 found, and the blocks tile the result. -/
theorem final0 : (dat0 V c).arrAt 3 cfg0.N
    = (enc (V c main_arg0 : S50000x16.Idx → EReal) (V c main_arg3 : S16x128.Idx → EReal)
        fun q => (V c main_v4 : S1x128.Idx → EReal) (ix2 (0 : Fin 1) q) : S50000x128.Idx → EReal) :=
  (dat0 V c).arrAt_eq_of_cover 3 _
    (fun t _ => by
      show (cfg0.win 3).cut (grid0.coords t) ((dat0 V c).after 3 t) = _
      rw [after0_3, out_eq]
      exact funext (enc_point (V c main_arg0) (V c main_arg3) (V c main_v4) ((cfg0.win 0).blk t).view.emb ((cfg0.win 1).blk t).view.emb
        ((cfg0.win 2).blk t).view.emb ((cfg0.win 3).blk t).view.emb (win0_0.index t) (win0_1.index t) (win0_2.index t)
        (win0_3.index t) t.val (fun _ => ⟨rfl, rfl⟩) (fun _ => ⟨rfl, rfl⟩) (fun _ => ⟨rfl, rfl⟩) (fun _ => ⟨rfl, rfl⟩) (idx0 t))
    ) fun i =>
      let ⟨t, h⟩ := rows_tile (N := cfg0.N) (by decide) win0_3.index (fun t => (idx0 t).1) (fun t => (idx0 t).2.1) i
      ⟨t, flush0_3 t, by
        show i ∈ ((View.whole main_v5).slice (win0_3.rect t)).set
        rw [View.set_slice_whole, Rect.mem_set_unit]
        exact h⟩

end Region0

section Region1

variable (V : (c : Dev nD) → (b : Ref sig .tc) → Buf (Elt Ideal) ((c : Thread nD τ).loc b)) (c : Dev nD)

theorem idx1 : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem final1 : (dat1 V c).arrAt 3 cfg1.N
    = (enc (V c main_arg2 : S200000x16.Idx → EReal) (V c main_arg5 : S16x128.Idx → EReal)
        fun q => (V c main_v6 : S1x128.Idx → EReal) (ix2 (0 : Fin 1) q) : S200000x128.Idx → EReal) :=
  (dat1 V c).arrAt_eq_of_cover 3 _
    (fun t _ => by
      show (cfg1.win 3).cut (grid1.coords t) ((dat1 V c).after 3 t) = _
      rw [after1_3, show out1_3 (F := Ideal) = out0_3 from rfl, out_eq]
      exact funext (enc_point (V c main_arg2) (V c main_arg5) (V c main_v6) ((cfg1.win 0).blk t).view.emb ((cfg1.win 1).blk t).view.emb
        ((cfg1.win 2).blk t).view.emb ((cfg1.win 3).blk t).view.emb (win1_0.index t) (win1_1.index t) (win1_2.index t)
        (win1_3.index t) t.val (fun _ => ⟨rfl, rfl⟩) (fun _ => ⟨rfl, rfl⟩) (fun _ => ⟨rfl, rfl⟩) (fun _ => ⟨rfl, rfl⟩) (idx1 t))
    ) fun i =>
      let ⟨t, h⟩ := rows_tile (N := cfg1.N) (by decide) win1_3.index (fun t => (idx1 t).1) (fun t => (idx1 t).2.1) i
      ⟨t, flush1_3 t, by
        show i ∈ ((View.whole main_v7).slice (win1_3.rect t)).set
        rw [View.set_slice_whole, Rect.mem_set_unit]
        exact h⟩

end Region1

/-- A buffer that is none of region 0's arrays and that the first host operations leave alone is the launch's after region 0. -/
theorem W2_kept (m : (ℓ : Loc nD τ sig) → Buf (Elt Ideal) ℓ) (ρ : Dev nD → PrngReg) (c : Dev nD) (b : Ref sig .tc)
    (hr : ∀ w, Pipeline.arrRef spec0 w ≠ b)
    (h0 : after hostOps0 (W0 m ρ c) (Proc.devRef .tc b) = W0 m ρ c (Proc.devRef .tc b)) :
    W2 m ρ c (Proc.devRef .tc b) = m ((c : Thread nD τ).loc b) :=
  (W2_of_ne m ρ c b hr).trans h0

end Cert.Bridge.KEnc

namespace Cert.Bridge

open Idealize.ShloMosaic Idealize.ShloMosaic.TcCoe Idealize.SL.Sem Idealize.ShloMosaic.StableHlo
open Idealize.ShloMosaic.ValueIdx
open Cert.KernelIdeal Cert.KernelIdeal.Gen Cert.Bridge.KEnc

/-- The arrays region 0 finds are the launch's but for the bias, laid out as one row, and the specification is the encoder's map. -/
theorem k_h0 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W2 (F := Ideal) m ρ c (Proc.devRef .tc Cert.KernelIdeal.main_v5)
      = Cert.Spec.lin1N (m ((c.tc : Thread Cert.KernelIdeal.nD Cert.KernelIdeal.τ).loc Cert.KernelIdeal.main_arg0))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  refine (W2_arr m ρ c 3).trans ((final0 (V1 m ρ) c).trans ?_)
  show enc (after hostOps0 (W0 m ρ c) (Proc.devRef .tc main_arg0)) (after hostOps0 (W0 m ρ c) (Proc.devRef .tc main_arg3))
    (fun q => after hostOps0 (W0 m ρ c) (Proc.devRef .tc main_v4) (ix2 (0 : Fin 1) q)) = _
  after_results
  refine (congrArg (enc _ _) (funext fun q => shapeCast_a_1a_apply _ _ _ q)).trans ?_
  rfl

/-- The same for region 1, whose arrays region 0 and the operations before it leave alone. -/
theorem k_e0 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 (F := Ideal) m ρ c (Proc.devRef .tc Cert.KernelIdeal.main_v7)
      = Cert.Spec.lin1E (m ((c.tc : Thread Cert.KernelIdeal.nD Cert.KernelIdeal.τ).loc Cert.KernelIdeal.main_arg2))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  refine (W4_arr m ρ c 3).trans ((final1 (V3 m ρ) c).trans ?_)
  show enc (after hostOps1 (W2 m ρ c) (Proc.devRef .tc main_arg2)) (after hostOps1 (W2 m ρ c) (Proc.devRef .tc main_arg5))
    (fun q => after hostOps1 (W2 m ρ c) (Proc.devRef .tc main_v6) (ix2 (0 : Fin 1) q)) = _
  after_results
  rw [W2_kept m ρ c main_arg2 (by decide) (by after_results), W2_kept m ρ c main_arg5 (by decide) (by after_results),
    W2_kept m ρ c main_arg6 (by decide) (by after_results)]
  refine (congrArg (enc _ _) (funext fun q => shapeCast_a_1a_apply _ _ _ q)).trans ?_
  rfl

end Cert.Bridge

end
-- ==== Proof.RLayer.lean ====
import proofs.«412421_j54589034332476_1_alg».proof.Proof.RefRun
import proofs.«412421_j54589034332476_1_alg».proof.Proof.Spec
import Idealize.ShloMosaic.PureOps.Ideal.Laws
import Idealize.ShloMosaic.Lib.ValueLayout
import proofs.«412421_j54589034332476_1_alg».proof.Proof.Order
import Idealize.ShloMosaic.Lib.IdealHost
import Idealize.ShloMosaic.Lib.StackMember

noncomputable section

namespace Cert.Bridge.RLayer

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Ops Cert.Spec

variable {M K : Nat} {α : Type}

-- Arrays of rank two that agree at every (p, q) are equal.
theorem ext2 {A B : Nat} {f g : (⟨2, ![A, B]⟩ : Shape).Idx → α} (h : ∀ p q, f (ix2 p q) = g (ix2 p q)) : f = g :=
  funext fun i => by rw [eq_ix2 i]; exact h _ _

-- A vector laid along one row and that row copied down M rows reads, at (p, q), the vector's entry q.
theorem bias_rows_apply (h1 : (⟨1, ![128]⟩ : Shape).BroadcastsInDim ⟨2, ![1, 128]⟩ ![1])
    (h2 : (⟨2, ![1, 128]⟩ : Shape).BroadcastsInDim ⟨2, ![M, 128]⟩ ![0, 1])
    (b : (⟨1, ![128]⟩ : Shape).Idx → α) (p : Fin M) (q : Fin 128) :
    broadcastInDim ⟨2, ![M, 128]⟩ ![0, 1] h2 (broadcastInDim ⟨2, ![1, 128]⟩ ![1] h1 b) (ix2 p q) = b (ix1 q) := by
  rw [broadcastInDim_oneRow_apply]
  refine broadcastInDim_apply ![1] h1 b (ix2 (0 : Fin 1) q) (ix1 q) fun a => ?_
  match a with
  | ⟨0, _⟩ => rfl

-- A dense layer at (p, q): the product's sum over the contracted coordinate, the bias entry of the column, the cut at zero.
theorem dense_apply (h1 : (⟨1, ![128]⟩ : Shape).BroadcastsInDim ⟨2, ![1, 128]⟩ ![1])
    (h2 : (⟨2, ![1, 128]⟩ : Shape).BroadcastsInDim ⟨2, ![M, 128]⟩ ![0, 1])
    (h0 : (⟨0, ![]⟩ : Shape).BroadcastsInDim ⟨2, ![M, 128]⟩ ![])
    (x : FVec Ideal ⟨2, ![M, K]⟩ .f32) (w : FVec Ideal ⟨2, ![K, 128]⟩ .f32) (b : FVec Ideal ⟨1, ![128]⟩ .f32)
    (p : Fin M) (q : Fin 128) :
    maximumf (addf (Host.dotGeneral (DotDims.plain M K 128) none x w)
        (broadcastInDim ⟨2, ![M, 128]⟩ ![0, 1] h2 (broadcastInDim ⟨2, ![1, 128]⟩ ![1] h1 b)))
      (broadcastInDim ⟨2, ![M, 128]⟩ ![] h0 (constant (F := Ideal) ⟨0, ![]⟩ .f32 0x00000000#32)) (ix2 p q)
      = max ((∑ k : Fin K, x (ix2 p k) * w (ix2 k q)) + b (ix1 q)) 0 := by
  rw [maximumf_apply, addf_apply, StackMember.dotGeneral_plain_apply, broadcastInDim_scalar_apply, constant_apply,
    Ideal.ofBits_zero_f32, bias_rows_apply]

-- Slab o of a stack of three K-row matrices, as a matrix, reads the stack at (o, r, q).
theorem weight_at (o : Nat) (ho : o < 3) (W : (⟨3, ![3, K, 128]⟩ : Shape).Idx → α)
    (hs : (⟨3, ![3, K, 128]⟩ : Shape).Slices ![o, 0, 0] ⟨3, ![1, K, 128]⟩)
    (hc : (⟨3, ![1, K, 128]⟩ : Shape).ShapeCasts ⟨2, ![K, 128]⟩) (r : Fin K) (q : Fin 128) :
    shapeCast ⟨2, ![K, 128]⟩ (extractStridedSlice ⟨3, ![1, K, 128]⟩ ![o, 0, 0] W hs) hc (ix2 r q) = W (ix3 ⟨o, ho⟩ r q) :=
  (shapeCast_1ab_ab_apply _ hc r q).trans (extractStridedSlice_apply _ _ _ _ _ fun ax => by
    match ax with
    | ⟨0, _⟩ => exact (Nat.add_zero _).symm
    | ⟨1, _⟩ => exact (Nat.zero_add _).symm
    | ⟨2, _⟩ => exact (Nat.zero_add _).symm)

-- X times slab o of the weights, row o of the biases added to every row, cut off below at zero.
def slabLayer (o : Nat) (hW : (⟨3, ![3, K, 128]⟩ : Shape).Slices ![o, 0, 0] ⟨3, ![1, K, 128]⟩)
    (hcW : (⟨3, ![1, K, 128]⟩ : Shape).ShapeCasts ⟨2, ![K, 128]⟩) (hB : S3x128.Slices ![o, 0] S1x128)
    (h2 : S1x128.BroadcastsInDim ⟨2, ![M, 128]⟩ ![0, 1]) (h0 : S_.BroadcastsInDim ⟨2, ![M, 128]⟩ ![])
    (X : FVec Ideal ⟨2, ![M, K]⟩ .f32) (W : FVec Ideal ⟨3, ![3, K, 128]⟩ .f32) (B : FVec Ideal S3x128 .f32) :
    FVec Ideal ⟨2, ![M, 128]⟩ .f32 :=
  maximumf
    (addf (Host.dotGeneral (DotDims.plain M K 128) none X
        (shapeCast ⟨2, ![K, 128]⟩ (extractStridedSlice ⟨3, ![1, K, 128]⟩ ![o, 0, 0] W hW) hcW))
      (broadcastInDim ⟨2, ![M, 128]⟩ ![0, 1] h2 (broadcastInDim S1x128 ![1] bcast_S128_S1x128_1
        (shapeCast S128 (extractStridedSlice S1x128 ![o, 0] B hB) shapeCasts_S1x128_S128))))
    (broadcastInDim ⟨2, ![M, 128]⟩ ![] h0 (constant (F := Ideal) S_ .f32 0x00000000#32))

theorem slab_apply (o : Nat) (ho : o < 3) (hW hcW hB h2 h0) (X W B) (p : Fin M) (q : Fin 128) :
    slabLayer o hW hcW hB h2 h0 X W B (ix2 p q)
      = max ((∑ k : Fin K, X (ix2 p k) * W (ix3 ⟨o, ho⟩ k q)) + B (ix2 ⟨o, ho⟩ q)) 0 := by
  unfold slabLayer
  rw [dense_apply, shapeCast_1a_a_apply, slice2_axis0_apply o B hB 0 q ⟨o, ho⟩ (Nat.add_zero _).symm]
  simp only [weight_at o ho]

-- A sum over 256 positions is the sum over its two blocks of 128.
theorem sum_256 {A : Type*} [AddCommMonoid A] (f : Fin 256 → A) :
    ∑ k, f k = (∑ k : Fin 128, f (rowAt 0 (by omega) k)) + ∑ k : Fin 128, f (rowAt 128 (by omega) k) :=
  (Fin.sum_univ_add (a := 128) (b := 128) f).trans
    (congrArg (· + _) (Finset.sum_congr rfl fun k _ => congrArg f (Fin.ext (Nat.zero_add _).symm)))

-- A sum over 384 positions is the sum over its three blocks of 128.
theorem sum_384 {A : Type*} [AddCommMonoid A] (f : Fin 384 → A) :
    ∑ k, f k = ((∑ k : Fin 128, f (rowAt 0 (by omega) k)) + ∑ k : Fin 128, f (rowAt 128 (by omega) k))
      + ∑ k : Fin 128, f (rowAt 256 (by omega) k) :=
  (Fin.sum_univ_add (a := 256) (b := 128) f).trans (congrArg (· + _) (sum_256 fun k => f (Fin.castAdd 128 k)))

-- Arrays of 128 columns laid side by side: the 128 columns from off, the width of the pieces before piece n, are piece n's.
theorem cat_at {R : Nat} (xs : List ((s : Shape) × (s.Idx → α))) (h : Shape.Concatenates (xs.map (·.1)) ⟨2, ![M, R]⟩ 1)
    (n : Nat) (x : (⟨2, ![M, 128]⟩ : Shape).Idx → α) (hx : xs[n]? = some ⟨⟨2, ![M, 128]⟩, x⟩) (off : Nat)
    (hoff : (((xs.take n).map (·.1)).map fun s => if h : s.rank = 2 then s.size ((1 : Fin 2).cast h.symm) else 0).sum = off)
    (hR : off + 128 ≤ R) (p : Fin M) (k : Fin 128) :
    concatenate ⟨2, ![M, R]⟩ 1 xs h (ix2 p (rowAt off hR k)) = x (ix2 p k) := by
  obtain ⟨hn, hx⟩ := List.getElem?_eq_some_iff.mp hx
  exact concatenate_apply_piece 1 xs h _ n hn _ x hx rfl off hoff (ix2 p k)
    (fun b => match b with | ⟨0, _⟩ => fun _ => rfl | ⟨1, _⟩ => fun h => absurd rfl h) rfl

-- The pieces of the reference's operations in order, each with the first position in the signature it writes at.
def placed : List (List (HloOp τ sig (Elt Ideal)) × Nat) :=
  pieces.zip [19, 23, 30, 37, 55, 67, 76, 85, 88, 103, 115, 159, 191, 203, 221, 233, 242, 254, 255, 269, 281, 325, 359, 369,
    387, 399, 408, 420, 423, 435, 447]

-- Every operation writes one buffer, and the buffers' positions in the signature grow along the program.
theorem placed_from : placed.Forall fun p => From p.2 p.1 := by
  repeat' (first | apply And.intro | exact fun b hb hm => ne_of_lt (by decide) b hb (Finset.mem_singleton.mp hm))

-- A buffer placed before everything pieces j, …, j + n - 1 write is after them what it was before.
theorem kept (j n : Nat) (b : Ref sig .tc) (hb : ∀ p ∈ (placed.drop j).take n, b.idx.val < p.2)
    (V : Valuation τ sig (Elt Ideal)) :
    afterL (((placed.drop j).take n).map Prod.fst) V (Proc.devRef .tc b) = V (Proc.devRef .tc b) := by
  rw [afterL_eq_after_flatten]
  refine after_of_forall_not_mem _ V fun op hop => ?_
  obtain ⟨_, ho, hop⟩ := List.mem_flatten.mp hop
  obtain ⟨p, hp, rfl⟩ := List.mem_map.mp ho
  exact List.forall_iff_forall_mem.mp (List.forall_iff_forall_mem.mp placed_from p
    (List.mem_of_mem_drop (List.mem_of_mem_take hp))) op hop b (hb p hp)

end Cert.Bridge.RLayer

end
-- ==== Proof.REnc.lean ====
import proofs.«412421_j54589034332476_1_alg».proof.Proof.RLayer

noncomputable section

namespace Cert.Bridge

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Ops Cert.Bridge.RLayer

variable (m' : (ℓ : Loc Cert.ReferenceIdeal.nD Cert.ReferenceIdeal.τ Cert.ReferenceIdeal.sig) → Buf (Elt Ideal) ℓ)
  (c : Dev Cert.ReferenceIdeal.nD)

theorem r_h0 : Cert.ReferenceIdeal.Ops.RV1 (F := Ideal) (StableHlo.launchContents m' c) (Proc.devRef .tc Cert.ReferenceIdeal.main_v8)
    = Cert.Spec.lin1N (m' ((c : Thread Cert.ReferenceIdeal.nD Cert.ReferenceIdeal.τ).loc Cert.ReferenceIdeal.main_arg0))
        (m' ((c : Thread Cert.ReferenceIdeal.nD Cert.ReferenceIdeal.τ).loc Cert.ReferenceIdeal.main_arg3))
        (m' ((c : Thread Cert.ReferenceIdeal.nD Cert.ReferenceIdeal.τ).loc Cert.ReferenceIdeal.main_arg4)) := by
  show after rops1 (after rops0 (launchContents m' c)) _ = _
  after_results
  funext i
  rw [eq_ix2 i]
  exact dense_apply bcast_S128_S1x128_1 bcast_S1x128_S50000x128_0_1 bcast_S_S50000x128 ..

theorem r_e0 : Cert.ReferenceIdeal.Ops.RV2 (F := Ideal) (StableHlo.launchContents m' c) (Proc.devRef .tc Cert.ReferenceIdeal.main_v13)
    = Cert.Spec.lin1E (m' ((c : Thread Cert.ReferenceIdeal.nD Cert.ReferenceIdeal.τ).loc Cert.ReferenceIdeal.main_arg2))
        (m' ((c : Thread Cert.ReferenceIdeal.nD Cert.ReferenceIdeal.τ).loc Cert.ReferenceIdeal.main_arg5))
        (m' ((c : Thread Cert.ReferenceIdeal.nD Cert.ReferenceIdeal.τ).loc Cert.ReferenceIdeal.main_arg6)) := by
  show after rops2 (after rops1 (after rops0 (launchContents m' c))) _ = _
  after_results
  funext i
  rw [eq_ix2 i]
  exact dense_apply bcast_S128_S1x128_1 bcast_S1x128_S200000x128_0_1 bcast_S_S200000x128 ..

end Cert.Bridge

end
-- ==== Proof.Kept.lean ====
import proofs.«412421_j54589034332476_1_alg».proof.Proof.Gen.KernelIdeal.Frame
import proofs.«412421_j54589034332476_1_alg».proof.Proof.Order

noncomputable section

namespace Cert.Bridge.Kept

open Idealize.ShloMosaic Idealize.ShloMosaic.TcCoe Idealize.SL.Sem Idealize.ShloMosaic.StableHlo
open Cert.KernelIdeal Cert.KernelIdeal.Gen

variable {F : FTy → Type} [FloatOps F]

/-- The arguments that are no region's window. -/
noncomputable def late : List (Ref sig .tc) :=
  [main_arg1, main_arg4, main_arg6, main_arg7, main_arg8, main_arg9, main_arg10, main_arg11, main_arg12, main_arg13,
    main_arg14, main_arg15, main_arg16, main_arg17, main_arg18]

noncomputable def stretches : List (List (HloOp τ sig (Elt F))) :=
  [hostOps0, hostOps1, hostOps2, hostOps2_1, hostOps2_2, hostOps3, hostOps4, hostOps5, hostOps5_1, hostOps5_2, hostOps5_3, hostOps5_4, hostOps5_5, hostOps5_6, hostOps5_7, hostOps6, hostOps7, hostOps8, hostOps8_1, hostOps8_2, hostOps8_3, hostOps8_4, hostOps8_5, hostOps8_6, hostOps8_7, hostOps9, hostOps10, hostOps11]

/-- The arguments are references 0 to 18, and every host operation writes a value of its own. -/
theorem froms : (stretches (F := F)).Forall (From 19) := by
  unfold stretches From
  repeat' apply And.intro
  all_goals exact not_writes rfl (by decide)

theorem keeps {b : Ref sig .tc} (hb : b.idx.1 < 19) {ops : List (HloOp τ sig (Elt F))} (hops : ops ∈ stretches)
    (X : Valuation τ sig (Elt F)) : after ops X (Proc.devRef .tc b) = X (Proc.devRef .tc b) :=
  (List.forall_iff_forall_mem.mp froms ops hops).after hb X

theorem sub {b : Ref sig .tc} (hb : b ∈ late) : b.idx.1 < 19 := (by decide : ∀ b ∈ late, b.idx.1 < 19) b hb

/-- One host stretch further, an argument still holds what it held. -/
theorem host {b : Ref sig .tc} (hb : b ∈ late) {ops : List (HloOp τ sig (Elt F))} {X : Valuation τ sig (Elt F)}
    {v : _} (h : X (Proc.devRef .tc b) = v)
    (hops : ops ∈ stretches := by simp only [stretches, List.mem_cons, true_or, or_true]) :
    after ops X (Proc.devRef .tc b) = v :=
  (keeps (sub hb) hops X).trans h

section Stages

variable (m : (ℓ : Loc nD τ sig) → Buf (Elt F) ℓ) (ρ : Dev nD → PrngReg) {b : Ref sig .tc} (hb : b ∈ late) (c : Dev nD)
include hb

theorem at1 : W1 m ρ c (Proc.devRef .tc b) = m ((c : Thread nD τ).loc b) := host hb rfl
theorem at2 : W2 m ρ c (Proc.devRef .tc b) = m ((c : Thread nD τ).loc b) :=
  (W2_of_ne m ρ c b fun w e => (by decide : ∀ w, Pipeline.arrRef spec0 w ∉ late) w (e ▸ hb)).trans (at1 m ρ hb c)
theorem at3 : W3 m ρ c (Proc.devRef .tc b) = m ((c : Thread nD τ).loc b) := host hb (at2 m ρ hb c)
theorem at4 : W4 m ρ c (Proc.devRef .tc b) = m ((c : Thread nD τ).loc b) :=
  (W4_of_ne m ρ c b fun w e => (by decide : ∀ w, Pipeline.arrRef spec1 w ∉ late) w (e ▸ hb)).trans (at3 m ρ hb c)
theorem at5 : W5 m ρ c (Proc.devRef .tc b) = m ((c : Thread nD τ).loc b) := host hb (at4 m ρ hb c)
theorem at6 : W6 m ρ c (Proc.devRef .tc b) = m ((c : Thread nD τ).loc b) := host hb (at5 m ρ hb c)
theorem at7 : W7 m ρ c (Proc.devRef .tc b) = m ((c : Thread nD τ).loc b) := host hb (at6 m ρ hb c)
theorem at8 : W8 m ρ c (Proc.devRef .tc b) = m ((c : Thread nD τ).loc b) :=
  (W8_of_ne m ρ c b fun w e => (by decide : ∀ w, Pipeline.arrRef spec2 w ∉ late) w (e ▸ hb)).trans (at7 m ρ hb c)
theorem at9 : W9 m ρ c (Proc.devRef .tc b) = m ((c : Thread nD τ).loc b) := host hb (at8 m ρ hb c)
theorem at10 : W10 m ρ c (Proc.devRef .tc b) = m ((c : Thread nD τ).loc b) :=
  (W10_of_ne m ρ c b fun w e => (by decide : ∀ w, Pipeline.arrRef spec3 w ∉ late) w (e ▸ hb)).trans (at9 m ρ hb c)
theorem at11 : W11 m ρ c (Proc.devRef .tc b) = m ((c : Thread nD τ).loc b) := host hb (at10 m ρ hb c)
theorem at12 : W12 m ρ c (Proc.devRef .tc b) = m ((c : Thread nD τ).loc b) :=
  (W12_of_ne m ρ c b fun w e => (by decide : ∀ w, Pipeline.arrRef spec4 w ∉ late) w (e ▸ hb)).trans (at11 m ρ hb c)
theorem at13 : W13 m ρ c (Proc.devRef .tc b) = m ((c : Thread nD τ).loc b) := host hb (at12 m ρ hb c)
theorem at14 : W14 m ρ c (Proc.devRef .tc b) = m ((c : Thread nD τ).loc b) := host hb (at13 m ρ hb c)
theorem at15 : W15 m ρ c (Proc.devRef .tc b) = m ((c : Thread nD τ).loc b) := host hb (at14 m ρ hb c)
theorem at16 : W16 m ρ c (Proc.devRef .tc b) = m ((c : Thread nD τ).loc b) := host hb (at15 m ρ hb c)
theorem at17 : W17 m ρ c (Proc.devRef .tc b) = m ((c : Thread nD τ).loc b) := host hb (at16 m ρ hb c)
theorem at18 : W18 m ρ c (Proc.devRef .tc b) = m ((c : Thread nD τ).loc b) := host hb (at17 m ρ hb c)
theorem at19 : W19 m ρ c (Proc.devRef .tc b) = m ((c : Thread nD τ).loc b) := host hb (at18 m ρ hb c)
theorem at20 : W20 m ρ c (Proc.devRef .tc b) = m ((c : Thread nD τ).loc b) := host hb (at19 m ρ hb c)
theorem at21 : W21 m ρ c (Proc.devRef .tc b) = m ((c : Thread nD τ).loc b) :=
  (W21_of_ne m ρ c b fun w e => (by decide : ∀ w, Pipeline.arrRef spec5 w ∉ late) w (e ▸ hb)).trans (at20 m ρ hb c)
theorem at22 : W22 m ρ c (Proc.devRef .tc b) = m ((c : Thread nD τ).loc b) := host hb (at21 m ρ hb c)
theorem at23 : W23 m ρ c (Proc.devRef .tc b) = m ((c : Thread nD τ).loc b) :=
  (W23_of_ne m ρ c b fun w e => (by decide : ∀ w, Pipeline.arrRef spec6 w ∉ late) w (e ▸ hb)).trans (at22 m ρ hb c)
theorem at24 : W24 m ρ c (Proc.devRef .tc b) = m ((c : Thread nD τ).loc b) := host hb (at23 m ρ hb c)
theorem at25 : W25 m ρ c (Proc.devRef .tc b) = m ((c : Thread nD τ).loc b) :=
  (W25_of_ne m ρ c b fun w e => (by decide : ∀ w, Pipeline.arrRef spec7 w ∉ late) w (e ▸ hb)).trans (at24 m ρ hb c)
theorem at26 : W26 m ρ c (Proc.devRef .tc b) = m ((c : Thread nD τ).loc b) := host hb (at25 m ρ hb c)
theorem at27 : W27 m ρ c (Proc.devRef .tc b) = m ((c : Thread nD τ).loc b) := host hb (at26 m ρ hb c)
theorem at28 : W28 m ρ c (Proc.devRef .tc b) = m ((c : Thread nD τ).loc b) := host hb (at27 m ρ hb c)
theorem at29 : W29 m ρ c (Proc.devRef .tc b) = m ((c : Thread nD τ).loc b) := host hb (at28 m ρ hb c)
theorem at30 : W30 m ρ c (Proc.devRef .tc b) = m ((c : Thread nD τ).loc b) := host hb (at29 m ρ hb c)
theorem at31 : W31 m ρ c (Proc.devRef .tc b) = m ((c : Thread nD τ).loc b) := host hb (at30 m ρ hb c)
theorem at32 : W32 m ρ c (Proc.devRef .tc b) = m ((c : Thread nD τ).loc b) := host hb (at31 m ρ hb c)
theorem at33 : W33 m ρ c (Proc.devRef .tc b) = m ((c : Thread nD τ).loc b) := host hb (at32 m ρ hb c)
theorem at34 : W34 m ρ c (Proc.devRef .tc b) = m ((c : Thread nD τ).loc b) :=
  (W34_of_ne m ρ c b fun w e => (by decide : ∀ w, Pipeline.arrRef spec8 w ∉ late) w (e ▸ hb)).trans (at33 m ρ hb c)
theorem at35 : W35 m ρ c (Proc.devRef .tc b) = m ((c : Thread nD τ).loc b) := host hb (at34 m ρ hb c)
theorem at36 : W36 m ρ c (Proc.devRef .tc b) = m ((c : Thread nD τ).loc b) :=
  (W36_of_ne m ρ c b fun w e => (by decide : ∀ w, Pipeline.arrRef spec9 w ∉ late) w (e ▸ hb)).trans (at35 m ρ hb c)
theorem at37 : W37 m ρ c (Proc.devRef .tc b) = m ((c : Thread nD τ).loc b) := host hb (at36 m ρ hb c)
theorem at38 : W38 m ρ c (Proc.devRef .tc b) = m ((c : Thread nD τ).loc b) :=
  (W38_of_ne m ρ c b fun w e => (by decide : ∀ w, Pipeline.arrRef spec10 w ∉ late) w (e ▸ hb)).trans (at37 m ρ hb c)

end Stages

end Cert.Bridge.Kept

end
-- ==== Proof.KEdge.lean ====
import proofs.«412421_j54589034332476_1_alg».proof.Proof.Gen.KernelIdeal.Frame
import proofs.«412421_j54589034332476_1_alg».proof.Proof.Spec
import proofs.«412421_j54589034332476_1_alg».proof.Proof.Kept
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.StackMember

noncomputable section

namespace Cert.Bridge

open Idealize.ShloMosaic Idealize.ShloMosaic.TcCoe Idealize.SL.Sem Idealize.ShloMosaic.StableHlo
open Idealize.ShloMosaic.ValueIdx
open Cert.KernelIdeal Cert.KernelIdeal.Gen

namespace KEdge

-- Into the zero splat a block product is the plain product of the host, whose entries are inner products.
theorem edgeDot_apply {φ₁ φ₂ : FTy} (A : FVec Ideal S5000x128 φ₁) (B : FVec Ideal S128x128 φ₂) (p : Fin 5000) (q : Fin 128) :
    matmul dot_S5000x128_S128x128_S5000x128_1_0_0_1_n_n none A B (constant S5000x128 .f32 0x00000000#32) (ix2 p q)
      = ∑ k : Fin 128, A (ix2 p k) * B (ix2 k q) :=
  (Ideal.matmul_constant_zero_apply (DotDims.plain 5000 128 128) none A B _).trans
    ((Ideal.dotGeneral_apply _ none _ A B _).symm.trans (StackMember.dotGeneral_plain_apply none A B p q))

theorem edgePay_apply (x0 x1 x2 : Vec Ideal S5000x128 .f32) (w0 w1 w2 : Vec Ideal S128x128 .f32)
    (b : Vec Ideal S1x128 .f32) (p : Fin 5000) (q : Fin 128) :
    k2_pay1 x0 x1 x2 w0 w1 w2 b (ix2 p q)
      = max ((((∑ k : Fin 128, x0 (ix2 p k) * w0 (ix2 k q)) + (∑ k : Fin 128, x1 (ix2 p k) * w1 (ix2 k q)))
          + (∑ k : Fin 128, x2 (ix2 p k) * w2 (ix2 k q))) + b (ix2 0 q)) 0 := by
  unfold k2_pay1
  simp only [shapeCast_self]
  rw [maximumf_apply, addf_apply, addf_apply, addf_apply, edgeDot_apply, edgeDot_apply, edgeDot_apply, broadcast_apply]
  simp only [truncf_apply]
  rw [broadcastTo_apply b _ (ix2 p q) (ix2 0 q) (fun a => by match a with | ⟨0, _⟩ => rfl | ⟨1, _⟩ => rfl)]
  show max _ (Ideal.ofBits .f32 0x00000000#32) = _
  rw [Ideal.ofBits_zero_f32]

theorem zeroOff2 : (![0, 0] : Fin 2 → Nat) = fun _ => 0 := funext fun a => by fin_cases a <;> rfl

def edgeLayer (a c d : S200000x128.Idx → EReal) (w0 w1 w2 : S128x128.Idx → EReal) (b : S1x128.Idx → EReal) :
    S200000x128.Idx → EReal :=
  fun i => max ((((∑ k : Fin 128, a (ix2 (i 0) k) * w0 (ix2 k (i 1))) + (∑ k : Fin 128, c (ix2 (i 0) k) * w1 (ix2 k (i 1))))
      + (∑ k : Fin 128, d (ix2 (i 0) k) * w2 (ix2 k (i 1)))) + b (ix2 0 (i 1))) 0

-- A stored block is the layer at the rows it sits on: e places block entry (p, q) at array entry (n + p, q).
theorem edgeOut_eq (x0 x1 x2 : Vec Ideal S5000x128 .f32) (w0 w1 w2 : Vec Ideal S128x128 .f32) (b : Vec Ideal S1x128 .f32)
    (A C D : S200000x128.Idx → EReal) (W0 W1 W2 : S128x128.Idx → EReal) (B : S1x128.Idx → EReal)
    (e : S5000x128.Idx → S200000x128.Idx) (n : ℕ)
    (he0 : ∀ y, (e y 0 : ℕ) = n + y 0) (he1 : ∀ y, (e y 1 : ℕ) = y 1)
    (h0 : ∀ y, x0 y = A (e y)) (h1 : ∀ y, x1 y = C (e y)) (h2 : ∀ y, x2 y = D (e y))
    (hw0 : w0 = W0) (hw1 : w1 = W1) (hw2 : w2 = W2) (hb : b = B) (j : S5000x128.Idx) :
    out2_7 x0 x1 x2 w0 w1 w2 b j = edgeLayer A C D W0 W1 W2 B (e j) := by
  subst hw0 hw1 hw2 hb
  obtain ⟨p, q, rfl⟩ : ∃ (p : Fin 5000) (q : Fin 128), j = ix2 p q := ⟨j 0, j 1, eq_ix2 j⟩
  have ek : ∀ k : Fin 128, e (ix2 p k) = ix2 (e (ix2 p q) 0) k := fun k =>
    Shape.idx_ext₂ ((he0 (ix2 p k)).trans (he0 (ix2 p q)).symm) (he1 (ix2 p k))
  generalize e (ix2 p q) 0 = r at ek
  rw [ek q]
  unfold out2_7
  rw [View.canon_unit_zero zeroOff2]
  simp only [View.ld_unit_zero (S := S5000x128) zeroOff2, View.ld_unit_zero (S := S128x128) zeroOff2, View.ld_unit_zero (S := S1x128) zeroOff2]
  rw [edgePay_apply]
  unfold edgeLayer
  simp only [h0, h1, h2, ek]
  rfl

-- A block that sits at its own coordinates in its array is the array.
theorem readWhole {S : Shape} (X : S.Idx → EReal) (e : S.Idx → S.Idx) (he : ∀ y a, (e y a : ℕ) = y a) :
    (fun y => X (e y)) = X :=
  funext fun y => congrArg X (funext fun a => Fin.ext (he y a))

theorem idx0 (t : Fin cfg2.N) (a : Fin 2) : win2_3.index t a = 0 := by fin_cases a <;> rfl

theorem edgeIdx : ∀ t : Fin cfg2.N, win2_7.index t (0 : Fin 2) = t.val :=
  (by decide +kernel : ∀ t : Fin grid2.N, _)

-- The 40 blocks of 5000 rows tile the 200000 rows: row r is in block r / 5000.
theorem edgeCover (i : S200000x128.Idx) : ∃ t : Fin cfg2.N, i ∈ (win2_7.rect t).set := by
  have hi0 : (i 0).val < 200000 := (i 0).isLt
  have hi1 : (i 1).val < 128 := (i 1).isLt
  obtain ⟨t, ht⟩ : ∃ t : Fin cfg2.N, t.val = (i 0).val / 5000 :=
    ⟨⟨(i 0).val / 5000, by rw [show cfg2.N = 40 from N_2]; omega⟩, rfl⟩
  refine ⟨t, Rect.mem_set_unit.mpr (Fin.forall_fin_two.mpr ⟨?_, ?_⟩)⟩
  · show win2_7.index t 0 * 5000 ≤ (i 0).val ∧ (i 0).val < win2_7.index t 0 * 5000 + 5000
    rw [edgeIdx t, ht]; omega
  · show 0 * 128 ≤ (i 1).val ∧ (i 1).val < 0 * 128 + 128
    omega

theorem mem_blk {b : Ref sig .tc} {R : Rect b.ty.shape} {i : b.ty.shape.Idx} (h : i ∈ R.set) :
    i ∈ ((View.whole b).slice R).set := by
  rw [View.set_slice_whole]; exact h

section Regions
variable (V : (c : Dev nD) → (b : Ref sig .tc) → Buf (Elt Ideal) ((c : Thread nD τ).loc b))

theorem edgeArr2 (c : Dev nD) : (dat2 V c).arrAt 7 cfg2.N
    = edgeLayer (V c main_v8) (V c main_v9) (V c main_v7) (V c main_v11) (V c main_v13) (V c main_v15) (V c main_v18) :=
  (dat2 V c).arrAt_eq_of_cover 7 _ (fun t _ => by
    show (cfg2.win 7).cut (grid2.coords t) ((dat2 V c).after 7 t) = _
    rw [after2_7]
    exact funext fun j => edgeOut_eq _ _ _ _ _ _ _ _ _ _ _ _ _ _ (win2_7.rect t).emb _
      (fun y => win2_7.rect_emb_val t y 0) (win2_7.rect_emb_val_of_index_zero t 1 rfl)
      (fun _ => rfl) (fun _ => rfl) (fun _ => rfl)
      (readWhole _ _ fun y a => win2_3.rect_emb_val_of_index_zero t a (idx0 t a) y)
      (readWhole _ _ fun y a => win2_4.rect_emb_val_of_index_zero t a (idx0 t a) y)
      (readWhole _ _ fun y a => win2_5.rect_emb_val_of_index_zero t a (idx0 t a) y)
      (readWhole _ _ fun y a => win2_6.rect_emb_val_of_index_zero t a (idx0 t a) y) j)
    fun i => (edgeCover i).imp fun t h => ⟨flush2_7 t, mem_blk h⟩

theorem edgeArr5 (c : Dev nD) : (dat5 V c).arrAt 7 cfg5.N
    = edgeLayer (V c main_v85) (V c main_v86) (V c main_v84) (V c main_v88) (V c main_v90) (V c main_v92) (V c main_v95) :=
  (dat5 V c).arrAt_eq_of_cover 7 _ (fun t _ => by
    show (cfg5.win 7).cut (grid5.coords t) ((dat5 V c).after 7 t) = _
    rw [after5_7]
    exact funext fun j => edgeOut_eq _ _ _ _ _ _ _ _ _ _ _ _ _ _ (win5_7.rect t).emb _
      (fun y => win5_7.rect_emb_val t y 0) (win5_7.rect_emb_val_of_index_zero t 1 rfl)
      (fun _ => rfl) (fun _ => rfl) (fun _ => rfl)
      (readWhole _ _ fun y a => win5_3.rect_emb_val_of_index_zero t a (idx0 t a) y)
      (readWhole _ _ fun y a => win5_4.rect_emb_val_of_index_zero t a (idx0 t a) y)
      (readWhole _ _ fun y a => win5_5.rect_emb_val_of_index_zero t a (idx0 t a) y)
      (readWhole _ _ fun y a => win5_6.rect_emb_val_of_index_zero t a (idx0 t a) y) j)
    fun i => (edgeCover i).imp fun t h => ⟨flush5_7 t, mem_blk h⟩

theorem edgeArr8 (c : Dev nD) : (dat8 V c).arrAt 7 cfg8.N
    = edgeLayer (V c main_v162) (V c main_v163) (V c main_v161) (V c main_v165) (V c main_v167) (V c main_v169) (V c main_v172) :=
  (dat8 V c).arrAt_eq_of_cover 7 _ (fun t _ => by
    show (cfg8.win 7).cut (grid8.coords t) ((dat8 V c).after 7 t) = _
    rw [after8_7]
    exact funext fun j => edgeOut_eq _ _ _ _ _ _ _ _ _ _ _ _ _ _ (win8_7.rect t).emb _
      (fun y => win8_7.rect_emb_val t y 0) (win8_7.rect_emb_val_of_index_zero t 1 rfl)
      (fun _ => rfl) (fun _ => rfl) (fun _ => rfl)
      (readWhole _ _ fun y a => win8_3.rect_emb_val_of_index_zero t a (idx0 t a) y)
      (readWhole _ _ fun y a => win8_4.rect_emb_val_of_index_zero t a (idx0 t a) y)
      (readWhole _ _ fun y a => win8_5.rect_emb_val_of_index_zero t a (idx0 t a) y)
      (readWhole _ _ fun y a => win8_6.rect_emb_val_of_index_zero t a (idx0 t a) y) j)
    fun i => (edgeCover i).imp fun t h => ⟨flush8_7 t, mem_blk h⟩

end Regions

-- A 128-row piece of slab l of the stacked weights, its unit axis dropped, at (k, q) is the stack at (l, o + k, q).
theorem piece_apply (W : S3x384x128.Idx → EReal) (l : Fin 3) (o : Nat) (ho : o + 128 ≤ 384)
    (hs : S3x384x128.Slices ![l.val, o, 0] S1x128x128) (hc : S1x128x128.ShapeCasts S128x128) (k q : Fin 128) :
    shapeCast S128x128 (extractStridedSlice S1x128x128 ![l.val, o, 0] W hs) hc (ix2 k q)
      = W (ix3 l (Cert.Spec.rowAt o ho k) q) := by
  rw [shapeCast_1ab_ab_apply]
  refine extractStridedSlice_apply _ W hs _ _ (fun a => ?_)
  match a with
  | ⟨0, _⟩ => rfl
  | ⟨1, _⟩ => rfl
  | ⟨2, _⟩ => exact (Nat.zero_add _).symm

-- Row l of the stacked biases, cut out, flattened and made a one-row array again, at (0, q) is the stack at (l, q).
theorem biasRow_apply (B : S3x128.Idx → EReal) (l : Fin 3) (hs : S3x128.Slices ![l.val, 0] S1x128)
    (hc1 : S1x128.ShapeCasts S128) (hc2 : S128.ShapeCasts S1x128) (u : Fin 1) (q : Fin 128) :
    shapeCast S1x128 (shapeCast S128 (extractStridedSlice S1x128 ![l.val, 0] B hs) hc1) hc2 (ix2 u q) = B (ix2 l q) := by
  rw [shapeCast_a_1a_apply, shapeCast_1a_a_apply]
  refine extractStridedSlice_apply _ B hs _ _ (fun a => ?_)
  match a with
  | ⟨0, _⟩ => rfl
  | ⟨1, _⟩ => exact (Nat.zero_add _).symm

-- Over weight pieces and a bias row cut from slab l of the stacks the layer is the specification's at slab l.
theorem edgeLayer_eq_spec (a c d : S200000x128.Idx → EReal) (W : S3x384x128.Idx → EReal) (B : S3x128.Idx → EReal) (l : Fin 3)
    {w0 w1 w2 : S128x128.Idx → EReal} {b : S1x128.Idx → EReal} {hs0 hs1 hs2 hc hsb hc1 hc2}
    (e0 : w0 = shapeCast S128x128 (extractStridedSlice S1x128x128 ![l.val, 0, 0] W hs0) hc)
    (e1 : w1 = shapeCast S128x128 (extractStridedSlice S1x128x128 ![l.val, 128, 0] W hs1) hc)
    (e2 : w2 = shapeCast S128x128 (extractStridedSlice S1x128x128 ![l.val, 256, 0] W hs2) hc)
    (eb : b = shapeCast S1x128 (shapeCast S128 (extractStridedSlice S1x128 ![l.val, 0] B hsb) hc1) hc2) :
    edgeLayer a c d w0 w1 w2 b = Cert.Spec.lin3E a c d W B l := by
  subst e0 e1 e2 eb
  funext i
  obtain ⟨r, q, rfl⟩ : ∃ (r : Fin 200000) (q : Fin 128), i = ix2 r q := ⟨i 0, i 1, eq_ix2 i⟩
  unfold edgeLayer Cert.Spec.lin3E
  simp only [piece_apply W l 0 (by omega), piece_apply W l 128 (by omega), piece_apply W l 256 (by omega), biasRow_apply B l]

-- No operation of the three stretches between the encoder's region and round 0's edge layer writes the encoded edge features.
theorem enc_kept (Wv : Valuation τ sig (Elt Ideal)) :
    StableHlo.after hostOps2_2 (StableHlo.after hostOps2_1 (StableHlo.after hostOps2 Wv)) (Proc.devRef .tc main_v7)
      = Wv (Proc.devRef .tc main_v7) := by
  after_results

-- Each round's weight pieces and bias row are cut from that round's slab of the stacks by the stretch before its region.
theorem slab0 (Wv : Valuation τ sig (Elt Ideal)) (a c d : S200000x128.Idx → EReal) :
    edgeLayer a c d (StableHlo.after hostOps2_2 Wv (Proc.devRef .tc main_v11)) (StableHlo.after hostOps2_2 Wv (Proc.devRef .tc main_v13))
        (StableHlo.after hostOps2_2 Wv (Proc.devRef .tc main_v15)) (StableHlo.after hostOps2_2 Wv (Proc.devRef .tc main_v18))
      = Cert.Spec.lin3E a c d (Wv (Proc.devRef .tc main_arg7)) (Wv (Proc.devRef .tc main_arg8)) 0 :=
  edgeLayer_eq_spec a c d _ _ 0 (by after_results; rfl) (by after_results; rfl) (by after_results; rfl) (by after_results; rfl)

theorem slab1 (Wv : Valuation τ sig (Elt Ideal)) (a c d : S200000x128.Idx → EReal) :
    edgeLayer a c d (StableHlo.after hostOps5_7 Wv (Proc.devRef .tc main_v88)) (StableHlo.after hostOps5_7 Wv (Proc.devRef .tc main_v90))
        (StableHlo.after hostOps5_7 Wv (Proc.devRef .tc main_v92)) (StableHlo.after hostOps5_7 Wv (Proc.devRef .tc main_v95))
      = Cert.Spec.lin3E a c d (Wv (Proc.devRef .tc main_arg7)) (Wv (Proc.devRef .tc main_arg8)) 1 :=
  edgeLayer_eq_spec a c d _ _ 1 (by after_results; rfl) (by after_results; rfl) (by after_results; rfl) (by after_results; rfl)

theorem slab2 (Wv : Valuation τ sig (Elt Ideal)) (a c d : S200000x128.Idx → EReal) :
    edgeLayer a c d (StableHlo.after hostOps8_7 Wv (Proc.devRef .tc main_v165)) (StableHlo.after hostOps8_7 Wv (Proc.devRef .tc main_v167))
        (StableHlo.after hostOps8_7 Wv (Proc.devRef .tc main_v169)) (StableHlo.after hostOps8_7 Wv (Proc.devRef .tc main_v172))
      = Cert.Spec.lin3E a c d (Wv (Proc.devRef .tc main_arg7)) (Wv (Proc.devRef .tc main_arg8)) 2 :=
  edgeLayer_eq_spec a c d _ _ 2 (by after_results; rfl) (by after_results; rfl) (by after_results; rfl) (by after_results; rfl)

end KEdge

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem k_e1 : (Cert.KernelIdeal.Gen.W8 (F := Ideal) m ρ c (Proc.devRef .tc Cert.KernelIdeal.main_v19) : S200000x128.Idx → EReal)
    = Cert.Spec.lin3E (Cert.KernelIdeal.Gen.W7 (F := Ideal) m ρ c (Proc.devRef .tc Cert.KernelIdeal.main_v8)) (Cert.KernelIdeal.Gen.W7 (F := Ideal) m ρ c (Proc.devRef .tc Cert.KernelIdeal.main_v9)) (Cert.KernelIdeal.Gen.W4 (F := Ideal) m ρ c (Proc.devRef .tc Cert.KernelIdeal.main_v7))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) 0 := by
  refine (W8_arr m ρ c 7).trans ((KEdge.edgeArr2 (V7 m ρ) c).trans ?_)
  rw [← KEdge.enc_kept (W4 m ρ c), ← Kept.at6 m ρ (b := main_arg7) (by decide) c, ← Kept.at6 m ρ (b := main_arg8) (by decide) c]
  exact KEdge.slab0 (W6 m ρ c) _ _ _

theorem k_e2 : (Cert.KernelIdeal.Gen.W21 (F := Ideal) m ρ c (Proc.devRef .tc Cert.KernelIdeal.main_v96) : S200000x128.Idx → EReal)
    = Cert.Spec.lin3E (Cert.KernelIdeal.Gen.W20 (F := Ideal) m ρ c (Proc.devRef .tc Cert.KernelIdeal.main_v85)) (Cert.KernelIdeal.Gen.W20 (F := Ideal) m ρ c (Proc.devRef .tc Cert.KernelIdeal.main_v86)) (Cert.KernelIdeal.Gen.W20 (F := Ideal) m ρ c (Proc.devRef .tc Cert.KernelIdeal.main_v84))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) 1 := by
  refine (W21_arr m ρ c 7).trans ((KEdge.edgeArr5 (V20 m ρ) c).trans ?_)
  rw [← Kept.at19 m ρ (b := main_arg7) (by decide) c, ← Kept.at19 m ρ (b := main_arg8) (by decide) c]
  exact KEdge.slab1 (W19 m ρ c) _ _ _

theorem k_e3 : (Cert.KernelIdeal.Gen.W34 (F := Ideal) m ρ c (Proc.devRef .tc Cert.KernelIdeal.main_v173) : S200000x128.Idx → EReal)
    = Cert.Spec.lin3E (Cert.KernelIdeal.Gen.W33 (F := Ideal) m ρ c (Proc.devRef .tc Cert.KernelIdeal.main_v162)) (Cert.KernelIdeal.Gen.W33 (F := Ideal) m ρ c (Proc.devRef .tc Cert.KernelIdeal.main_v163)) (Cert.KernelIdeal.Gen.W33 (F := Ideal) m ρ c (Proc.devRef .tc Cert.KernelIdeal.main_v161))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) 2 := by
  refine (W34_arr m ρ c 7).trans ((KEdge.edgeArr8 (V33 m ρ) c).trans ?_)
  rw [← Kept.at32 m ρ (b := main_arg7) (by decide) c, ← Kept.at32 m ρ (b := main_arg8) (by decide) c]
  exact KEdge.slab2 (W32 m ρ c) _ _ _

end Cert.Bridge

end
-- ==== Proof.REdge.lean ====
import proofs.«412421_j54589034332476_1_alg».proof.Proof.RLayer

noncomputable section

namespace Cert.Bridge

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Ops Cert.Bridge.RLayer

namespace REdge

-- The product's sum over the 384 columns is the three operands' inner products against the three row blocks of the slab.
theorem lin3E_eq (o : Nat) (ho : o < 3) (hW hB) (a c d : FVec Ideal S200000x128 .f32) (W : FVec Ideal S3x384x128 .f32)
    (B : FVec Ideal S3x128 .f32) :
    slabLayer o hW shapeCasts_S1x384x128_S384x128 hB bcast_S1x128_S200000x128_0_1 bcast_S_S200000x128
      (concatenate S200000x384 1 [⟨S200000x128, a⟩, ⟨S200000x128, c⟩, ⟨S200000x128, d⟩]
        concatenates_S200000x128_S200000x128_S200000x128_S200000x384_d1) W B
      = Cert.Spec.lin3E a c d W B ⟨o, ho⟩ := by
  refine ext2 fun p q => ?_
  rw [slab_apply o ho, sum_384]
  simp only [cat_at [⟨_, a⟩, ⟨_, c⟩, ⟨_, d⟩] _ 0 a rfl 0 rfl, cat_at [⟨_, a⟩, ⟨_, c⟩, ⟨_, d⟩] _ 1 c rfl 128 rfl,
    cat_at [⟨_, a⟩, ⟨_, c⟩, ⟨_, d⟩] _ 2 d rfl 256 rfl]
  rfl

variable (X : Valuation τ sig (Elt Ideal))

theorem step0 {d W B} (hd : X (Proc.devRef .tc main_v13) = d) (hW : X (Proc.devRef .tc main_arg7) = W) (hB : X (Proc.devRef .tc main_arg8) = B) :
    after rops4 X (Proc.devRef .tc main_v37) = Cert.Spec.lin3E (X (Proc.devRef .tc main_v20)) (X (Proc.devRef .tc main_v27)) d W B 0 := by
  subst hd hW hB; after_results
  exact lin3E_eq 0 (by omega) slices_S3x384x128_S1x384x128_0_0_0 slices_S3x128_S1x128_0_0 ..

theorem step1 {d W B} (hd : X (Proc.devRef .tc main_v113) = d) (hW : X (Proc.devRef .tc main_arg7) = W) (hB : X (Proc.devRef .tc main_arg8) = B) :
    after rops14 X (Proc.devRef .tc main_v137) = Cert.Spec.lin3E (X (Proc.devRef .tc main_v120)) (X (Proc.devRef .tc main_v127)) d W B 1 := by
  subst hd hW hB; after_results
  exact lin3E_eq 1 (by omega) slices_S3x384x128_S1x384x128_1_0_0 slices_S3x128_S1x128_1_0 ..

theorem step2 {d W B} (hd : X (Proc.devRef .tc main_v213) = d) (hW : X (Proc.devRef .tc main_arg7) = W) (hB : X (Proc.devRef .tc main_arg8) = B) :
    after rops24 X (Proc.devRef .tc main_v237) = Cert.Spec.lin3E (X (Proc.devRef .tc main_v220)) (X (Proc.devRef .tc main_v227)) d W B 2 := by
  subst hd hW hB; after_results
  exact lin3E_eq 2 (by omega) slices_S3x384x128_S1x384x128_2_0_0 slices_S3x128_S1x128_2_0 ..

end REdge

variable (m' : (ℓ : Loc Cert.ReferenceIdeal.nD Cert.ReferenceIdeal.τ Cert.ReferenceIdeal.sig) → Buf (Elt Ideal) ℓ)
  (c : Dev Cert.ReferenceIdeal.nD)

theorem r_e1 : RV4 (F := Ideal) (StableHlo.launchContents m' c) (Proc.devRef .tc main_v37)
    = Cert.Spec.lin3E (RV3 (F := Ideal) (StableHlo.launchContents m' c) (Proc.devRef .tc main_v20))
        (RV3 (F := Ideal) (StableHlo.launchContents m' c) (Proc.devRef .tc main_v27))
        (RV2 (F := Ideal) (StableHlo.launchContents m' c) (Proc.devRef .tc main_v13))
        (m' ((c.tc : Thread Cert.ReferenceIdeal.nD Cert.ReferenceIdeal.τ).loc main_arg7))
        (m' ((c.tc : Thread Cert.ReferenceIdeal.nD Cert.ReferenceIdeal.τ).loc main_arg8)) 0 :=
  REdge.step0 _ (kept 3 1 main_v13 (by decide) _) (kept 0 4 main_arg7 (by decide) (launchContents m' c))
    (kept 0 4 main_arg8 (by decide) (launchContents m' c))

theorem r_e2 : RV14 (F := Ideal) (StableHlo.launchContents m' c) (Proc.devRef .tc main_v137)
    = Cert.Spec.lin3E (RV13 (F := Ideal) (StableHlo.launchContents m' c) (Proc.devRef .tc main_v120))
        (RV13 (F := Ideal) (StableHlo.launchContents m' c) (Proc.devRef .tc main_v127))
        (RV12 (F := Ideal) (StableHlo.launchContents m' c) (Proc.devRef .tc main_v113))
        (m' ((c.tc : Thread Cert.ReferenceIdeal.nD Cert.ReferenceIdeal.τ).loc main_arg7))
        (m' ((c.tc : Thread Cert.ReferenceIdeal.nD Cert.ReferenceIdeal.τ).loc main_arg8)) 1 :=
  REdge.step1 _ (kept 13 1 main_v113 (by decide) _) (kept 0 14 main_arg7 (by decide) (launchContents m' c))
    (kept 0 14 main_arg8 (by decide) (launchContents m' c))

theorem r_e3 : RV24 (F := Ideal) (StableHlo.launchContents m' c) (Proc.devRef .tc main_v237)
    = Cert.Spec.lin3E (RV23 (F := Ideal) (StableHlo.launchContents m' c) (Proc.devRef .tc main_v220))
        (RV23 (F := Ideal) (StableHlo.launchContents m' c) (Proc.devRef .tc main_v227))
        (RV22 (F := Ideal) (StableHlo.launchContents m' c) (Proc.devRef .tc main_v213))
        (m' ((c.tc : Thread Cert.ReferenceIdeal.nD Cert.ReferenceIdeal.τ).loc main_arg7))
        (m' ((c.tc : Thread Cert.ReferenceIdeal.nD Cert.ReferenceIdeal.τ).loc main_arg8)) 2 :=
  REdge.step2 _ (kept 23 1 main_v213 (by decide) _) (kept 0 24 main_arg7 (by decide) (launchContents m' c))
    (kept 0 24 main_arg8 (by decide) (launchContents m' c))

end Cert.Bridge

end
-- ==== Proof.Layer2.lean ====
import proofs.«412421_j54589034332476_1_alg».proof.Proof.Gen.KernelIdeal.Skeleton
import proofs.«412421_j54589034332476_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.Bridge.Layer2

open Idealize.ShloMosaic Idealize.ShloMosaic.TcCoe Idealize.SL.Sem Idealize.ShloMosaic.ValueIdx
open Cert.KernelIdeal Cert.KernelIdeal.Gen

theorem lhs_0 (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

theorem rhs_1 (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

-- Re-indexing the one contracted axis by its coordinate turns the block product into a row-by-column inner product.
theorem mm_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  rw [show dot_S5000x128_S128x128_S5000x128_1_0_0_1_n_n.lhsIdx (ix2 p q) _ = ix2 p k from
      Shape.idx_ext₂ (lhs_0 _ _) ((dot_S5000x128_S128x128_S5000x128_1_0_0_1_n_n.lhsIdx_val_of_single rfl _ _).trans hk),
    show dot_S5000x128_S128x128_S5000x128_1_0_0_1_n_n.rhsIdx (ix2 p q) _ = ix2 k q from
      Shape.idx_ext₂ ((dot_S5000x128_S128x128_S5000x128_1_0_0_1_n_n.rhsIdx_val_of_single rfl _ _).trans hk) (rhs_1 _ _)]

-- A two-operand layer on R rows: max 0 (row p of a · column q of wa + row p of c · column q of wb + b q).
def blk {R : Nat} (a c : (⟨2, ![R, 128]⟩ : Shape).Idx → EReal) (wa wb : S128x128.Idx → EReal) (b : S1x128.Idx → EReal) :
    (⟨2, ![R, 128]⟩ : Shape).Idx → EReal :=
  fun i => max (((∑ k : Fin 128, a (ix2 (i 0) k) * wa (ix2 k (i 1))) + ∑ k : Fin 128, c (ix2 (i 0) k) * wb (ix2 k (i 1)))
    + b (ix2 (0 : Fin 1) (i 1))) 0

-- Narrowing an operand's format changes no value over the extended reals, so the body is the layer on its 5000 rows.
theorem pay (x0 x1 : Vec Ideal S5000x128 .f32) (x2 x3 : Vec Ideal S128x128 .f32) (x4 : Vec Ideal S1x128 .f32) :
    k3_pay1 (F := Ideal) x0 x1 x2 x3 x4 = blk x0 x1 x2 x3 x4 := by
  funext j
  obtain ⟨p, q, rfl⟩ : ∃ (p : Fin 5000) (q : Fin 128), j = ix2 p q := ⟨j 0, j 1, eq_ix2 j⟩
  unfold k3_pay1 blk
  rw [maximumf_apply, addf_apply, addf_apply, mm_apply, mm_apply, broadcastTo_1b_ab_apply, shapeCast_self, broadcast_apply]
  simp only [truncf_apply, shapeCast_self]
  show max _ (Ideal.ofBits .f32 0x00000000#32) = _
  rw [Ideal.ofBits_zero_f32]

-- Blocks read at row offset o 0 (operands, output) or at no offset (weights, bias) see the same rows and columns as the arrays.
theorem tile {R : Nat} (A C : (⟨2, ![R, 128]⟩ : Shape).Idx → EReal) (Wa Wb : S128x128.Idx → EReal) (B : S1x128.Idx → EReal)
    {e0 e1 e5 : S5000x128.Idx → (⟨2, ![R, 128]⟩ : Shape).Idx} {e2 e3 : S128x128.Idx → S128x128.Idx} {e4 : S1x128.Idx → S1x128.Idx}
    (o : Fin 2 → ℕ) (ho : o 1 = 0)
    (h0 : ∀ (y) (a : Fin 2), (e0 y a : ℕ) = o a + y a) (h1 : ∀ (y) (a : Fin 2), (e1 y a : ℕ) = o a + y a) (h5 : ∀ (y) (a : Fin 2), (e5 y a : ℕ) = o a + y a)
    (h2 : ∀ (y) (a : Fin 2), (e2 y a : ℕ) = 0 + y a) (h3 : ∀ (y) (a : Fin 2), (e3 y a : ℕ) = 0 + y a) (h4 : ∀ (y) (a : Fin 2), (e4 y a : ℕ) = 0 + y a) (j : S5000x128.Idx) :
    k3_pay1 (F := Ideal) (fun y => A (e0 y)) (fun y => C (e1 y)) (fun y => Wa (e2 y)) (fun y => Wb (e3 y)) (fun y => B (e4 y)) j
      = blk A C Wa Wb B (e5 j) := by
  have hq : e5 j 1 = j 1 := Fin.ext ((h5 j 1).trans (by rw [ho]; exact Nat.zero_add _))
  have hr (e : S5000x128.Idx → (⟨2, ![R, 128]⟩ : Shape).Idx) (h : ∀ (y) (a : Fin 2), (e y a : ℕ) = o a + y a) (k : Fin 128) :
      e (ix2 (j 0) k) = ix2 (e5 j 0) k :=
    Shape.idx_ext₂ ((h _ 0).trans (h5 j 0).symm) ((h _ 1).trans (by rw [ho]; exact Nat.zero_add _))
  have hw {n0 n1 : ℕ} (e : (⟨2, ![n0, n1]⟩ : Shape).Idx → (⟨2, ![n0, n1]⟩ : Shape).Idx) (h : ∀ (y) (a : Fin 2), (e y a : ℕ) = 0 + y a) (y) : e y = y :=
    funext fun a => Fin.ext ((h y a).trans (Nat.zero_add _))
  rw [pay]
  unfold blk
  simp only [hr e0 h0, hr e1 h1, hw e2 h2, hw e3 h3, hw e4 h4, hq]
  rfl

-- The row blocks tile the array: row r lies in block r / 5000.
theorem rows_cover {R N : Nat} (hR : R = 5000 * N) (off : Fin N → Fin 2 → ℕ) (hoff : ∀ t a, off t a = ![5000 * t.val, 0] a)
    (i : (⟨2, ![R, 128]⟩ : Shape).Idx) :
    ∃ t : Fin N, ∀ a : Fin 2, off t a ≤ (i a : ℕ) ∧ (i a : ℕ) < off t a + S5000x128.size a := by
  have hi0 : (i 0).val < R := (i 0).isLt
  have hi1 : (i 1).val < 128 := (i 1).isLt
  refine ⟨⟨(i 0).val / 5000, by omega⟩, fun a => ?_⟩
  rw [hoff]
  match a with
  | ⟨0, _⟩ => show 5000 * ((i 0).val / 5000) ≤ (i 0).val ∧ (i 0).val < 5000 * ((i 0).val / 5000) + 5000; omega
  | ⟨1, _⟩ => show 0 ≤ (i 1).val ∧ (i 1).val < 0 + 128; omega

-- An element of a block sits on each axis at the block's offset plus its own coordinate.
theorem emb_at {G : Pipeline.Grid} (w : Pipeline.Window sig G) (t : Fin G.N) {o : ℕ} {a : Fin w.shape.rank}
    (h : w.index t a * w.size a = o) (y : (w.xblock (G.coords t)).Idx) : ((w.rect t).emb y a : ℕ) = o + y a := by
  rw [w.rect_emb_val, h]

theorem hz : (![0, 0] : Fin 2 → Nat) = fun _ => 0 := funext fun a => by fin_cases a <;> rfl

theorem piece_apply (W : S3x256x128.Idx → EReal) (l : Fin 3) (off : Nat) (hoff : off + 128 ≤ 256)
    (h : S3x256x128.Slices ![l.val, off, 0] S1x128x128) (k q : Fin 128) :
    shapeCast S128x128 (extractStridedSlice S1x128x128 ![l.val, off, 0] W h) shapeCasts_S1x128x128_S128x128 (ix2 k q)
      = W (ix3 l (Cert.Spec.rowAt off hoff k) q) := by
  rw [shapeCast_1ab_ab_apply]
  refine extractStridedSlice_apply _ _ _ _ _ fun ax => ?_
  match ax with
  | ⟨0, _⟩ => exact (Nat.add_zero _).symm
  | ⟨1, _⟩ => rfl
  | ⟨2, _⟩ => exact (Nat.zero_add _).symm

theorem biasrow_apply (B : S3x128.Idx → EReal) (l : Fin 3) (h : S3x128.Slices ![l.val, 0] S1x128) (q : Fin 128) :
    shapeCast S1x128 (shapeCast S128 (extractStridedSlice S1x128 ![l.val, 0] B h) shapeCasts_S1x128_S128) shapeCasts_S128_S1x128
      (ix2 (0 : Fin 1) q) = B (ix2 l q) := by
  rw [shapeCast_a_1a_apply, shapeCast_1a_a_apply]
  exact slice2_axis0_apply l.val B h (0 : Fin 1) q l (Nat.add_zero _).symm

-- Cut out as the two 128-row pieces of slab l and row l of the biases, the weights make the layer the specification's of round l.
theorem slab {R : Nat} (a c : (⟨2, ![R, 128]⟩ : Shape).Idx → EReal) (W : S3x256x128.Idx → EReal) (B : S3x128.Idx → EReal) (l : Fin 3)
    (h1 : S3x256x128.Slices ![l.val, 0, 0] S1x128x128) (h2 : S3x256x128.Slices ![l.val, 128, 0] S1x128x128)
    (h3 : S3x128.Slices ![l.val, 0] S1x128) :
    blk a c (shapeCast S128x128 (extractStridedSlice S1x128x128 ![l.val, 0, 0] W h1) shapeCasts_S1x128x128_S128x128)
        (shapeCast S128x128 (extractStridedSlice S1x128x128 ![l.val, 128, 0] W h2) shapeCasts_S1x128x128_S128x128)
        (shapeCast S1x128 (shapeCast S128 (extractStridedSlice S1x128 ![l.val, 0] B h3) shapeCasts_S1x128_S128) shapeCasts_S128_S1x128)
      = fun i => max (((∑ k : Fin 128, a (ix2 (i 0) k) * W (ix3 l (Cert.Spec.rowAt 0 (by omega) k) (i 1)))
        + ∑ k : Fin 128, c (ix2 (i 0) k) * W (ix3 l (Cert.Spec.rowAt 128 (by omega) k) (i 1))) + B (ix2 l (i 1))) 0 := by
  funext i
  obtain ⟨p, q, rfl⟩ : ∃ (p : Fin R) (q : Fin 128), i = ix2 p q := ⟨i 0, i 1, eq_ix2 i⟩
  unfold blk
  refine congrArg₂ max (congrArg₂ (· + ·) (congrArg₂ (· + ·) (Finset.sum_congr rfl fun k _ => ?_) (Finset.sum_congr rfl fun k _ => ?_)) ?_) rfl
  · exact congrArg (_ * ·) (piece_apply W l 0 (by omega) h1 k q)
  · exact congrArg (_ * ·) (piece_apply W l 128 (by omega) h2 k q)
  · exact biasrow_apply B l h3 q

-- A buffer that no operation of a host stretch writes holds after the stretch what it held before.
theorem kept {ops : List (HloOp τ sig (Elt Ideal))} {b : Ref sig .tc} (X : Valuation τ sig (Elt Ideal))
    (h : ops.Forall fun op => Proc.devRef .tc b ∉ op.writes) :
    StableHlo.after ops X (Proc.devRef .tc b) = X (Proc.devRef .tc b) :=
  StableHlo.after_of_forall_not_mem _ _ (List.forall_iff_forall_mem.mp h)

-- Distinct references name distinct buffers, so an operation whose one result is another reference does not write this one.
theorem not_wr {b y : Ref sig .tc} (h : b ≠ y) : (Proc.devRef .tc b : DevRef τ sig) ∉ ({Proc.devRef .tc y} : Finset (DevRef τ sig)) :=
  fun e => h (Proc.devRef_injective _ (Finset.mem_singleton.mp e))

end Cert.Bridge.Layer2

end
-- ==== Proof.KMsg.lean ====
import proofs.«412421_j54589034332476_1_alg».proof.Proof.Kept
import proofs.«412421_j54589034332476_1_alg».proof.Proof.Layer2
noncomputable section

namespace Cert.Bridge.KMsg
open Idealize.ShloMosaic Idealize.ShloMosaic.TcCoe Idealize.SL.Sem Idealize.ShloMosaic.StableHlo
open Idealize.ShloMosaic.ValueIdx
open Cert.KernelIdeal Cert.KernelIdeal.Gen Cert.Bridge.Layer2

theorem idx3 : ∀ (t : Fin cfg3.N) (a : Fin 2),
    win3_0.index t a * win3_0.size a = ![5000 * t.val, 0] a ∧ win3_1.index t a * win3_1.size a = ![5000 * t.val, 0] a
    ∧ win3_5.index t a * win3_5.size a = ![5000 * t.val, 0] a ∧ win3_2.index t a * win3_2.size a = 0
    ∧ win3_3.index t a * win3_3.size a = 0 ∧ win3_4.index t a * win3_4.size a = 0 :=
  (by decide +kernel : ∀ t : Fin grid3.N, _)

theorem arr3 (V : (c : Dev nD) → (b : Ref sig .tc) → Buf (Elt Ideal) ((c : Thread nD τ).loc b)) (c : Dev nD) :
    (dat3 V c).arrAt 5 cfg3.N
      = (blk (V c main_v8) (V c main_v19) (V c main_v21) (V c main_v23) (V c main_v26) : S200000x128.Idx → EReal) := by
  refine (dat3 V c).arrAt_eq_of_cover 5 _ (fun t _ => ?_) fun i => ?_
  · show (cfg3.win 5).cut (grid3.coords t) ((dat3 V c).after 5 t) = _
    rw [after3_5]
    unfold out3_5
    rw [View.canon_unit_zero hz]
    simp only [View.ld_unit_zero (S := S5000x128) hz, View.ld_unit_zero (S := S128x128) hz,
      View.ld_unit_zero (S := S1x128) hz]
    exact funext (tile (V c main_v8) (V c main_v19) (V c main_v21) (V c main_v23) (V c main_v26) ![5000 * t.val, 0] rfl
      (fun y a => emb_at win3_0 t (idx3 t a).1 y) (fun y a => emb_at win3_1 t (idx3 t a).2.1 y)
      (fun y a => emb_at win3_5 t (idx3 t a).2.2.1 y) (fun y a => emb_at win3_2 t (idx3 t a).2.2.2.1 y)
      (fun y a => emb_at win3_3 t (idx3 t a).2.2.2.2.1 y) (fun y a => emb_at win3_4 t (idx3 t a).2.2.2.2.2 y))
  · obtain ⟨t, ht⟩ := rows_cover (N := cfg3.N) (by have h : cfg3.N = 40 := N_3; omega)
      (fun t a => win3_5.index t a * win3_5.size a) (fun t a => (idx3 t a).2.2.1) i
    refine ⟨t, flush3_5 t, ?_⟩
    show i ∈ ((View.whole main_v27).slice (win3_5.rect t)).set
    rw [View.set_slice_whole, Rect.mem_set_unit]
    exact ht

theorem idx6 : ∀ (t : Fin cfg6.N) (a : Fin 2),
    win6_0.index t a * win6_0.size a = ![5000 * t.val, 0] a ∧ win6_1.index t a * win6_1.size a = ![5000 * t.val, 0] a
    ∧ win6_5.index t a * win6_5.size a = ![5000 * t.val, 0] a ∧ win6_2.index t a * win6_2.size a = 0
    ∧ win6_3.index t a * win6_3.size a = 0 ∧ win6_4.index t a * win6_4.size a = 0 :=
  (by decide +kernel : ∀ t : Fin grid6.N, _)

theorem arr6 (V : (c : Dev nD) → (b : Ref sig .tc) → Buf (Elt Ideal) ((c : Thread nD τ).loc b)) (c : Dev nD) :
    (dat6 V c).arrAt 5 cfg6.N
      = (blk (V c main_v85) (V c main_v96) (V c main_v98) (V c main_v100) (V c main_v103) : S200000x128.Idx → EReal) := by
  refine (dat6 V c).arrAt_eq_of_cover 5 _ (fun t _ => ?_) fun i => ?_
  · show (cfg6.win 5).cut (grid6.coords t) ((dat6 V c).after 5 t) = _
    rw [after6_5]
    unfold out6_5
    rw [View.canon_unit_zero hz]
    simp only [View.ld_unit_zero (S := S5000x128) hz, View.ld_unit_zero (S := S128x128) hz,
      View.ld_unit_zero (S := S1x128) hz]
    exact funext (tile (V c main_v85) (V c main_v96) (V c main_v98) (V c main_v100) (V c main_v103) ![5000 * t.val, 0] rfl
      (fun y a => emb_at win6_0 t (idx6 t a).1 y) (fun y a => emb_at win6_1 t (idx6 t a).2.1 y)
      (fun y a => emb_at win6_5 t (idx6 t a).2.2.1 y) (fun y a => emb_at win6_2 t (idx6 t a).2.2.2.1 y)
      (fun y a => emb_at win6_3 t (idx6 t a).2.2.2.2.1 y) (fun y a => emb_at win6_4 t (idx6 t a).2.2.2.2.2 y))
  · obtain ⟨t, ht⟩ := rows_cover (N := cfg6.N) (by have h : cfg6.N = 40 := N_6; omega)
      (fun t a => win6_5.index t a * win6_5.size a) (fun t a => (idx6 t a).2.2.1) i
    refine ⟨t, flush6_5 t, ?_⟩
    show i ∈ ((View.whole main_v104).slice (win6_5.rect t)).set
    rw [View.set_slice_whole, Rect.mem_set_unit]
    exact ht

theorem idx9 : ∀ (t : Fin cfg9.N) (a : Fin 2),
    win9_0.index t a * win9_0.size a = ![5000 * t.val, 0] a ∧ win9_1.index t a * win9_1.size a = ![5000 * t.val, 0] a
    ∧ win9_5.index t a * win9_5.size a = ![5000 * t.val, 0] a ∧ win9_2.index t a * win9_2.size a = 0
    ∧ win9_3.index t a * win9_3.size a = 0 ∧ win9_4.index t a * win9_4.size a = 0 :=
  (by decide +kernel : ∀ t : Fin grid9.N, _)

theorem arr9 (V : (c : Dev nD) → (b : Ref sig .tc) → Buf (Elt Ideal) ((c : Thread nD τ).loc b)) (c : Dev nD) :
    (dat9 V c).arrAt 5 cfg9.N
      = (blk (V c main_v162) (V c main_v173) (V c main_v175) (V c main_v177) (V c main_v180) : S200000x128.Idx → EReal) := by
  refine (dat9 V c).arrAt_eq_of_cover 5 _ (fun t _ => ?_) fun i => ?_
  · show (cfg9.win 5).cut (grid9.coords t) ((dat9 V c).after 5 t) = _
    rw [after9_5]
    unfold out9_5
    rw [View.canon_unit_zero hz]
    simp only [View.ld_unit_zero (S := S5000x128) hz, View.ld_unit_zero (S := S128x128) hz,
      View.ld_unit_zero (S := S1x128) hz]
    exact funext (tile (V c main_v162) (V c main_v173) (V c main_v175) (V c main_v177) (V c main_v180) ![5000 * t.val, 0] rfl
      (fun y a => emb_at win9_0 t (idx9 t a).1 y) (fun y a => emb_at win9_1 t (idx9 t a).2.1 y)
      (fun y a => emb_at win9_5 t (idx9 t a).2.2.1 y) (fun y a => emb_at win9_2 t (idx9 t a).2.2.2.1 y)
      (fun y a => emb_at win9_3 t (idx9 t a).2.2.2.2.1 y) (fun y a => emb_at win9_4 t (idx9 t a).2.2.2.2.2 y))
  · obtain ⟨t, ht⟩ := rows_cover (N := cfg9.N) (by have h : cfg9.N = 40 := N_9; omega)
      (fun t a => win9_5.index t a * win9_5.size a) (fun t a => (idx9 t a).2.2.1) i
    refine ⟨t, flush9_5 t, ?_⟩
    show i ∈ ((View.whole main_v181).slice (win9_5.rect t)).set
    rw [View.set_slice_whole, Rect.mem_set_unit]
    exact ht

variable (m : (ℓ : Loc nD τ sig) → Buf (Elt Ideal) ℓ) (ρ : Dev nD → PrngReg) (c : Dev nD)

theorem a_3 : V9 (F := Ideal) m ρ c main_v8 = W7 (F := Ideal) m ρ c (Proc.devRef .tc main_v8) :=
  calc W9 (F := Ideal) m ρ c (Proc.devRef .tc main_v8)
    _ = W8 m ρ c (Proc.devRef .tc main_v8) := by after_results
    _ = W7 m ρ c (Proc.devRef .tc main_v8) :=
        (W8_arr m ρ c 0).trans (((dat2 (V7 m ρ) c).arrAt_in 0 rfl _).trans (A_eq2 (V7 m ρ) c 0))

theorem b_3 : V9 (F := Ideal) m ρ c main_v19 = W8 (F := Ideal) m ρ c (Proc.devRef .tc main_v19) := by
  show StableHlo.after hostOps3 _ _ = _
  after_results

theorem a_6 : V22 (F := Ideal) m ρ c main_v85 = W20 (F := Ideal) m ρ c (Proc.devRef .tc main_v85) :=
  calc W22 (F := Ideal) m ρ c (Proc.devRef .tc main_v85)
    _ = W21 m ρ c (Proc.devRef .tc main_v85) := by after_results
    _ = W20 m ρ c (Proc.devRef .tc main_v85) :=
        (W21_arr m ρ c 0).trans (((dat5 (V20 m ρ) c).arrAt_in 0 rfl _).trans (A_eq5 (V20 m ρ) c 0))

theorem b_6 : V22 (F := Ideal) m ρ c main_v96 = W21 (F := Ideal) m ρ c (Proc.devRef .tc main_v96) := by
  show StableHlo.after hostOps6 _ _ = _
  after_results

theorem a_9 : V35 (F := Ideal) m ρ c main_v162 = W33 (F := Ideal) m ρ c (Proc.devRef .tc main_v162) :=
  calc W35 (F := Ideal) m ρ c (Proc.devRef .tc main_v162)
    _ = W34 m ρ c (Proc.devRef .tc main_v162) := by after_results
    _ = W33 m ρ c (Proc.devRef .tc main_v162) :=
        (W34_arr m ρ c 0).trans (((dat8 (V33 m ρ) c).arrAt_in 0 rfl _).trans (A_eq8 (V33 m ρ) c 0))

theorem b_9 : V35 (F := Ideal) m ρ c main_v173 = W34 (F := Ideal) m ρ c (Proc.devRef .tc main_v173) := by
  show StableHlo.after hostOps9 _ _ = _
  after_results

end Cert.Bridge.KMsg

namespace Cert.Bridge
open Idealize.ShloMosaic Idealize.ShloMosaic.TcCoe Idealize.SL.Sem Idealize.ShloMosaic.StableHlo
open Cert.KernelIdeal Cert.KernelIdeal.Gen Cert.Bridge.Layer2

theorem k_m1 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W10 (F := Ideal) m ρ c (Proc.devRef .tc Cert.KernelIdeal.main_v27) : (⟨2, ![200000, 128]⟩ : Shape).Idx → EReal)
      = Cert.Spec.lin2E (Cert.KernelIdeal.Gen.W7 (F := Ideal) m ρ c (Proc.devRef .tc Cert.KernelIdeal.main_v8))
          (Cert.KernelIdeal.Gen.W8 (F := Ideal) m ρ c (Proc.devRef .tc Cert.KernelIdeal.main_v19))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) 0 := by
  rw [← Kept.at8 m ρ (b := main_arg9) (by decide) c, ← Kept.at8 m ρ (b := main_arg10) (by decide) c, ← KMsg.a_3 m ρ c, ← KMsg.b_3 m ρ c]
  refine (W10_arr m ρ c 5).trans ((KMsg.arr3 (V9 m ρ) c).trans ((congr (congr (congrArg (blk _ _) ?_) ?_) ?_).trans
    (slab _ _ _ _ 0 slices_S3x256x128_S1x128x128_0_0_0 slices_S3x256x128_S1x128x128_0_128_0 slices_S3x128_S1x128_0_0)))
  all_goals (show StableHlo.after hostOps3 (W8 m ρ c) _ = _; after_results; rfl)

theorem k_m2 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W23 (F := Ideal) m ρ c (Proc.devRef .tc Cert.KernelIdeal.main_v104) : (⟨2, ![200000, 128]⟩ : Shape).Idx → EReal)
      = Cert.Spec.lin2E (Cert.KernelIdeal.Gen.W20 (F := Ideal) m ρ c (Proc.devRef .tc Cert.KernelIdeal.main_v85))
          (Cert.KernelIdeal.Gen.W21 (F := Ideal) m ρ c (Proc.devRef .tc Cert.KernelIdeal.main_v96))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) 1 := by
  rw [← Kept.at21 m ρ (b := main_arg9) (by decide) c, ← Kept.at21 m ρ (b := main_arg10) (by decide) c, ← KMsg.a_6 m ρ c, ← KMsg.b_6 m ρ c]
  refine (W23_arr m ρ c 5).trans ((KMsg.arr6 (V22 m ρ) c).trans ((congr (congr (congrArg (blk _ _) ?_) ?_) ?_).trans
    (slab _ _ _ _ 1 slices_S3x256x128_S1x128x128_1_0_0 slices_S3x256x128_S1x128x128_1_128_0 slices_S3x128_S1x128_1_0)))
  all_goals (show StableHlo.after hostOps6 (W21 m ρ c) _ = _; after_results; rfl)

theorem k_m3 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W36 (F := Ideal) m ρ c (Proc.devRef .tc Cert.KernelIdeal.main_v181) : (⟨2, ![200000, 128]⟩ : Shape).Idx → EReal)
      = Cert.Spec.lin2E (Cert.KernelIdeal.Gen.W33 (F := Ideal) m ρ c (Proc.devRef .tc Cert.KernelIdeal.main_v162))
          (Cert.KernelIdeal.Gen.W34 (F := Ideal) m ρ c (Proc.devRef .tc Cert.KernelIdeal.main_v173))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) 2 := by
  rw [← Kept.at34 m ρ (b := main_arg9) (by decide) c, ← Kept.at34 m ρ (b := main_arg10) (by decide) c, ← KMsg.a_9 m ρ c, ← KMsg.b_9 m ρ c]
  refine (W36_arr m ρ c 5).trans ((KMsg.arr9 (V35 m ρ) c).trans ((congr (congr (congrArg (blk _ _) ?_) ?_) ?_).trans
    (slab _ _ _ _ 2 slices_S3x256x128_S1x128x128_2_0_0 slices_S3x256x128_S1x128x128_2_128_0 slices_S3x128_S1x128_2_0)))
  all_goals (show StableHlo.after hostOps9 (W34 m ρ c) _ = _; after_results; rfl)

end Cert.Bridge

end
-- ==== Proof.KNode.lean ====
import proofs.«412421_j54589034332476_1_alg».proof.Proof.Gen.KernelIdeal.Frame
import proofs.«412421_j54589034332476_1_alg».proof.Proof.Layer2
import proofs.«412421_j54589034332476_1_alg».proof.Proof.Kept

noncomputable section

namespace Cert.Bridge.KNode

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.Bridge.Layer2

section Regions

variable (V : (c : Dev nD) → (b : Ref sig .tc) → Buf (Elt Ideal) ((c : Thread nD τ).loc b)) (c : Dev nD)

theorem pay4 : (k4_pay1 (F := Ideal)) = k3_pay1 := rfl

theorem idx4 : ∀ (t : Fin cfg4.N) (a : Fin 2),
    win4_0.index t a * win4_0.size a = ![5000 * t.val, 0] a ∧ win4_1.index t a * win4_1.size a = ![5000 * t.val, 0] a
    ∧ win4_5.index t a * win4_5.size a = ![5000 * t.val, 0] a ∧ win4_2.index t a * win4_2.size a = 0
    ∧ win4_3.index t a * win4_3.size a = 0 ∧ win4_4.index t a * win4_4.size a = 0 :=
  (by decide +kernel : ∀ t : Fin grid4.N, _)

-- Each point writes back block t of the layer of the whole arrays, and the ten row blocks tile the output.
theorem final4 : (dat4 V c).arrAt 5 cfg4.N
    = (blk (V c main_v5) (V c main_v38) (V c main_v40) (V c main_v42) (V c main_v45) : S50000x128.Idx → EReal) := by
  refine (dat4 V c).arrAt_eq_of_cover 5 _ (fun t _ => ?_) fun i => ?_
  · show (cfg4.win 5).cut (grid4.coords t) ((dat4 V c).after 5 t) = _
    rw [after4_5]
    unfold out4_5
    rw [View.canon_unit_zero hz]
    simp only [View.ld_unit_zero (S := S5000x128) hz, View.ld_unit_zero (S := S128x128) hz, View.ld_unit_zero (S := S1x128) hz]
    rw [pay4]
    exact funext (tile (V c main_v5) (V c main_v38) (V c main_v40) (V c main_v42) (V c main_v45) ![5000 * t.val, 0] rfl
      (fun y a => emb_at win4_0 t (idx4 t a).1 y) (fun y a => emb_at win4_1 t (idx4 t a).2.1 y)
      (fun y a => emb_at win4_5 t (idx4 t a).2.2.1 y) (fun y a => emb_at win4_2 t (idx4 t a).2.2.2.1 y)
      (fun y a => emb_at win4_3 t (idx4 t a).2.2.2.2.1 y) (fun y a => emb_at win4_4 t (idx4 t a).2.2.2.2.2 y))
  · obtain ⟨t, ht⟩ := rows_cover (N := cfg4.N) (by have h : cfg4.N = 10 := N_4; omega)
      (fun t a => win4_5.index t a * win4_5.size a) (fun t a => (idx4 t a).2.2.1) i
    refine ⟨t, flush4_5 t, ?_⟩
    show i ∈ ((View.whole main_v46).slice (win4_5.rect t)).set
    rw [View.set_slice_whole, Rect.mem_set_unit]
    exact ht

theorem pay7 : (k7_pay1 (F := Ideal)) = k3_pay1 := rfl

theorem idx7 : ∀ (t : Fin cfg7.N) (a : Fin 2),
    win7_0.index t a * win7_0.size a = ![5000 * t.val, 0] a ∧ win7_1.index t a * win7_1.size a = ![5000 * t.val, 0] a
    ∧ win7_5.index t a * win7_5.size a = ![5000 * t.val, 0] a ∧ win7_2.index t a * win7_2.size a = 0
    ∧ win7_3.index t a * win7_3.size a = 0 ∧ win7_4.index t a * win7_4.size a = 0 :=
  (by decide +kernel : ∀ t : Fin grid7.N, _)

theorem final7 : (dat7 V c).arrAt 5 cfg7.N
    = (blk (V c main_v65) (V c main_v115) (V c main_v117) (V c main_v119) (V c main_v122) : S50000x128.Idx → EReal) := by
  refine (dat7 V c).arrAt_eq_of_cover 5 _ (fun t _ => ?_) fun i => ?_
  · show (cfg7.win 5).cut (grid7.coords t) ((dat7 V c).after 5 t) = _
    rw [after7_5]
    unfold out7_5
    rw [View.canon_unit_zero hz]
    simp only [View.ld_unit_zero (S := S5000x128) hz, View.ld_unit_zero (S := S128x128) hz, View.ld_unit_zero (S := S1x128) hz]
    rw [pay7]
    exact funext (tile (V c main_v65) (V c main_v115) (V c main_v117) (V c main_v119) (V c main_v122) ![5000 * t.val, 0] rfl
      (fun y a => emb_at win7_0 t (idx7 t a).1 y) (fun y a => emb_at win7_1 t (idx7 t a).2.1 y)
      (fun y a => emb_at win7_5 t (idx7 t a).2.2.1 y) (fun y a => emb_at win7_2 t (idx7 t a).2.2.2.1 y)
      (fun y a => emb_at win7_3 t (idx7 t a).2.2.2.2.1 y) (fun y a => emb_at win7_4 t (idx7 t a).2.2.2.2.2 y))
  · obtain ⟨t, ht⟩ := rows_cover (N := cfg7.N) (by have h : cfg7.N = 10 := N_7; omega)
      (fun t a => win7_5.index t a * win7_5.size a) (fun t a => (idx7 t a).2.2.1) i
    refine ⟨t, flush7_5 t, ?_⟩
    show i ∈ ((View.whole main_v123).slice (win7_5.rect t)).set
    rw [View.set_slice_whole, Rect.mem_set_unit]
    exact ht

theorem pay10 : (k10_pay1 (F := Ideal)) = k3_pay1 := rfl

theorem idx10 : ∀ (t : Fin cfg10.N) (a : Fin 2),
    win10_0.index t a * win10_0.size a = ![5000 * t.val, 0] a ∧ win10_1.index t a * win10_1.size a = ![5000 * t.val, 0] a
    ∧ win10_5.index t a * win10_5.size a = ![5000 * t.val, 0] a ∧ win10_2.index t a * win10_2.size a = 0
    ∧ win10_3.index t a * win10_3.size a = 0 ∧ win10_4.index t a * win10_4.size a = 0 :=
  (by decide +kernel : ∀ t : Fin grid10.N, _)

theorem final10 : (dat10 V c).arrAt 5 cfg10.N
    = (blk (V c main_v142) (V c main_v192) (V c main_v194) (V c main_v196) (V c main_v199) : S50000x128.Idx → EReal) := by
  refine (dat10 V c).arrAt_eq_of_cover 5 _ (fun t _ => ?_) fun i => ?_
  · show (cfg10.win 5).cut (grid10.coords t) ((dat10 V c).after 5 t) = _
    rw [after10_5]
    unfold out10_5
    rw [View.canon_unit_zero hz]
    simp only [View.ld_unit_zero (S := S5000x128) hz, View.ld_unit_zero (S := S128x128) hz, View.ld_unit_zero (S := S1x128) hz]
    rw [pay10]
    exact funext (tile (V c main_v142) (V c main_v192) (V c main_v194) (V c main_v196) (V c main_v199) ![5000 * t.val, 0] rfl
      (fun y a => emb_at win10_0 t (idx10 t a).1 y) (fun y a => emb_at win10_1 t (idx10 t a).2.1 y)
      (fun y a => emb_at win10_5 t (idx10 t a).2.2.1 y) (fun y a => emb_at win10_2 t (idx10 t a).2.2.2.1 y)
      (fun y a => emb_at win10_3 t (idx10 t a).2.2.2.2.1 y) (fun y a => emb_at win10_4 t (idx10 t a).2.2.2.2.2 y))
  · obtain ⟨t, ht⟩ := rows_cover (N := cfg10.N) (by have h : cfg10.N = 10 := N_10; omega)
      (fun t a => win10_5.index t a * win10_5.size a) (fun t a => (idx10 t a).2.2.1) i
    refine ⟨t, flush10_5 t, ?_⟩
    show i ∈ ((View.whole main_v200).slice (win10_5.rect t)).set
    rw [View.set_slice_whole, Rect.mem_set_unit]
    exact ht

end Regions

section Run

variable (m : (ℓ : Loc nD τ sig) → Buf (Elt Ideal) ℓ) (ρ : Dev nD → PrngReg) (c : Dev nD)

-- Between its writer and the region that reads it, no host operation and no region writes the row array.
theorem W11_v5 : W11 m ρ c (Proc.devRef .tc main_v5) = W2 m ρ c (Proc.devRef .tc main_v5) := by
  refine (kept _ ?_).trans <| (W10_of_ne m ρ c _ (by decide)).trans <| (kept _ ?_).trans <| (W8_of_ne m ρ c _ (by decide)).trans <|
    (kept _ ?_).trans <| (kept _ ?_).trans <| (kept _ ?_).trans <| (W4_of_ne m ρ c _ (by decide)).trans (kept _ ?_)
  all_goals (simp only [List.Forall]; (repeat' constructor) <;> exact not_wr (by decide))

theorem W24_v65 : W24 m ρ c (Proc.devRef .tc main_v65) = W20 m ρ c (Proc.devRef .tc main_v65) := by
  refine (kept _ ?_).trans <| (W23_of_ne m ρ c _ (by decide)).trans <| (kept _ ?_).trans (W21_of_ne m ρ c _ (by decide))
  all_goals (simp only [List.Forall]; (repeat' constructor) <;> exact not_wr (by decide))

theorem W37_v142 : W37 m ρ c (Proc.devRef .tc main_v142) = W33 m ρ c (Proc.devRef .tc main_v142) := by
  refine (kept _ ?_).trans <| (W36_of_ne m ρ c _ (by decide)).trans <| (kept _ ?_).trans (W34_of_ne m ρ c _ (by decide))
  all_goals (simp only [List.Forall]; (repeat' constructor) <;> exact not_wr (by decide))

end Run

end Cert.Bridge.KNode

namespace Cert.Bridge

open Idealize.ShloMosaic Idealize.ShloMosaic.TcCoe Idealize.SL.Sem Idealize.ShloMosaic.StableHlo
open Cert.KernelIdeal Cert.KernelIdeal.Gen Cert.Bridge.KNode Cert.Bridge.Layer2

theorem k_h1 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W12 (F := Ideal) m ρ c (Proc.devRef .tc Cert.KernelIdeal.main_v46)
      = Cert.Spec.lin2N (Cert.KernelIdeal.Gen.W2 (F := Ideal) m ρ c (Proc.devRef .tc Cert.KernelIdeal.main_v5))
          (Cert.KernelIdeal.Gen.W11 (F := Ideal) m ρ c (Proc.devRef .tc Cert.KernelIdeal.main_v38))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12)) 0 := by
  rw [← Kept.at10 m ρ (b := main_arg11) (by decide) c, ← Kept.at10 m ρ (b := main_arg12) (by decide) c, ← W11_v5 m ρ c]
  refine (W12_arr m ρ c 5).trans ((final4 (V11 m ρ) c).trans ((congr (congr (congrArg (blk _ _) ?_) ?_) ?_).trans
    (slab _ _ _ _ 0 slices_S3x256x128_S1x128x128_0_0_0 slices_S3x256x128_S1x128x128_0_128_0 slices_S3x128_S1x128_0_0)))
  all_goals (show StableHlo.after hostOps4 (W10 m ρ c) _ = _; after_results_simp; rfl)

theorem k_h2 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W25 (F := Ideal) m ρ c (Proc.devRef .tc Cert.KernelIdeal.main_v123)
      = Cert.Spec.lin2N (Cert.KernelIdeal.Gen.W20 (F := Ideal) m ρ c (Proc.devRef .tc Cert.KernelIdeal.main_v65))
          (Cert.KernelIdeal.Gen.W24 (F := Ideal) m ρ c (Proc.devRef .tc Cert.KernelIdeal.main_v115))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12)) 1 := by
  rw [← Kept.at23 m ρ (b := main_arg11) (by decide) c, ← Kept.at23 m ρ (b := main_arg12) (by decide) c, ← W24_v65 m ρ c]
  refine (W25_arr m ρ c 5).trans ((final7 (V24 m ρ) c).trans ((congr (congr (congrArg (blk _ _) ?_) ?_) ?_).trans
    (slab _ _ _ _ 1 slices_S3x256x128_S1x128x128_1_0_0 slices_S3x256x128_S1x128x128_1_128_0 slices_S3x128_S1x128_1_0)))
  all_goals (show StableHlo.after hostOps7 (W23 m ρ c) _ = _; after_results_simp; rfl)

theorem k_h3 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W38 (F := Ideal) m ρ c (Proc.devRef .tc Cert.KernelIdeal.main_v200)
      = Cert.Spec.lin2N (Cert.KernelIdeal.Gen.W33 (F := Ideal) m ρ c (Proc.devRef .tc Cert.KernelIdeal.main_v142))
          (Cert.KernelIdeal.Gen.W37 (F := Ideal) m ρ c (Proc.devRef .tc Cert.KernelIdeal.main_v192))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12)) 2 := by
  rw [← Kept.at36 m ρ (b := main_arg11) (by decide) c, ← Kept.at36 m ρ (b := main_arg12) (by decide) c, ← W37_v142 m ρ c]
  refine (W38_arr m ρ c 5).trans ((final10 (V37 m ρ) c).trans ((congr (congr (congrArg (blk _ _) ?_) ?_) ?_).trans
    (slab _ _ _ _ 2 slices_S3x256x128_S1x128x128_2_0_0 slices_S3x256x128_S1x128x128_2_128_0 slices_S3x128_S1x128_2_0)))
  all_goals (show StableHlo.after hostOps10 (W36 m ρ c) _ = _; after_results_simp; rfl)

end Cert.Bridge

end
-- ==== Proof.RMsg.lean ====
import proofs.«412421_j54589034332476_1_alg».proof.Proof.RLayer

noncomputable section

namespace Cert.Bridge

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Ops Cert.Bridge.RLayer

namespace RMsg

-- The product's sum over the 256 columns is the two operands' inner products against the two row blocks of the slab.
theorem lin2E_eq (o : Nat) (ho : o < 3) (hW hB) (a c : FVec Ideal S200000x128 .f32) (W : FVec Ideal S3x256x128 .f32)
    (B : FVec Ideal S3x128 .f32) :
    slabLayer o hW shapeCasts_S1x256x128_S256x128 hB bcast_S1x128_S200000x128_0_1 bcast_S_S200000x128
      (concatenate S200000x256 1 [⟨S200000x128, a⟩, ⟨S200000x128, c⟩] concatenates_S200000x128_S200000x128_S200000x256_d1) W B
      = Cert.Spec.lin2E a c W B ⟨o, ho⟩ := by
  refine ext2 fun p q => ?_
  rw [slab_apply o ho, sum_256]
  simp only [cat_at [⟨_, a⟩, ⟨_, c⟩] _ 0 a rfl 0 rfl, cat_at [⟨_, a⟩, ⟨_, c⟩] _ 1 c rfl 128 rfl]
  rfl

variable (X : Valuation τ sig (Elt Ideal))

theorem step0 {c W B} (hc : X (Proc.devRef .tc main_v37) = c) (hW : X (Proc.devRef .tc main_arg9) = W) (hB : X (Proc.devRef .tc main_arg10) = B) :
    after rops7 (after rops6 X) (Proc.devRef .tc main_v54) = Cert.Spec.lin2E (X (Proc.devRef .tc main_v44)) c W B 0 := by
  subst hc hW hB; after_results
  exact lin2E_eq 0 (by omega) slices_S3x256x128_S1x256x128_0_0_0 slices_S3x128_S1x128_0_0 ..

theorem step1 {c W B} (hc : X (Proc.devRef .tc main_v137) = c) (hW : X (Proc.devRef .tc main_arg9) = W) (hB : X (Proc.devRef .tc main_arg10) = B) :
    after rops16 X (Proc.devRef .tc main_v154) = Cert.Spec.lin2E (X (Proc.devRef .tc main_v144)) c W B 1 := by
  subst hc hW hB; after_results
  exact lin2E_eq 1 (by omega) slices_S3x256x128_S1x256x128_1_0_0 slices_S3x128_S1x128_1_0 ..

theorem step2 {c W B} (hc : X (Proc.devRef .tc main_v237) = c) (hW : X (Proc.devRef .tc main_arg9) = W) (hB : X (Proc.devRef .tc main_arg10) = B) :
    after rops26 X (Proc.devRef .tc main_v254) = Cert.Spec.lin2E (X (Proc.devRef .tc main_v244)) c W B 2 := by
  subst hc hW hB; after_results
  exact lin2E_eq 2 (by omega) slices_S3x256x128_S1x256x128_2_0_0 slices_S3x128_S1x128_2_0 ..

end RMsg

variable (m' : (ℓ : Loc Cert.ReferenceIdeal.nD Cert.ReferenceIdeal.τ Cert.ReferenceIdeal.sig) → Buf (Elt Ideal) ℓ)
  (c : Dev Cert.ReferenceIdeal.nD)

theorem r_m1 :
    RV7 (F := Ideal) (StableHlo.launchContents m' c) (Proc.devRef .tc main_v54)
      = Cert.Spec.lin2E (RV5 (F := Ideal) (StableHlo.launchContents m' c) (Proc.devRef .tc main_v44))
          (RV4 (F := Ideal) (StableHlo.launchContents m' c) (Proc.devRef .tc main_v37))
          (m' ((c.tc : Thread Cert.ReferenceIdeal.nD Cert.ReferenceIdeal.τ).loc main_arg9))
          (m' ((c.tc : Thread Cert.ReferenceIdeal.nD Cert.ReferenceIdeal.τ).loc main_arg10)) 0 :=
  RMsg.step0 _ (kept 5 1 main_v37 (by decide) _) (kept 0 6 main_arg9 (by decide) (launchContents m' c))
    (kept 0 6 main_arg10 (by decide) (launchContents m' c))

theorem r_m2 :
    RV16 (F := Ideal) (StableHlo.launchContents m' c) (Proc.devRef .tc main_v154)
      = Cert.Spec.lin2E (RV15 (F := Ideal) (StableHlo.launchContents m' c) (Proc.devRef .tc main_v144))
          (RV14 (F := Ideal) (StableHlo.launchContents m' c) (Proc.devRef .tc main_v137))
          (m' ((c.tc : Thread Cert.ReferenceIdeal.nD Cert.ReferenceIdeal.τ).loc main_arg9))
          (m' ((c.tc : Thread Cert.ReferenceIdeal.nD Cert.ReferenceIdeal.τ).loc main_arg10)) 1 :=
  RMsg.step1 _ (kept 15 1 main_v137 (by decide) _) (kept 0 16 main_arg9 (by decide) (launchContents m' c))
    (kept 0 16 main_arg10 (by decide) (launchContents m' c))

theorem r_m3 :
    RV26 (F := Ideal) (StableHlo.launchContents m' c) (Proc.devRef .tc main_v254)
      = Cert.Spec.lin2E (RV25 (F := Ideal) (StableHlo.launchContents m' c) (Proc.devRef .tc main_v244))
          (RV24 (F := Ideal) (StableHlo.launchContents m' c) (Proc.devRef .tc main_v237))
          (m' ((c.tc : Thread Cert.ReferenceIdeal.nD Cert.ReferenceIdeal.τ).loc main_arg9))
          (m' ((c.tc : Thread Cert.ReferenceIdeal.nD Cert.ReferenceIdeal.τ).loc main_arg10)) 2 :=
  RMsg.step2 _ (kept 25 1 main_v237 (by decide) _) (kept 0 26 main_arg9 (by decide) (launchContents m' c))
    (kept 0 26 main_arg10 (by decide) (launchContents m' c))

end Cert.Bridge

end
-- ==== Proof.RNode.lean ====
import proofs.«412421_j54589034332476_1_alg».proof.Proof.RLayer

noncomputable section

namespace Cert.Bridge

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Ops Cert.Bridge.RLayer

namespace RNode

-- The product's sum over the 256 columns is the two operands' inner products against the two row blocks of the slab.
theorem lin2N_eq (o : Nat) (ho : o < 3) (hW hB) (a c : FVec Ideal S50000x128 .f32) (W : FVec Ideal S3x256x128 .f32)
    (B : FVec Ideal S3x128 .f32) :
    slabLayer o hW shapeCasts_S1x256x128_S256x128 hB bcast_S1x128_S50000x128_0_1 bcast_S_S50000x128
      (concatenate S50000x256 1 [⟨S50000x128, a⟩, ⟨S50000x128, c⟩] concatenates_S50000x128_S50000x128_S50000x256_d1) W B
      = Cert.Spec.lin2N a c W B ⟨o, ho⟩ := by
  refine ext2 fun p q => ?_
  rw [slab_apply o ho, sum_256]
  simp only [cat_at [⟨_, a⟩, ⟨_, c⟩] _ 0 a rfl 0 rfl, cat_at [⟨_, a⟩, ⟨_, c⟩] _ 1 c rfl 128 rfl]
  rfl

variable (X : Valuation τ sig (Elt Ideal))

theorem step0 {a W B} (ha : X (Proc.devRef .tc main_v8) = a) (hW : X (Proc.devRef .tc main_arg11) = W) (hB : X (Proc.devRef .tc main_arg12) = B) :
    after rops9 X (Proc.devRef .tc main_v75) = Cert.Spec.lin2N a (X (Proc.devRef .tc main_v65)) W B 0 := by
  subst ha hW hB; after_results
  exact lin2N_eq 0 (by omega) slices_S3x256x128_S1x256x128_0_0_0 slices_S3x128_S1x128_0_0 ..

theorem step1 {a W B} (ha : X (Proc.devRef .tc main_v94) = a) (hW : X (Proc.devRef .tc main_arg11) = W) (hB : X (Proc.devRef .tc main_arg12) = B) :
    after rops19 X (Proc.devRef .tc main_v175) = Cert.Spec.lin2N a (X (Proc.devRef .tc main_v165)) W B 1 := by
  subst ha hW hB; after_results
  exact lin2N_eq 1 (by omega) slices_S3x256x128_S1x256x128_1_0_0 slices_S3x128_S1x128_1_0 ..

theorem step2 {a W B} (ha : X (Proc.devRef .tc main_v194) = a) (hW : X (Proc.devRef .tc main_arg11) = W) (hB : X (Proc.devRef .tc main_arg12) = B) :
    after rops29 X (Proc.devRef .tc main_v275) = Cert.Spec.lin2N a (X (Proc.devRef .tc main_v265)) W B 2 := by
  subst ha hW hB; after_results
  exact lin2N_eq 2 (by omega) slices_S3x256x128_S1x256x128_2_0_0 slices_S3x128_S1x128_2_0 ..

end RNode

variable (m' : (ℓ : Loc Cert.ReferenceIdeal.nD Cert.ReferenceIdeal.τ Cert.ReferenceIdeal.sig) → Buf (Elt Ideal) ℓ)
  (c : Dev Cert.ReferenceIdeal.nD)

theorem r_h1 :
    RV9 (F := Ideal) (StableHlo.launchContents m' c) (Proc.devRef .tc main_v75)
      = Cert.Spec.lin2N (RV1 (F := Ideal) (StableHlo.launchContents m' c) (Proc.devRef .tc main_v8))
          (RV8 (F := Ideal) (StableHlo.launchContents m' c) (Proc.devRef .tc main_v65))
          (m' ((c.tc : Thread Cert.ReferenceIdeal.nD Cert.ReferenceIdeal.τ).loc main_arg11))
          (m' ((c.tc : Thread Cert.ReferenceIdeal.nD Cert.ReferenceIdeal.τ).loc main_arg12)) 0 :=
  RNode.step0 _ (kept 2 7 main_v8 (by decide) _) (kept 0 9 main_arg11 (by decide) (launchContents m' c))
    (kept 0 9 main_arg12 (by decide) (launchContents m' c))

theorem r_h2 :
    RV19 (F := Ideal) (StableHlo.launchContents m' c) (Proc.devRef .tc main_v175)
      = Cert.Spec.lin2N (RV10 (F := Ideal) (StableHlo.launchContents m' c) (Proc.devRef .tc main_v94))
          (RV18 (F := Ideal) (StableHlo.launchContents m' c) (Proc.devRef .tc main_v165))
          (m' ((c.tc : Thread Cert.ReferenceIdeal.nD Cert.ReferenceIdeal.τ).loc main_arg11))
          (m' ((c.tc : Thread Cert.ReferenceIdeal.nD Cert.ReferenceIdeal.τ).loc main_arg12)) 1 :=
  RNode.step1 _ (kept 11 8 main_v94 (by decide) _) (kept 0 19 main_arg11 (by decide) (launchContents m' c))
    (kept 0 19 main_arg12 (by decide) (launchContents m' c))

theorem r_h3 :
    RV29 (F := Ideal) (StableHlo.launchContents m' c) (Proc.devRef .tc main_v275)
      = Cert.Spec.lin2N (RV20 (F := Ideal) (StableHlo.launchContents m' c) (Proc.devRef .tc main_v194))
          (RV28 (F := Ideal) (StableHlo.launchContents m' c) (Proc.devRef .tc main_v265))
          (m' ((c.tc : Thread Cert.ReferenceIdeal.nD Cert.ReferenceIdeal.τ).loc main_arg11))
          (m' ((c.tc : Thread Cert.ReferenceIdeal.nD Cert.ReferenceIdeal.τ).loc main_arg12)) 2 :=
  RNode.step2 _ (kept 21 8 main_v194 (by decide) _) (kept 0 29 main_arg11 (by decide) (launchContents m' c))
    (kept 0 29 main_arg12 (by decide) (launchContents m' c))

end Cert.Bridge

end
-- ==== Proof.EdgeIdx.lean ====
import proofs.«412421_j54589034332476_1_alg».proof.Proof.Gen.KernelIdeal.Frame
import proofs.«412421_j54589034332476_1_alg».proof.Proof.RefRun
import Idealize.ShloMosaic.PureOps.Ideal.Laws
import Idealize.ShloMosaic.Lib.StableHlo.Run
noncomputable section
namespace Cert.Bridge.EdgeIdx
open Idealize.ShloMosaic Idealize.ShloMosaic.TcCoe Idealize.SL.Sem Idealize.ShloMosaic.StableHlo

section Kernel
open Cert.KernelIdeal Cert.KernelIdeal.Gen
variable (m : (ℓ : Loc nD τ sig) → Buf (Elt Ideal) ℓ) (ρ : Dev nD → PrngReg) (c : Dev nD)
  {b : Ref sig .tc} (hb : b = main_v1 ∨ b = main_v3)
include hb

-- Nothing after the first stretch writes either of the two rows cut out of the edge list.
theorem k4 : W4 m ρ c (Proc.devRef .tc b) = W1 m ρ c (Proc.devRef .tc b) := by
  rw [← W2_of_ne m ρ c b (by rcases hb with rfl | rfl <;> decide)]
  rcases hb with rfl | rfl <;> (rw [W4_of_ne]; rotate_left; decide; after_results_simp)

theorem k10 : W10 m ρ c (Proc.devRef .tc b) = W1 m ρ c (Proc.devRef .tc b) := by
  rw [← k4 m ρ c hb]
  rcases hb with rfl | rfl <;>
    (rw [W10_of_ne]; rotate_left; decide; after_results_simp; rw [W8_of_ne]; rotate_left; decide; after_results_simp)

theorem k17 : W17 m ρ c (Proc.devRef .tc b) = W1 m ρ c (Proc.devRef .tc b) := by
  rw [← k10 m ρ c hb]
  rcases hb with rfl | rfl <;> (after_results_simp; rw [W12_of_ne]; rotate_left; decide; after_results_simp)

theorem k20 : W20 m ρ c (Proc.devRef .tc b) = W1 m ρ c (Proc.devRef .tc b) := by
  rw [← k17 m ρ c hb]; unfold W20 W19 W18; generalize W17 m ρ c = X; rcases hb with rfl | rfl <;> after_results_simp

theorem k23 : W23 m ρ c (Proc.devRef .tc b) = W1 m ρ c (Proc.devRef .tc b) := by
  rw [← k20 m ρ c hb, ← W21_of_ne m ρ c b (by rcases hb with rfl | rfl <;> decide)]
  rcases hb with rfl | rfl <;> (rw [W23_of_ne]; rotate_left; decide; after_results_simp)

theorem k30 : W30 m ρ c (Proc.devRef .tc b) = W1 m ρ c (Proc.devRef .tc b) := by
  rw [← k23 m ρ c hb]
  rcases hb with rfl | rfl <;> (after_results_simp; rw [W25_of_ne]; rotate_left; decide; after_results_simp)

theorem k33 : W33 m ρ c (Proc.devRef .tc b) = W1 m ρ c (Proc.devRef .tc b) := by
  rw [← k30 m ρ c hb]; unfold W33 W32 W31; generalize W30 m ρ c = X; rcases hb with rfl | rfl <;> after_results_simp

theorem k36 : W36 m ρ c (Proc.devRef .tc b) = W1 m ρ c (Proc.devRef .tc b) := by
  rw [← k33 m ρ c hb, ← W34_of_ne m ρ c b (by rcases hb with rfl | rfl <;> decide)]
  rcases hb with rfl | rfl <;> (rw [W36_of_ne]; rotate_left; decide; after_results_simp)

end Kernel

section Reference
open Cert.ReferenceIdeal Cert.ReferenceIdeal.Gen Cert.ReferenceIdeal.Ops
variable (V : Valuation τ sig (Elt Ideal)) {b : Ref sig .tc} (hb : b = main_v1 ∨ b = main_v3)
include hb

theorem r1 : RV1 V (Proc.devRef .tc b) = RV0 V (Proc.devRef .tc b) := by
  unfold RV1; generalize RV0 V = X; rcases hb with rfl | rfl <;> after_results_simp

theorem r7 : RV7 V (Proc.devRef .tc b) = RV0 V (Proc.devRef .tc b) := by
  rw [← r1 V hb]; unfold RV7 RV6 RV5 RV4 RV3 RV2; generalize RV1 V = X; rcases hb with rfl | rfl <;> after_results_simp

theorem r10 : RV10 V (Proc.devRef .tc b) = RV0 V (Proc.devRef .tc b) := by
  rw [← r7 V hb]; unfold RV10 RV9 RV8; generalize RV7 V = X; rcases hb with rfl | rfl <;> after_results_simp

theorem r16 : RV16 V (Proc.devRef .tc b) = RV0 V (Proc.devRef .tc b) := by
  rw [← r10 V hb]; unfold RV16 RV15 RV14 RV13 RV12 RV11; generalize RV10 V = X; rcases hb with rfl | rfl <;> after_results_simp

theorem r20 : RV20 V (Proc.devRef .tc b) = RV0 V (Proc.devRef .tc b) := by
  rw [← r16 V hb]; unfold RV20 RV19 RV18 RV17; generalize RV16 V = X; rcases hb with rfl | rfl <;> after_results_simp

theorem r26 : RV26 V (Proc.devRef .tc b) = RV0 V (Proc.devRef .tc b) := by
  rw [← r20 V hb]; unfold RV26 RV25 RV24 RV23 RV22 RV21; generalize RV20 V = X; rcases hb with rfl | rfl <;> after_results_simp

end Reference

end Cert.Bridge.EdgeIdx
end
-- ==== Proof.Take.lean ====
import proofs.«412421_j54589034332476_1_alg».proof.Proof.EdgeIdx
import proofs.«412421_j54589034332476_1_alg».proof.Proof.Gen.Pre_finite_inputs
import proofs.«412421_j54589034332476_1_alg».proof.Defs
import Idealize.ShloMosaic.Lib.ValueIdx
import Idealize.ShloMosaic.Lib.ReduceAll
noncomputable section
namespace Cert.Bridge
open Idealize.ShloMosaic Idealize.ShloMosaic.TcCoe Idealize.SL.Sem Idealize.ShloMosaic.StableHlo
open Idealize.ShloMosaic.ValueIdx

namespace Take

theorem foldl_andi_ones {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_ones f l _ (IntOp.andi_eq_one.2 ⟨h, hl a List.mem_cons_self⟩)
      (fun n hn => hl n (List.mem_cons_of_mem _ hn))

theorem select_bcast_ones {α : Type} {s t : Shape} (dims : Fin s.rank → Fin t.rank) (hb : s.BroadcastsInDim t dims)
    (mask : IVec s 1) (hm : ∀ j, mask j = 1#1) (a b : t.Idx → α) :
    select (broadcastInDim t dims hb mask) a b = a := by
  funext i
  rw [select_apply]
  have e : broadcastInDim t dims hb mask i = 1#1 := by unfold broadcastInDim; exact hm _
  rw [e, select_one]

theorem wrap_eq_self {s : Shape} (idx Z A : IVec s 32) (hZ : ∀ i, Z i = 0#32) (h0 : ∀ i, 0 ≤ (idx i).toInt) :
    select (cmpi .slt idx Z) A idx = idx := by
  funext i
  rw [select_apply]
  have e : cmpi .slt idx Z i = 0#1 := by
    apply eq_zero_of_ne_one
    show ¬ IntOp.cmpi .slt (idx i) (Z i) = 1#1
    rw [IntOp.cmpi_slt, hZ]
    have h := h0 i
    have z : (0#32 : BitVec 32).toInt = 0 := by decide
    omega
  rw [e, select_zero]

theorem range_mask_ones {s t u : Shape} {axes : List (Fin s.rank)} (v Z K : IVec s 32) (init : u.Idx → BitVec 1)
    (h : s.ReducesTo axes t) (hu : 0 < u.numel) (hi : BitVec 32)
    (hZ : ∀ j, Z j = 0#32) (hK : ∀ j, K j = hi) (hinit : ∀ k, init k = 1#1)
    (hv : ∀ j, 0 ≤ (v j).toInt ∧ (v j).toInt ≤ hi.toInt) (j : t.Idx) :
    Host.reduce IntOp.andi (andi (cmpi .sge v Z) (cmpi .sle v K)) init h hu j = 1#1 := by
  rw [Host.reduce_eq_foldl]
  refine foldl_andi_ones (andi (cmpi .sge v Z) (cmpi .sle v K)) _ _ (hinit _) (fun i _ => ?_)
  show IntOp.andi (IntOp.cmpi .sge (v i) (Z i)) (IntOp.cmpi .sle (v i) (K i)) = 1#1
  rw [IntOp.andi_eq_one, IntOp.cmpi_sge, IntOp.cmpi_sle, hZ, hK]
  have z : (0#32 : BitVec 32).toInt = 0 := by decide
  have := hv i
  omega

theorem ofBuf_toBuf {sig : RefSig} {T : BufTy} {Val : EltTy → Type} (x : StableHlo.TRef sig T) (v : T.Contents Val) :
    x.ofBuf (x.toBuf v) = v := by
  obtain ⟨r, rfl, _, _⟩ := x; rfl

open Cert.Pre_finite_inputs Cert.Pre_finite_inputs.Gen in
theorem part5_range {F : FTy → Type} [FloatOps F] (A : IVec S2x200000 32) (v83 : IVec S_ 1) (v84 : FVec F S1 .f32)
    (cst : FVec F S_ .f32) (h : fn_part5 (F := F) A v83 v84 cst ValueIdx.ix0 = 1#1) (i : S2x200000.Idx) :
    0 ≤ (A i).toInt ∧ (A i).toInt < 50000 := by
  haveI : Subsingleton S_.Idx := ⟨fun a b => funext fun d => d.elim0⟩
  unfold fn_part5 at h
  dsimp only at h
  obtain ⟨h12, h3⟩ := IntOp.andi_eq_one.1 (show IntOp.andi _ _ = 1#1 from h)
  obtain ⟨_, h2⟩ := IntOp.andi_eq_one.1 (show IntOp.andi _ _ = 1#1 from h12)
  have g2 := Host.reduce_andi_all _ _ _ _ _ h2 i
  have g3 := Host.reduce_andi_all _ _ _ _ _ h3 i
  have e2 := IntOp.cmpi_sge.1 (show IntOp.cmpi .sge (A i) (0#32) = 1#1 from g2)
  have e3 := IntOp.cmpi_slt.1 (show IntOp.cmpi .slt (A i) (50000#32) = 1#1 from g3)
  have z0 : (0#32 : BitVec 32).toInt = 0 := by decide
  have z1 : (50000#32 : BitVec 32).toInt = 50000 := by decide
  omega

def InRange {s : Shape} (I : IVec s 32) : Prop := ∀ i, 0 ≤ (I i).toInt ∧ (I i).toInt < 50000

section K
open Cert.KernelIdeal Cert.KernelIdeal.Gen
variable (m : (ℓ : Loc nD τ sig) → Buf (Elt Ideal) ℓ) (ρ : Dev nD → PrngReg) (c : Dev nD)

theorem edge_range (hpre : Cert.Pre_KernelIdeal m) :
    InRange (m ((c.tc : Thread nD τ).loc main_arg1) : IVec S2x200000 32) := fun k => by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  exact part5_range _ _ _ _ h k

-- Both index vectors are rows of the edge list, so the precondition bounds their entries.
theorem range (hpre : Cert.Pre_KernelIdeal m) :
    InRange (W1 m ρ c (Proc.devRef .tc main_v1) : IVec S200000 32) ∧ InRange (W1 m ρ c (Proc.devRef .tc main_v3) : IVec S200000 32) := by
  constructor <;> (after_results_simp; unfold shapeCast extractStridedSlice; exact fun _ => edge_range m c hpre _)

def wrapK (I : IVec S200000 32) : IVec S200000 32 :=
  select (cmpi .slt I (broadcastInDim S200000 ![] bcast_S_S200000 (constantI S_ 32 0#32)))
    (addi I (broadcastInDim S200000 ![] bcast_S_S200000 (constantI S_ 32 50000#32))) I

def colK (I : IVec S200000 32) : IVec S200000x1 32 :=
  broadcastInDim S200000x1 ![0] bcast_S200000_S200000x1_0 (wrapK I)

def rowsK (T : FVec Ideal S50000x128 .f32) (I : IVec S200000 32) : FVec Ideal S200000x128 .f32 :=
  Host.gather gather_S50000x128_S200000x1_S200000x128_1_0_n_n_0_1_1128 T (colK I)

def maskK (I : IVec S200000 32) : IVec S200000 1 :=
  Host.reduce IntOp.andi
    (andi (cmpi .sge (colK I) (broadcastInDim S200000x1 ![] bcast_S_S200000x1 (constantI S_ 32 0#32)))
      (cmpi .sle (colK I) (broadcastInDim S200000x1 ![0, 1] bcast_S1x1_S200000x1_0_1
        (broadcastInDim S1x1 ![1] bcast_S1_S1x1_1 (constantI S1 32 49999#32)))))
    (constantI S_ 1 1#1) reducesTo_S200000x1_S200000_d1 h_S_

def takeK (T : FVec Ideal S50000x128 .f32) (I : IVec S200000 32) : FVec Ideal S200000x128 .f32 :=
  select (broadcastInDim S200000x128 ![0] bcast_S200000_S200000x128_0 (maskK I)) (rowsK T I)
    (broadcastInDim S200000x128 ![] bcast_S_S200000x128 (constant (F := Ideal) S_ .f32 0x7FC00000#32))

theorem maskK_ones (I : IVec S200000 32) (hI : InRange I) (j : S200000.Idx) : maskK I j = 1#1 := by
  unfold maskK
  refine range_mask_ones _ _ _ _ _ _ (49999#32) (fun _ => rfl) (fun _ => rfl) (fun _ => rfl) (fun j' => ?_) j
  unfold colK
  rw [show wrapK I = I from wrap_eq_self I _ _ (fun _ => rfl) (fun i => (hI i).1)]
  unfold broadcastInDim
  have h := hI (fun a => if h1 : S200000.size a = 1 then ⟨0, by omega⟩ else ⟨(j' ((![0] : Fin 1 → Fin S200000x1.rank) a)).val, by
      rcases bcast_S200000_S200000x1_0.2 a with h2 | h2
      · exact absurd h2 h1
      · rw [h2]; exact (j' _).isLt⟩)
  have e : (49999#32 : BitVec 32).toInt = 49999 := by decide
  omega

-- With every index in range the mask is all ones, so the take is the plain gather of the rows.
theorem takeK_eq (T : FVec Ideal S50000x128 .f32) (I : IVec S200000 32) (hI : InRange I) : takeK T I = rowsK T I := by
  unfold takeK
  exact select_bcast_ones _ _ _ (maskK_ones I hI) _ _

theorem take0 (V V' : Valuation τ sig (Elt Ideal)) (e : V' = after hostOps2_2 (after hostOps2_1 (after hostOps2 V))) :
    V' (Proc.devRef .tc main_v8) = takeK (V (Proc.devRef .tc main_v5)) (V (Proc.devRef .tc main_v1))
    ∧ V' (Proc.devRef .tc main_v9) = takeK (V (Proc.devRef .tc main_v5)) (V (Proc.devRef .tc main_v3)) := by
  subst e
  constructor <;> (after_results_simp; simp only [ofBuf_toBuf]; exact eq_of_heq (cast_heq _ _))

theorem take1 (V V' : Valuation τ sig (Elt Ideal)) (e : V' = after hostOps5_7 (after hostOps5_6 (after hostOps5_5 V))) :
    V' (Proc.devRef .tc main_v85) = takeK (V (Proc.devRef .tc main_v65)) (V (Proc.devRef .tc main_v1))
    ∧ V' (Proc.devRef .tc main_v86) = takeK (V (Proc.devRef .tc main_v65)) (V (Proc.devRef .tc main_v3))
    ∧ V' (Proc.devRef .tc main_v65) = V (Proc.devRef .tc main_v65) := by
  subst e
  refine ⟨?_, ?_, by after_results_simp⟩ <;> (after_results_simp; simp only [ofBuf_toBuf]; exact eq_of_heq (cast_heq _ _))

theorem take2 (V V' : Valuation τ sig (Elt Ideal)) (e : V' = after hostOps8_7 (after hostOps8_6 (after hostOps8_5 V))) :
    V' (Proc.devRef .tc main_v162) = takeK (V (Proc.devRef .tc main_v142)) (V (Proc.devRef .tc main_v1))
    ∧ V' (Proc.devRef .tc main_v163) = takeK (V (Proc.devRef .tc main_v142)) (V (Proc.devRef .tc main_v3))
    ∧ V' (Proc.devRef .tc main_v142) = V (Proc.devRef .tc main_v142) := by
  subst e
  refine ⟨?_, ?_, by after_results_simp⟩ <;> (after_results_simp; simp only [ofBuf_toBuf]; exact eq_of_heq (cast_heq _ _))

theorem W4_v5 : W4 m ρ c (Proc.devRef .tc main_v5) = W2 m ρ c (Proc.devRef .tc main_v5) :=
  (W4_of_ne m ρ c main_v5 (by decide)).trans (by after_results_simp)

end K

section R
open Cert.ReferenceIdeal Cert.ReferenceIdeal.Gen Cert.ReferenceIdeal.Ops
variable (V : Valuation τ sig (Elt Ideal))

def rowsR (T : FVec Ideal S50000x128 .f32) (I : IVec S200000 32) : FVec Ideal S200000x128 .f32 :=
  Host.gather gather_S50000x128_S200000x1_S200000x128_1_0_n_n_0_1_1128 T (broadcastInDim S200000x1 ![0] bcast_S200000_S200000x1_0
    (select (cmpi .slt I (broadcastInDim S200000 ![] bcast_S_S200000 (constantI S_ 32 0#32)))
      (addi I (broadcastInDim S200000 ![] bcast_S_S200000 (constantI S_ 32 50000#32))) I))

theorem gath0 : RV3 V (Proc.devRef .tc main_v20) = rowsR (RV1 V (Proc.devRef .tc main_v8)) (RV0 V (Proc.devRef .tc main_v1))
    ∧ RV3 V (Proc.devRef .tc main_v27) = rowsR (RV1 V (Proc.devRef .tc main_v8)) (RV0 V (Proc.devRef .tc main_v3)) := by
  rw [← EdgeIdx.r1 V (.inl rfl), ← EdgeIdx.r1 V (.inr rfl)]; unfold RV3 RV2; generalize RV1 V = X
  constructor <;> (after_results_simp; rfl)

theorem gath1 : RV13 V (Proc.devRef .tc main_v120) = rowsR (RV10 V (Proc.devRef .tc main_v94)) (RV0 V (Proc.devRef .tc main_v1))
    ∧ RV13 V (Proc.devRef .tc main_v127) = rowsR (RV10 V (Proc.devRef .tc main_v94)) (RV0 V (Proc.devRef .tc main_v3)) := by
  rw [← EdgeIdx.r10 V (.inl rfl), ← EdgeIdx.r10 V (.inr rfl)]; unfold RV13 RV12 RV11; generalize RV10 V = X
  constructor <;> (after_results_simp; rfl)

theorem gath2 : RV23 V (Proc.devRef .tc main_v220) = rowsR (RV20 V (Proc.devRef .tc main_v194)) (RV0 V (Proc.devRef .tc main_v1))
    ∧ RV23 V (Proc.devRef .tc main_v227) = rowsR (RV20 V (Proc.devRef .tc main_v194)) (RV0 V (Proc.devRef .tc main_v3)) := by
  rw [← EdgeIdx.r20 V (.inl rfl), ← EdgeIdx.r20 V (.inr rfl)]; unfold RV23 RV22 RV21; generalize RV20 V = X
  constructor <;> (after_results_simp; rfl)

end R

end Take

variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (c : Dev Cert.KernelIdeal.nD)

theorem take_hr0 (hpre : Cert.Pre_KernelIdeal m)
    (hh : Cert.KernelIdeal.Gen.W2 (F := Ideal) m ρ c (Proc.devRef .tc Cert.KernelIdeal.main_v5)
      = Cert.ReferenceIdeal.Ops.RV1 (F := Ideal) (StableHlo.launchContents m' c) (Proc.devRef .tc Cert.ReferenceIdeal.main_v8))
    (hrow : Cert.KernelIdeal.Gen.W1 (F := Ideal) m ρ c (Proc.devRef .tc Cert.KernelIdeal.main_v1)
      = Cert.ReferenceIdeal.Ops.RV0 (F := Ideal) (StableHlo.launchContents m' c) (Proc.devRef .tc Cert.ReferenceIdeal.main_v1)) :
    Cert.KernelIdeal.Gen.W7 (F := Ideal) m ρ c (Proc.devRef .tc Cert.KernelIdeal.main_v8)
      = Cert.ReferenceIdeal.Ops.RV3 (F := Ideal) (StableHlo.launchContents m' c) (Proc.devRef .tc Cert.ReferenceIdeal.main_v20) := by
  rw [(Take.take0 _ (Cert.KernelIdeal.Gen.W7 m ρ c) rfl).1, Take.W4_v5, hh, EdgeIdx.k4 m ρ c (.inl rfl),
    Take.takeK_eq _ _ (Take.range m ρ c hpre).1, hrow, (Take.gath0 _).1]
  rfl

theorem take_hc0 (hpre : Cert.Pre_KernelIdeal m)
    (hh : Cert.KernelIdeal.Gen.W2 (F := Ideal) m ρ c (Proc.devRef .tc Cert.KernelIdeal.main_v5)
      = Cert.ReferenceIdeal.Ops.RV1 (F := Ideal) (StableHlo.launchContents m' c) (Proc.devRef .tc Cert.ReferenceIdeal.main_v8))
    (hcol : Cert.KernelIdeal.Gen.W1 (F := Ideal) m ρ c (Proc.devRef .tc Cert.KernelIdeal.main_v3)
      = Cert.ReferenceIdeal.Ops.RV0 (F := Ideal) (StableHlo.launchContents m' c) (Proc.devRef .tc Cert.ReferenceIdeal.main_v3)) :
    Cert.KernelIdeal.Gen.W7 (F := Ideal) m ρ c (Proc.devRef .tc Cert.KernelIdeal.main_v9)
      = Cert.ReferenceIdeal.Ops.RV3 (F := Ideal) (StableHlo.launchContents m' c) (Proc.devRef .tc Cert.ReferenceIdeal.main_v27) := by
  rw [(Take.take0 _ (Cert.KernelIdeal.Gen.W7 m ρ c) rfl).2, Take.W4_v5, hh, EdgeIdx.k4 m ρ c (.inr rfl),
    Take.takeK_eq _ _ (Take.range m ρ c hpre).2, hcol, (Take.gath0 _).2]
  rfl

theorem take_hr1 (hpre : Cert.Pre_KernelIdeal m)
    (hh : Cert.KernelIdeal.Gen.W20 (F := Ideal) m ρ c (Proc.devRef .tc Cert.KernelIdeal.main_v65)
      = Cert.ReferenceIdeal.Ops.RV10 (F := Ideal) (StableHlo.launchContents m' c) (Proc.devRef .tc Cert.ReferenceIdeal.main_v94))
    (hrow : Cert.KernelIdeal.Gen.W1 (F := Ideal) m ρ c (Proc.devRef .tc Cert.KernelIdeal.main_v1)
      = Cert.ReferenceIdeal.Ops.RV0 (F := Ideal) (StableHlo.launchContents m' c) (Proc.devRef .tc Cert.ReferenceIdeal.main_v1)) :
    Cert.KernelIdeal.Gen.W20 (F := Ideal) m ρ c (Proc.devRef .tc Cert.KernelIdeal.main_v85)
      = Cert.ReferenceIdeal.Ops.RV13 (F := Ideal) (StableHlo.launchContents m' c) (Proc.devRef .tc Cert.ReferenceIdeal.main_v120) := by
  obtain ⟨h, -, e⟩ := Take.take1 _ (Cert.KernelIdeal.Gen.W20 m ρ c) rfl
  rw [h, ← e, hh, EdgeIdx.k17 m ρ c (.inl rfl), Take.takeK_eq _ _ (Take.range m ρ c hpre).1, hrow, (Take.gath1 _).1]
  rfl

theorem take_hc1 (hpre : Cert.Pre_KernelIdeal m)
    (hh : Cert.KernelIdeal.Gen.W20 (F := Ideal) m ρ c (Proc.devRef .tc Cert.KernelIdeal.main_v65)
      = Cert.ReferenceIdeal.Ops.RV10 (F := Ideal) (StableHlo.launchContents m' c) (Proc.devRef .tc Cert.ReferenceIdeal.main_v94))
    (hcol : Cert.KernelIdeal.Gen.W1 (F := Ideal) m ρ c (Proc.devRef .tc Cert.KernelIdeal.main_v3)
      = Cert.ReferenceIdeal.Ops.RV0 (F := Ideal) (StableHlo.launchContents m' c) (Proc.devRef .tc Cert.ReferenceIdeal.main_v3)) :
    Cert.KernelIdeal.Gen.W20 (F := Ideal) m ρ c (Proc.devRef .tc Cert.KernelIdeal.main_v86)
      = Cert.ReferenceIdeal.Ops.RV13 (F := Ideal) (StableHlo.launchContents m' c) (Proc.devRef .tc Cert.ReferenceIdeal.main_v127) := by
  obtain ⟨-, h, e⟩ := Take.take1 _ (Cert.KernelIdeal.Gen.W20 m ρ c) rfl
  rw [h, ← e, hh, EdgeIdx.k17 m ρ c (.inr rfl), Take.takeK_eq _ _ (Take.range m ρ c hpre).2, hcol, (Take.gath1 _).2]
  rfl

theorem take_hr2 (hpre : Cert.Pre_KernelIdeal m)
    (hh : Cert.KernelIdeal.Gen.W33 (F := Ideal) m ρ c (Proc.devRef .tc Cert.KernelIdeal.main_v142)
      = Cert.ReferenceIdeal.Ops.RV20 (F := Ideal) (StableHlo.launchContents m' c) (Proc.devRef .tc Cert.ReferenceIdeal.main_v194))
    (hrow : Cert.KernelIdeal.Gen.W1 (F := Ideal) m ρ c (Proc.devRef .tc Cert.KernelIdeal.main_v1)
      = Cert.ReferenceIdeal.Ops.RV0 (F := Ideal) (StableHlo.launchContents m' c) (Proc.devRef .tc Cert.ReferenceIdeal.main_v1)) :
    Cert.KernelIdeal.Gen.W33 (F := Ideal) m ρ c (Proc.devRef .tc Cert.KernelIdeal.main_v162)
      = Cert.ReferenceIdeal.Ops.RV23 (F := Ideal) (StableHlo.launchContents m' c) (Proc.devRef .tc Cert.ReferenceIdeal.main_v220) := by
  obtain ⟨h, -, e⟩ := Take.take2 _ (Cert.KernelIdeal.Gen.W33 m ρ c) rfl
  rw [h, ← e, hh, EdgeIdx.k30 m ρ c (.inl rfl), Take.takeK_eq _ _ (Take.range m ρ c hpre).1, hrow, (Take.gath2 _).1]
  rfl

theorem take_hc2 (hpre : Cert.Pre_KernelIdeal m)
    (hh : Cert.KernelIdeal.Gen.W33 (F := Ideal) m ρ c (Proc.devRef .tc Cert.KernelIdeal.main_v142)
      = Cert.ReferenceIdeal.Ops.RV20 (F := Ideal) (StableHlo.launchContents m' c) (Proc.devRef .tc Cert.ReferenceIdeal.main_v194))
    (hcol : Cert.KernelIdeal.Gen.W1 (F := Ideal) m ρ c (Proc.devRef .tc Cert.KernelIdeal.main_v3)
      = Cert.ReferenceIdeal.Ops.RV0 (F := Ideal) (StableHlo.launchContents m' c) (Proc.devRef .tc Cert.ReferenceIdeal.main_v3)) :
    Cert.KernelIdeal.Gen.W33 (F := Ideal) m ρ c (Proc.devRef .tc Cert.KernelIdeal.main_v163)
      = Cert.ReferenceIdeal.Ops.RV23 (F := Ideal) (StableHlo.launchContents m' c) (Proc.devRef .tc Cert.ReferenceIdeal.main_v227) := by
  obtain ⟨-, h, e⟩ := Take.take2 _ (Cert.KernelIdeal.Gen.W33 m ρ c) rfl
  rw [h, ← e, hh, EdgeIdx.k30 m ρ c (.inr rfl), Take.takeK_eq _ _ (Take.range m ρ c hpre).2, hcol, (Take.gath2 _).2]
  rfl

end Cert.Bridge
end
-- ==== Proof.Agg.lean ====
import proofs.«412421_j54589034332476_1_alg».proof.Proof.EdgeIdx
noncomputable section
namespace Cert.Bridge
open Idealize.ShloMosaic Idealize.ShloMosaic.TcCoe Idealize.SL.Sem Idealize.ShloMosaic.StableHlo
open Cert.KernelIdeal.Gen Cert.ReferenceIdeal.Ops

variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (c : Dev Cert.KernelIdeal.nD)

local notation "kcol" => (Proc.devRef Proc.tc Cert.KernelIdeal.main_v3 : DevRef Cert.KernelIdeal.τ Cert.KernelIdeal.sig)
local notation "rcol" => (Proc.devRef Proc.tc Cert.ReferenceIdeal.main_v3 : DevRef Cert.ReferenceIdeal.τ Cert.ReferenceIdeal.sig)

namespace Agg

-- Row n of the result: the sum of the rows x e with col e = n, over the number of such edges or one.
open Cert.KernelIdeal in
def segMean (x : (⟨S200000x128, .f32⟩ : BufTy).Contents (Elt Ideal)) (col : (⟨S200000, .i32⟩ : BufTy).Contents (Elt Ideal)) :
    (⟨S50000x128, .f32⟩ : BufTy).Contents (Elt Ideal) :=
  Host.divf
    (Host.scatterAdd scatter_S50000x128_S200000x1_S200000x128_1_0_0_1
      (broadcastInDim S50000x128 ![] bcast_S_S50000x128 (constant (F := Ideal) S_ FTy.f32 0#32))
      (broadcastInDim S200000x1 ![0] bcast_S200000_S200000x1_0 col) x)
    (broadcastInDim S50000x128 ![0, 1] bcast_S50000x1_S50000x128_0_1
      (maximumf
        (Host.scatterAdd scatter_S50000x1_S200000x1_S200000x1_1_0_0_1
          (broadcastInDim S50000x1 ![] bcast_S_S50000x1 (constant (F := Ideal) S_ FTy.f32 0#32))
          (broadcastInDim S200000x1 ![0] bcast_S200000_S200000x1_0 col)
          (broadcastInDim S200000x1 ![] bcast_S_S200000x1 (constant (F := Ideal) S_ FTy.f32 1065353216#32)))
        (broadcastInDim S50000x1 ![] bcast_S_S50000x1 (constant (F := Ideal) S_ FTy.f32 1065353216#32))))

section Reference
variable (R : Valuation Cert.ReferenceIdeal.τ Cert.ReferenceIdeal.sig (Elt Ideal))

theorem meanR0 : StableHlo.after rops8 R (Proc.devRef .tc Cert.ReferenceIdeal.main_v65)
      = segMean (R (Proc.devRef .tc Cert.ReferenceIdeal.main_v54)) (R rcol) := by
  after_results
  rfl

theorem meanR1 : StableHlo.after rops18 (StableHlo.after rops17 R) (Proc.devRef .tc Cert.ReferenceIdeal.main_v165)
      = segMean (R (Proc.devRef .tc Cert.ReferenceIdeal.main_v154)) (R rcol) := by
  after_results
  rfl

theorem meanR2 : StableHlo.after rops28 (StableHlo.after rops27 R) (Proc.devRef .tc Cert.ReferenceIdeal.main_v265)
      = segMean (R (Proc.devRef .tc Cert.ReferenceIdeal.main_v254)) (R rcol) := by
  after_results
  rfl

end Reference

theorem meanK0 (V : Valuation Cert.KernelIdeal.τ Cert.KernelIdeal.sig (Elt Ideal)) :
    StableHlo.after hostOps4 V (Proc.devRef .tc Cert.KernelIdeal.main_v38)
      = segMean (V (Proc.devRef .tc Cert.KernelIdeal.main_v27)) (V (Proc.devRef .tc Cert.KernelIdeal.main_v3)) := by
  after_results_simp
  rfl

theorem meanK1 (V : Valuation Cert.KernelIdeal.τ Cert.KernelIdeal.sig (Elt Ideal)) :
    StableHlo.after hostOps7 V (Proc.devRef .tc Cert.KernelIdeal.main_v115)
      = segMean (V (Proc.devRef .tc Cert.KernelIdeal.main_v104)) (V (Proc.devRef .tc Cert.KernelIdeal.main_v3)) := by
  after_results_simp
  rfl

theorem meanK2 (V : Valuation Cert.KernelIdeal.τ Cert.KernelIdeal.sig (Elt Ideal)) :
    StableHlo.after hostOps10 V (Proc.devRef .tc Cert.KernelIdeal.main_v192)
      = segMean (V (Proc.devRef .tc Cert.KernelIdeal.main_v181)) (V (Proc.devRef .tc Cert.KernelIdeal.main_v3)) := by
  after_results_simp
  rfl

end Agg

open Agg

theorem rowcol
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    W1 m ρ c (Proc.devRef .tc Cert.KernelIdeal.main_v1) = RV0 (StableHlo.launchContents m' c) (Proc.devRef .tc Cert.ReferenceIdeal.main_v1)
    ∧ W1 m ρ c kcol = RV0 (StableHlo.launchContents m' c) rcol := by
  have e : StableHlo.launchContents m' c (Proc.devRef .tc Cert.ReferenceIdeal.main_arg1)
      = W0 m ρ c (Proc.devRef .tc Cert.KernelIdeal.main_arg1) := h1
  constructor <;> (after_results; rw [e]; rfl)

theorem agg0
    (hm : W10 m ρ c (Proc.devRef .tc Cert.KernelIdeal.main_v27) = RV7 (StableHlo.launchContents m' c) (Proc.devRef .tc Cert.ReferenceIdeal.main_v54))
    (hcol : W1 m ρ c kcol = RV0 (StableHlo.launchContents m' c) rcol) :
    W11 m ρ c (Proc.devRef .tc Cert.KernelIdeal.main_v38) = RV8 (StableHlo.launchContents m' c) (Proc.devRef .tc Cert.ReferenceIdeal.main_v65) :=
  (meanK0 (W10 m ρ c)).trans (by
    rw [hm, EdgeIdx.k10 m ρ c (.inr rfl), hcol, ← EdgeIdx.r7 _ (.inr rfl)]; exact (meanR0 _).symm)

theorem agg1
    (hm : W23 m ρ c (Proc.devRef .tc Cert.KernelIdeal.main_v104) = RV16 (StableHlo.launchContents m' c) (Proc.devRef .tc Cert.ReferenceIdeal.main_v154))
    (hcol : W1 m ρ c kcol = RV0 (StableHlo.launchContents m' c) rcol) :
    W24 m ρ c (Proc.devRef .tc Cert.KernelIdeal.main_v115) = RV18 (StableHlo.launchContents m' c) (Proc.devRef .tc Cert.ReferenceIdeal.main_v165) :=
  (meanK1 (W23 m ρ c)).trans (by
    rw [hm, EdgeIdx.k23 m ρ c (.inr rfl), hcol, ← EdgeIdx.r16 _ (.inr rfl)]; exact (meanR1 _).symm)

theorem agg2
    (hm : W36 m ρ c (Proc.devRef .tc Cert.KernelIdeal.main_v181) = RV26 (StableHlo.launchContents m' c) (Proc.devRef .tc Cert.ReferenceIdeal.main_v254))
    (hcol : W1 m ρ c kcol = RV0 (StableHlo.launchContents m' c) rcol) :
    W37 m ρ c (Proc.devRef .tc Cert.KernelIdeal.main_v192) = RV28 (StableHlo.launchContents m' c) (Proc.devRef .tc Cert.ReferenceIdeal.main_v265) :=
  (meanK2 (W36 m ρ c)).trans (by
    rw [hm, EdgeIdx.k36 m ρ c (.inr rfl), hcol, ← EdgeIdx.r26 _ (.inr rfl)]; exact (meanR2 _).symm)

end Cert.Bridge
end
-- ==== Proof.Norm.lean ====
import proofs.«412421_j54589034332476_1_alg».proof.Proof.Kept
import proofs.«412421_j54589034332476_1_alg».proof.Proof.RefArgs
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

namespace Cert.Bridge.Norm

/-- The kernel program numbers its values in the order they are computed: the host stretches after a value is written write larger indices only. -/
theorem kfroms : [Cert.KernelIdeal.Gen.hostOps3 (F := Ideal), Cert.KernelIdeal.Gen.hostOps4, Cert.KernelIdeal.Gen.hostOps5, Cert.KernelIdeal.Gen.hostOps5_1].Forall (From 83)
    ∧ [Cert.KernelIdeal.Gen.hostOps5_3 (F := Ideal), Cert.KernelIdeal.Gen.hostOps5_4, Cert.KernelIdeal.Gen.hostOps5_5, Cert.KernelIdeal.Gen.hostOps5_6, Cert.KernelIdeal.Gen.hostOps5_7].Forall (From 158)
    ∧ [Cert.KernelIdeal.Gen.hostOps5_5 (F := Ideal), Cert.KernelIdeal.Gen.hostOps5_6, Cert.KernelIdeal.Gen.hostOps5_7].Forall (From 202)
    ∧ [Cert.KernelIdeal.Gen.hostOps6 (F := Ideal), Cert.KernelIdeal.Gen.hostOps7, Cert.KernelIdeal.Gen.hostOps8, Cert.KernelIdeal.Gen.hostOps8_1].Forall (From 258)
    ∧ [Cert.KernelIdeal.Gen.hostOps8_3 (F := Ideal), Cert.KernelIdeal.Gen.hostOps8_4, Cert.KernelIdeal.Gen.hostOps8_5, Cert.KernelIdeal.Gen.hostOps8_6, Cert.KernelIdeal.Gen.hostOps8_7].Forall (From 333)
    ∧ [Cert.KernelIdeal.Gen.hostOps8_5 (F := Ideal), Cert.KernelIdeal.Gen.hostOps8_6, Cert.KernelIdeal.Gen.hostOps8_7].Forall (From 377) := by
  simp only [From, Cert.KernelIdeal.Gen.hostOps3, Cert.KernelIdeal.Gen.hostOps4, Cert.KernelIdeal.Gen.hostOps5, Cert.KernelIdeal.Gen.hostOps5_1, Cert.KernelIdeal.Gen.hostOps5_3, Cert.KernelIdeal.Gen.hostOps5_4, Cert.KernelIdeal.Gen.hostOps5_5, Cert.KernelIdeal.Gen.hostOps5_6, Cert.KernelIdeal.Gen.hostOps5_7, Cert.KernelIdeal.Gen.hostOps6, Cert.KernelIdeal.Gen.hostOps7, Cert.KernelIdeal.Gen.hostOps8, Cert.KernelIdeal.Gen.hostOps8_1, Cert.KernelIdeal.Gen.hostOps8_3, Cert.KernelIdeal.Gen.hostOps8_4, Cert.KernelIdeal.Gen.hostOps8_5, Cert.KernelIdeal.Gen.hostOps8_6, Cert.KernelIdeal.Gen.hostOps8_7, List.Forall, nullary_writes, unary_writes, binary_writes, ternary_writes, quaternary_writes, reshape_writes, nary_writes, binaryIndexed_writes, unaryIndexed_writes, Finset.mem_singleton]
  repeat' apply And.intro
  all_goals exact ne_of_lt (by decide)

/-- A region changes none of the arrays it only reads. -/
theorem K10_v19 : Cert.KernelIdeal.Gen.W10 (F := Ideal) m ρ c (Proc.devRef .tc Cert.KernelIdeal.main_v19) = Cert.KernelIdeal.Gen.W9 (F := Ideal) m ρ c (Proc.devRef .tc Cert.KernelIdeal.main_v19) := by
  have h := Cert.KernelIdeal.Gen.W10_arr (F := Ideal) m ρ c (1 : Fin Cert.KernelIdeal.cfg3.W)
  rwa [Pipeline.Dat.arrAt_in _ _ (by decide), Cert.KernelIdeal.Gen.A_eq3] at h
theorem K23_v96 : Cert.KernelIdeal.Gen.W23 (F := Ideal) m ρ c (Proc.devRef .tc Cert.KernelIdeal.main_v96) = Cert.KernelIdeal.Gen.W22 (F := Ideal) m ρ c (Proc.devRef .tc Cert.KernelIdeal.main_v96) := by
  have h := Cert.KernelIdeal.Gen.W23_arr (F := Ideal) m ρ c (1 : Fin Cert.KernelIdeal.cfg6.W)
  rwa [Pipeline.Dat.arrAt_in _ _ (by decide), Cert.KernelIdeal.Gen.A_eq6] at h

theorem K14_v19 : Cert.KernelIdeal.Gen.W14 (F := Ideal) m ρ c (Proc.devRef .tc Cert.KernelIdeal.main_v19) = Cert.KernelIdeal.Gen.W8 (F := Ideal) m ρ c (Proc.devRef .tc Cert.KernelIdeal.main_v19) :=
  (From.afterL (by decide) [_, _] _ kfroms.1.2.2).trans <| (Cert.KernelIdeal.Gen.W12_of_ne m ρ c _ (by decide)).trans <|
    (kfroms.1.2.1.after (by decide) _).trans <| (K10_v19 m ρ c).trans (kfroms.1.1.after (by decide) _)
theorem K27_v96 : Cert.KernelIdeal.Gen.W27 (F := Ideal) m ρ c (Proc.devRef .tc Cert.KernelIdeal.main_v96) = Cert.KernelIdeal.Gen.W21 (F := Ideal) m ρ c (Proc.devRef .tc Cert.KernelIdeal.main_v96) :=
  (From.afterL (by decide) [_, _] _ kfroms.2.2.2.1.2.2).trans <| (Cert.KernelIdeal.Gen.W25_of_ne m ρ c _ (by decide)).trans <|
    (kfroms.2.2.2.1.2.1.after (by decide) _).trans <| (K23_v96 m ρ c).trans (kfroms.2.2.2.1.1.after (by decide) _)

/-- A valuation that is the fold of pieces `i`, …, `i + n - 1` over `V` agrees with `V` at a reference those pieces do not write. -/
theorem rkept {i t : ℕ} (h : ((Cert.ReferenceIdeal.Ops.pieces (F := Ideal)).drop i).Forall (From t)) (n : ℕ) {b : Ref Cert.ReferenceIdeal.sig .tc} (hb : b.idx.1 < t)
    (V : Valuation Cert.ReferenceIdeal.τ Cert.ReferenceIdeal.sig (Elt Ideal)) {X : Valuation Cert.ReferenceIdeal.τ Cert.ReferenceIdeal.sig (Elt Ideal)}
    (e : X = afterL ((Cert.ReferenceIdeal.Ops.pieces.drop i).take n) V) : X (Proc.devRef .tc b) = V (Proc.devRef .tc b) :=
  e ▸ Cert.ReferenceIdeal.Ops.kept h n hb V

theorem bnh_core0 (V : Valuation Cert.KernelIdeal.τ Cert.KernelIdeal.sig (Elt Ideal)) (V' : Valuation Cert.ReferenceIdeal.τ Cert.ReferenceIdeal.sig (Elt Ideal))
    (hx : V (Proc.devRef .tc Cert.KernelIdeal.main_v46) = V' (Proc.devRef .tc Cert.ReferenceIdeal.main_v75))
    (hg : V (Proc.devRef .tc Cert.KernelIdeal.main_arg13) = V' (Proc.devRef .tc Cert.ReferenceIdeal.main_arg13))
    (hb : V (Proc.devRef .tc Cert.KernelIdeal.main_arg14) = V' (Proc.devRef .tc Cert.ReferenceIdeal.main_arg14)) :
    (StableHlo.after (Cert.KernelIdeal.Gen.hostOps5_2 (F := Ideal)) (StableHlo.after (Cert.KernelIdeal.Gen.hostOps5_1 (F := Ideal)) (StableHlo.after (Cert.KernelIdeal.Gen.hostOps5 (F := Ideal)) V))) (Proc.devRef .tc Cert.KernelIdeal.main_v65)
      = (StableHlo.after (Cert.ReferenceIdeal.Ops.rops10 (F := Ideal)) V') (Proc.devRef .tc Cert.ReferenceIdeal.main_v94) := by
  after_results_simp
  simp only [TRef.ofBuf, TRef.toBuf, cast_eq]
  rw [hx, hg, hb]

set_option maxHeartbeats 1000000 in
theorem bne_core0 (V : Valuation Cert.KernelIdeal.τ Cert.KernelIdeal.sig (Elt Ideal)) (V' : Valuation Cert.ReferenceIdeal.τ Cert.ReferenceIdeal.sig (Elt Ideal))
    (hx : V (Proc.devRef .tc Cert.KernelIdeal.main_v19) = V' (Proc.devRef .tc Cert.ReferenceIdeal.main_v37))
    (hg : V (Proc.devRef .tc Cert.KernelIdeal.main_arg15) = V' (Proc.devRef .tc Cert.ReferenceIdeal.main_arg15))
    (hb : V (Proc.devRef .tc Cert.KernelIdeal.main_arg16) = V' (Proc.devRef .tc Cert.ReferenceIdeal.main_arg16)) :
    (StableHlo.after (Cert.KernelIdeal.Gen.hostOps5_4 (F := Ideal)) (StableHlo.after (Cert.KernelIdeal.Gen.hostOps5_3 (F := Ideal)) (StableHlo.after (Cert.KernelIdeal.Gen.hostOps5_2 (F := Ideal)) V))) (Proc.devRef .tc Cert.KernelIdeal.main_v84)
      = (StableHlo.after (Cert.ReferenceIdeal.Ops.rops12 (F := Ideal)) (StableHlo.after (Cert.ReferenceIdeal.Ops.rops11 (F := Ideal)) V')) (Proc.devRef .tc Cert.ReferenceIdeal.main_v113) := by
  after_results_simp
  simp only [TRef.ofBuf, TRef.toBuf, cast_eq]
  rw [hx, hg, hb]

theorem bnh_core1 (V : Valuation Cert.KernelIdeal.τ Cert.KernelIdeal.sig (Elt Ideal)) (V' : Valuation Cert.ReferenceIdeal.τ Cert.ReferenceIdeal.sig (Elt Ideal))
    (hx : V (Proc.devRef .tc Cert.KernelIdeal.main_v123) = V' (Proc.devRef .tc Cert.ReferenceIdeal.main_v175))
    (hg : V (Proc.devRef .tc Cert.KernelIdeal.main_arg13) = V' (Proc.devRef .tc Cert.ReferenceIdeal.main_arg13))
    (hb : V (Proc.devRef .tc Cert.KernelIdeal.main_arg14) = V' (Proc.devRef .tc Cert.ReferenceIdeal.main_arg14)) :
    (StableHlo.after (Cert.KernelIdeal.Gen.hostOps8_2 (F := Ideal)) (StableHlo.after (Cert.KernelIdeal.Gen.hostOps8_1 (F := Ideal)) (StableHlo.after (Cert.KernelIdeal.Gen.hostOps8 (F := Ideal)) V))) (Proc.devRef .tc Cert.KernelIdeal.main_v142)
      = (StableHlo.after (Cert.ReferenceIdeal.Ops.rops20 (F := Ideal)) V') (Proc.devRef .tc Cert.ReferenceIdeal.main_v194) := by
  after_results_simp
  simp only [TRef.ofBuf, TRef.toBuf, cast_eq]
  rw [hx, hg, hb]

set_option maxHeartbeats 1000000 in
theorem bne_core1 (V : Valuation Cert.KernelIdeal.τ Cert.KernelIdeal.sig (Elt Ideal)) (V' : Valuation Cert.ReferenceIdeal.τ Cert.ReferenceIdeal.sig (Elt Ideal))
    (hx : V (Proc.devRef .tc Cert.KernelIdeal.main_v96) = V' (Proc.devRef .tc Cert.ReferenceIdeal.main_v137))
    (hg : V (Proc.devRef .tc Cert.KernelIdeal.main_arg15) = V' (Proc.devRef .tc Cert.ReferenceIdeal.main_arg15))
    (hb : V (Proc.devRef .tc Cert.KernelIdeal.main_arg16) = V' (Proc.devRef .tc Cert.ReferenceIdeal.main_arg16)) :
    (StableHlo.after (Cert.KernelIdeal.Gen.hostOps8_4 (F := Ideal)) (StableHlo.after (Cert.KernelIdeal.Gen.hostOps8_3 (F := Ideal)) (StableHlo.after (Cert.KernelIdeal.Gen.hostOps8_2 (F := Ideal)) V))) (Proc.devRef .tc Cert.KernelIdeal.main_v161)
      = (StableHlo.after (Cert.ReferenceIdeal.Ops.rops22 (F := Ideal)) (StableHlo.after (Cert.ReferenceIdeal.Ops.rops21 (F := Ideal)) V')) (Proc.devRef .tc Cert.ReferenceIdeal.main_v213) := by
  after_results_simp
  simp only [TRef.ofBuf, TRef.toBuf, cast_eq]
  rw [hx, hg, hb]

end Cert.Bridge.Norm

namespace Cert.Bridge

open Cert.Bridge.Norm

theorem bnh0
    (hx : Cert.KernelIdeal.Gen.W12 (F := Ideal) m ρ c (Proc.devRef .tc Cert.KernelIdeal.main_v46) = Cert.ReferenceIdeal.Ops.RV9 (F := Ideal) (StableHlo.launchContents m' c) (Proc.devRef .tc Cert.ReferenceIdeal.main_v75))
    (h13 : m' ((c : Thread Cert.ReferenceIdeal.nD Cert.ReferenceIdeal.τ).loc Cert.ReferenceIdeal.main_arg13) = m ((c : Thread Cert.KernelIdeal.nD Cert.KernelIdeal.τ).loc Cert.KernelIdeal.main_arg13))
    (h14 : m' ((c : Thread Cert.ReferenceIdeal.nD Cert.ReferenceIdeal.τ).loc Cert.ReferenceIdeal.main_arg14) = m ((c : Thread Cert.KernelIdeal.nD Cert.KernelIdeal.τ).loc Cert.KernelIdeal.main_arg14)) :
    Cert.KernelIdeal.Gen.W20 (F := Ideal) m ρ c (Proc.devRef .tc Cert.KernelIdeal.main_v65) = Cert.ReferenceIdeal.Ops.RV10 (F := Ideal) (StableHlo.launchContents m' c) (Proc.devRef .tc Cert.ReferenceIdeal.main_v94) := by
  refine (From.afterL (by decide) _ _ kfroms.2.1).trans (bnh_core0 _ _ hx ?_ ?_)
  · exact (Kept.at12 m ρ (b := Cert.KernelIdeal.main_arg13) (by decide) c).trans (h13.symm.trans (rkept Cert.ReferenceIdeal.Ops.froms.1 10 (b := Cert.ReferenceIdeal.main_arg13) (by decide) (StableHlo.launchContents m' c) (X := (Cert.ReferenceIdeal.Ops.RV9 (F := Ideal) (StableHlo.launchContents m' c))) rfl).symm)
  · exact (Kept.at12 m ρ (b := Cert.KernelIdeal.main_arg14) (by decide) c).trans (h14.symm.trans (rkept Cert.ReferenceIdeal.Ops.froms.1 10 (b := Cert.ReferenceIdeal.main_arg14) (by decide) (StableHlo.launchContents m' c) (X := (Cert.ReferenceIdeal.Ops.RV9 (F := Ideal) (StableHlo.launchContents m' c))) rfl).symm)

theorem bne0
    (hx : Cert.KernelIdeal.Gen.W8 (F := Ideal) m ρ c (Proc.devRef .tc Cert.KernelIdeal.main_v19) = Cert.ReferenceIdeal.Ops.RV4 (F := Ideal) (StableHlo.launchContents m' c) (Proc.devRef .tc Cert.ReferenceIdeal.main_v37))
    (h15 : m' ((c : Thread Cert.ReferenceIdeal.nD Cert.ReferenceIdeal.τ).loc Cert.ReferenceIdeal.main_arg15) = m ((c : Thread Cert.KernelIdeal.nD Cert.KernelIdeal.τ).loc Cert.KernelIdeal.main_arg15))
    (h16 : m' ((c : Thread Cert.ReferenceIdeal.nD Cert.ReferenceIdeal.τ).loc Cert.ReferenceIdeal.main_arg16) = m ((c : Thread Cert.KernelIdeal.nD Cert.KernelIdeal.τ).loc Cert.KernelIdeal.main_arg16)) :
    Cert.KernelIdeal.Gen.W20 (F := Ideal) m ρ c (Proc.devRef .tc Cert.KernelIdeal.main_v84) = Cert.ReferenceIdeal.Ops.RV12 (F := Ideal) (StableHlo.launchContents m' c) (Proc.devRef .tc Cert.ReferenceIdeal.main_v113) := by
  refine (From.afterL (by decide) _ _ kfroms.2.2.1).trans (bne_core0 _ _ ?_ ?_ ?_)
  · exact (K14_v19 m ρ c).trans (hx.trans (rkept Cert.ReferenceIdeal.Ops.froms.2.1 6 (b := Cert.ReferenceIdeal.main_v37) (by decide) (Cert.ReferenceIdeal.Ops.RV4 (F := Ideal) (StableHlo.launchContents m' c)) (X := (Cert.ReferenceIdeal.Ops.RV10 (F := Ideal) (StableHlo.launchContents m' c))) rfl).symm)
  · exact (Kept.at14 m ρ (b := Cert.KernelIdeal.main_arg15) (by decide) c).trans (h15.symm.trans (rkept Cert.ReferenceIdeal.Ops.froms.1 11 (b := Cert.ReferenceIdeal.main_arg15) (by decide) (StableHlo.launchContents m' c) (X := (Cert.ReferenceIdeal.Ops.RV10 (F := Ideal) (StableHlo.launchContents m' c))) rfl).symm)
  · exact (Kept.at14 m ρ (b := Cert.KernelIdeal.main_arg16) (by decide) c).trans (h16.symm.trans (rkept Cert.ReferenceIdeal.Ops.froms.1 11 (b := Cert.ReferenceIdeal.main_arg16) (by decide) (StableHlo.launchContents m' c) (X := (Cert.ReferenceIdeal.Ops.RV10 (F := Ideal) (StableHlo.launchContents m' c))) rfl).symm)

theorem bnh1
    (hx : Cert.KernelIdeal.Gen.W25 (F := Ideal) m ρ c (Proc.devRef .tc Cert.KernelIdeal.main_v123) = Cert.ReferenceIdeal.Ops.RV19 (F := Ideal) (StableHlo.launchContents m' c) (Proc.devRef .tc Cert.ReferenceIdeal.main_v175))
    (h13 : m' ((c : Thread Cert.ReferenceIdeal.nD Cert.ReferenceIdeal.τ).loc Cert.ReferenceIdeal.main_arg13) = m ((c : Thread Cert.KernelIdeal.nD Cert.KernelIdeal.τ).loc Cert.KernelIdeal.main_arg13))
    (h14 : m' ((c : Thread Cert.ReferenceIdeal.nD Cert.ReferenceIdeal.τ).loc Cert.ReferenceIdeal.main_arg14) = m ((c : Thread Cert.KernelIdeal.nD Cert.KernelIdeal.τ).loc Cert.KernelIdeal.main_arg14)) :
    Cert.KernelIdeal.Gen.W33 (F := Ideal) m ρ c (Proc.devRef .tc Cert.KernelIdeal.main_v142) = Cert.ReferenceIdeal.Ops.RV20 (F := Ideal) (StableHlo.launchContents m' c) (Proc.devRef .tc Cert.ReferenceIdeal.main_v194) := by
  refine (From.afterL (by decide) _ _ kfroms.2.2.2.2.1).trans (bnh_core1 _ _ hx ?_ ?_)
  · exact (Kept.at25 m ρ (b := Cert.KernelIdeal.main_arg13) (by decide) c).trans (h13.symm.trans (rkept Cert.ReferenceIdeal.Ops.froms.1 20 (b := Cert.ReferenceIdeal.main_arg13) (by decide) (StableHlo.launchContents m' c) (X := (Cert.ReferenceIdeal.Ops.RV19 (F := Ideal) (StableHlo.launchContents m' c))) rfl).symm)
  · exact (Kept.at25 m ρ (b := Cert.KernelIdeal.main_arg14) (by decide) c).trans (h14.symm.trans (rkept Cert.ReferenceIdeal.Ops.froms.1 20 (b := Cert.ReferenceIdeal.main_arg14) (by decide) (StableHlo.launchContents m' c) (X := (Cert.ReferenceIdeal.Ops.RV19 (F := Ideal) (StableHlo.launchContents m' c))) rfl).symm)

theorem bne1
    (hx : Cert.KernelIdeal.Gen.W21 (F := Ideal) m ρ c (Proc.devRef .tc Cert.KernelIdeal.main_v96) = Cert.ReferenceIdeal.Ops.RV14 (F := Ideal) (StableHlo.launchContents m' c) (Proc.devRef .tc Cert.ReferenceIdeal.main_v137))
    (h15 : m' ((c : Thread Cert.ReferenceIdeal.nD Cert.ReferenceIdeal.τ).loc Cert.ReferenceIdeal.main_arg15) = m ((c : Thread Cert.KernelIdeal.nD Cert.KernelIdeal.τ).loc Cert.KernelIdeal.main_arg15))
    (h16 : m' ((c : Thread Cert.ReferenceIdeal.nD Cert.ReferenceIdeal.τ).loc Cert.ReferenceIdeal.main_arg16) = m ((c : Thread Cert.KernelIdeal.nD Cert.KernelIdeal.τ).loc Cert.KernelIdeal.main_arg16)) :
    Cert.KernelIdeal.Gen.W33 (F := Ideal) m ρ c (Proc.devRef .tc Cert.KernelIdeal.main_v161) = Cert.ReferenceIdeal.Ops.RV22 (F := Ideal) (StableHlo.launchContents m' c) (Proc.devRef .tc Cert.ReferenceIdeal.main_v213) := by
  refine (From.afterL (by decide) _ _ kfroms.2.2.2.2.2).trans (bne_core1 _ _ ?_ ?_ ?_)
  · exact (K27_v96 m ρ c).trans (hx.trans (rkept Cert.ReferenceIdeal.Ops.froms.2.2 6 (b := Cert.ReferenceIdeal.main_v137) (by decide) (Cert.ReferenceIdeal.Ops.RV14 (F := Ideal) (StableHlo.launchContents m' c)) (X := (Cert.ReferenceIdeal.Ops.RV20 (F := Ideal) (StableHlo.launchContents m' c))) rfl).symm)
  · exact (Kept.at27 m ρ (b := Cert.KernelIdeal.main_arg15) (by decide) c).trans (h15.symm.trans (rkept Cert.ReferenceIdeal.Ops.froms.1 21 (b := Cert.ReferenceIdeal.main_arg15) (by decide) (StableHlo.launchContents m' c) (X := (Cert.ReferenceIdeal.Ops.RV20 (F := Ideal) (StableHlo.launchContents m' c))) rfl).symm)
  · exact (Kept.at27 m ρ (b := Cert.KernelIdeal.main_arg16) (by decide) c).trans (h16.symm.trans (rkept Cert.ReferenceIdeal.Ops.froms.1 21 (b := Cert.ReferenceIdeal.main_arg16) (by decide) (StableHlo.launchContents m' c) (X := (Cert.ReferenceIdeal.Ops.RV20 (F := Ideal) (StableHlo.launchContents m' c))) rfl).symm)

end Cert.Bridge

end
-- ==== Proof.Readout.lean ====
import proofs.«412421_j54589034332476_1_alg».proof.Proof.Gen.KernelIdeal.Frame
import proofs.«412421_j54589034332476_1_alg».proof.Proof.RefArgs
import Idealize.ShloMosaic.PureOps.Ideal.Laws
import Idealize.ShloMosaic.Lib.StableHlo.Run
import proofs.«412421_j54589034332476_1_alg».proof.Proof.Kept
noncomputable section
namespace Cert.Bridge
open Idealize.ShloMosaic Idealize.ShloMosaic.TcCoe Idealize.SL.Sem Idealize.ShloMosaic.StableHlo
open Cert Cert.KernelIdeal.Gen Cert.ReferenceIdeal.Ops

namespace Readout

theorem keeps {τ : Topo} {sig : RefSig} {Val : EltTy → Type} {ops : List (HloOp τ sig Val)} {V : Valuation τ sig Val}
    {b : DevRef τ sig} (h : ops.Forall fun op => b ∉ op.writes) : after ops V b = V b :=
  after_of_forall_not_mem ops V (List.forall_iff_forall_mem.mp h)

local macro "keeps_side" : tactic =>
  `(tactic| (simp only [List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
             repeat' apply And.intro
             all_goals exact StableHlo.devRef_ne_of_ne (by decide)))

def cat2 {α : Type} (t : Shape) (ax : Fin t.rank) (s₁ s₂ : Shape) (h : Shape.Concatenates [s₁, s₂] t ax)
    (a : s₁.Idx → α) (b : s₂.Idx → α) : t.Idx → α := concatenate t ax [⟨s₁, a⟩, ⟨s₂, b⟩] h

theorem concatenate_pair {α : Type} (t : Shape) (ax : Fin t.rank) (s₁ s₂ : Shape) (h : Shape.Concatenates [s₁, s₂] t ax)
    (a : s₁.Idx → α) (b : s₂.Idx → α) : concatenate t ax [⟨s₁, a⟩, ⟨s₂, b⟩] h = cat2 t ax s₁ s₂ h a b := rfl

/-- Both programs end with the same operations on four arrays, each writing a fresh buffer: equal arrays give equal results. -/
theorem core (X : Valuation KernelIdeal.τ KernelIdeal.sig (Elt Ideal)) (Y : Valuation ReferenceIdeal.τ ReferenceIdeal.sig (Elt Ideal))
    (hh : X (Proc.devRef .tc KernelIdeal.main_v200) = Y (Proc.devRef .tc ReferenceIdeal.main_v275))
    (he : X (Proc.devRef .tc KernelIdeal.main_v173) = Y (Proc.devRef .tc ReferenceIdeal.main_v237))
    (h17 : X (Proc.devRef .tc KernelIdeal.main_arg17) = Y (Proc.devRef .tc ReferenceIdeal.main_arg17))
    (h18 : X (Proc.devRef .tc KernelIdeal.main_arg18) = Y (Proc.devRef .tc ReferenceIdeal.main_arg18)) :
    after hostOps11 X (Proc.devRef .tc KernelIdeal.main_v212) = after rops30 Y (Proc.devRef .tc ReferenceIdeal.main_v287) := by
  simp (disch := decide) only [after_cons, after_nil, nullary_result', unary_result', binary_result',
    nullary_result_ne', unary_result_ne', binary_result_ne', concatenate_pair]
  rw [hh, he, h17, h18]
  rfl

variable (m' : (ℓ : Loc ReferenceIdeal.nD ReferenceIdeal.τ ReferenceIdeal.sig) → Buf (Elt Ideal) ℓ) (c : Dev ReferenceIdeal.nD)

/-- After round 2's edge piece no piece of the reference writes the last edge features. -/
theorem ref_v237 : RV29 (F := Ideal) (launchContents m' c) (Proc.devRef .tc ReferenceIdeal.main_v237)
    = RV24 (F := Ideal) (launchContents m' c) (Proc.devRef .tc ReferenceIdeal.main_v237) := by
  iterate 5 (refine (keeps ?_).trans ?_; · keeps_side)
  rfl

variable (m : (ℓ : Loc KernelIdeal.nD KernelIdeal.τ KernelIdeal.sig) → Buf (Elt Ideal) ℓ) (ρ : Dev KernelIdeal.nD → PrngReg)
  (d : Dev KernelIdeal.nD)

/-- After round 2's edge layer nothing writes the last edge features. -/
theorem ker_v173 : W38 (F := Ideal) m ρ d (Proc.devRef .tc KernelIdeal.main_v173)
    = W34 (F := Ideal) m ρ d (Proc.devRef .tc KernelIdeal.main_v173) :=
  (W38_of_ne m ρ d KernelIdeal.main_v173 (by decide)).trans
    ((keeps (ops := hostOps10) (V := W36 (F := Ideal) m ρ d) (by keeps_side)).trans
      (((W36_arr m ρ d 1).trans ((Pipeline.Dat.arrAt_in (dat9 (V35 m ρ) d) 1 rfl _).trans (A_eq9 (V35 m ρ) d 1))).trans
        (keeps (ops := hostOps9) (V := W34 (F := Ideal) m ρ d) (b := Proc.devRef .tc KernelIdeal.main_v173) (by keeps_side))))

end Readout

theorem readout (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hh : Cert.KernelIdeal.Gen.W38 (F := Ideal) m ρ c (Proc.devRef .tc Cert.KernelIdeal.main_v200)
      = Cert.ReferenceIdeal.Ops.RV29 (F := Ideal) (StableHlo.launchContents m' c) (Proc.devRef .tc Cert.ReferenceIdeal.main_v275))
    (he : Cert.KernelIdeal.Gen.W34 (F := Ideal) m ρ c (Proc.devRef .tc Cert.KernelIdeal.main_v173)
      = Cert.ReferenceIdeal.Ops.RV24 (F := Ideal) (StableHlo.launchContents m' c) (Proc.devRef .tc Cert.ReferenceIdeal.main_v237))
    (h17 : m' ((c : Thread Cert.ReferenceIdeal.nD Cert.ReferenceIdeal.τ).loc Cert.ReferenceIdeal.main_arg17)
      = m ((c : Thread Cert.KernelIdeal.nD Cert.KernelIdeal.τ).loc Cert.KernelIdeal.main_arg17))
    (h18 : m' ((c : Thread Cert.ReferenceIdeal.nD Cert.ReferenceIdeal.τ).loc Cert.ReferenceIdeal.main_arg18)
      = m ((c : Thread Cert.KernelIdeal.nD Cert.KernelIdeal.τ).loc Cert.KernelIdeal.main_arg18)) :
    Cert.KernelIdeal.Gen.W39 (F := Ideal) m ρ c (Proc.devRef .tc Cert.KernelIdeal.main_v212)
      = Cert.ReferenceIdeal.Ops.RV30 (F := Ideal) (StableHlo.launchContents m' c) (Proc.devRef .tc Cert.ReferenceIdeal.main_v287) :=
  Readout.core (W38 (F := Ideal) m ρ c) (RV29 (F := Ideal) (launchContents m' c)) hh
    ((Readout.ker_v173 m ρ c).trans (he.trans (Readout.ref_v237 m' c).symm))
    ((Kept.at38 m ρ (b := KernelIdeal.main_arg17) (by decide) c).trans (h17.symm.trans (kept froms.1 30 (b := ReferenceIdeal.main_arg17) (by decide) (launchContents m' c)).symm))
    ((Kept.at38 m ρ (b := KernelIdeal.main_arg18) (by decide) c).trans (h18.symm.trans (kept froms.1 30 (b := ReferenceIdeal.main_arg18) (by decide) (launchContents m' c)).symm))

end Cert.Bridge
end
-- ==== Proof.lean ====
/- At the ideal instance the kernel program and the reference compute the same arrays stage by stage: the two
   encoders, then in each of three rounds the two gathers, the edge, message and node layers, the segment mean and the
   batch norms, then the readout. A layer's sum over the concatenated operand is one sum per 128-row block of the
   weights, and a gather by an index in [0, 50000) never meets its out-of-range fill. -/
import proofs.«412421_j54589034332476_1_alg».proof.Defs
import proofs.«412421_j54589034332476_1_alg».proof.Proof.Gen.Kernel
import proofs.«412421_j54589034332476_1_alg».proof.Proof.Gen.Kernel.Skeleton
import proofs.«412421_j54589034332476_1_alg».proof.Proof.Gen.Kernel.Launch
import proofs.«412421_j54589034332476_1_alg».proof.Proof.Gen.Kernel.Points
import proofs.«412421_j54589034332476_1_alg».proof.Proof.Gen.Kernel.Frame
import proofs.«412421_j54589034332476_1_alg».proof.Proof.Gen.KernelIdeal
import proofs.«412421_j54589034332476_1_alg».proof.Proof.Gen.KernelIdeal.Skeleton
import proofs.«412421_j54589034332476_1_alg».proof.Proof.Gen.KernelIdeal.Launch
import proofs.«412421_j54589034332476_1_alg».proof.Proof.Gen.KernelIdeal.Points
import proofs.«412421_j54589034332476_1_alg».proof.Proof.Gen.KernelIdeal.Frame
import proofs.«412421_j54589034332476_1_alg».proof.Proof.Gen.ReferenceIdeal
import proofs.«412421_j54589034332476_1_alg».proof.Proof.Gen.Pre_finite_inputs
import proofs.«412421_j54589034332476_1_alg».proof.Proof.KRun
import proofs.«412421_j54589034332476_1_alg».proof.Proof.RefMain
import proofs.«412421_j54589034332476_1_alg».proof.Proof.RefArgs
import proofs.«412421_j54589034332476_1_alg».proof.Proof.Spec
import proofs.«412421_j54589034332476_1_alg».proof.Proof.Gath2
import proofs.«412421_j54589034332476_1_alg».proof.Proof.KEnc
import proofs.«412421_j54589034332476_1_alg».proof.Proof.REnc
import proofs.«412421_j54589034332476_1_alg».proof.Proof.KEdge
import proofs.«412421_j54589034332476_1_alg».proof.Proof.REdge
import proofs.«412421_j54589034332476_1_alg».proof.Proof.KMsg
import proofs.«412421_j54589034332476_1_alg».proof.Proof.KNode
import proofs.«412421_j54589034332476_1_alg».proof.Proof.RMsg
import proofs.«412421_j54589034332476_1_alg».proof.Proof.RNode
import proofs.«412421_j54589034332476_1_alg».proof.Proof.Take
import proofs.«412421_j54589034332476_1_alg».proof.Proof.Agg
import proofs.«412421_j54589034332476_1_alg».proof.Proof.Norm
import proofs.«412421_j54589034332476_1_alg».proof.Proof.Readout
import Idealize.ShloMosaic.Adequacy
import Idealize.ShloMosaic.Init

noncomputable section

namespace Cert.Proof

open Idealize.ShloMosaic Idealize.ShloMosaic.TcCoe Idealize.SL.Sem Idealize.ShloMosaic.StableHlo Cert.Bridge

/-- The reference writes no argument: after its run each still holds what it held at launch. -/
theorem ref_kept {mem m : (ℓ : Loc Cert.ReferenceIdeal.nD Cert.ReferenceIdeal.τ Cert.ReferenceIdeal.sig) → Buf (Elt Ideal) ℓ}
    (h : ∀ (c : Dev Cert.ReferenceIdeal.nD) (b : Ref Cert.ReferenceIdeal.sig .tc), mem ((c.tc : Thread Cert.ReferenceIdeal.nD Cert.ReferenceIdeal.τ).loc b)
      = after (Cert.ReferenceIdeal.Ops.ropsAll (F := Ideal)) (launchContents m c) (Proc.devRef .tc b))
    (c : Dev Cert.ReferenceIdeal.nD) {b : Ref Cert.ReferenceIdeal.sig .tc} (hb : b.idx.1 < 19) :
    mem ((c.tc : Thread Cert.ReferenceIdeal.nD Cert.ReferenceIdeal.τ).loc b) = m ((c.tc : Thread Cert.ReferenceIdeal.nD Cert.ReferenceIdeal.τ).loc b) :=
  (h c b).trans ((congrFun (Cert.ReferenceIdeal.Ops.after_ropsAll_eq_rops _) _).trans (Cert.ReferenceIdeal.Ops.keeps hb _))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => ⟨ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide)⟩)
    (Cert.ReferenceIdeal.Ops.run (F := Ideal) m ρ),
  trivial,
  fun m ρ m' ρ' hpre hag =>
    ⟨fun c => Cert.ReferenceIdeal.Ops.RV30 (F := Ideal) (StableHlo.launchContents m' c) (Proc.devRef .tc Cert.ReferenceIdeal.main_v287),
     (θ_run Cert.KernelIdeal.defs _ _).mono (fun _ h c => ⟨(h c).1.trans (by
      obtain ⟨h0, h1, h2, h3, h4, h5, h6, h7, h8, h9, h10, h11, h12, h13, h14, h15, h16, h17, h18⟩ := hag c
      obtain ⟨hrow, hcol⟩ := rowcol m ρ m' c h1
      have hh0 : Cert.KernelIdeal.Gen.W2 (F := Ideal) m ρ c (Proc.devRef .tc Cert.KernelIdeal.main_v5) = Cert.ReferenceIdeal.Ops.RV1 (F := Ideal) (StableHlo.launchContents m' c) (Proc.devRef .tc Cert.ReferenceIdeal.main_v8) := by rw [k_h0 m ρ c, r_h0 m' c, h0, h3, h4]
      have he0 : Cert.KernelIdeal.Gen.W4 (F := Ideal) m ρ c (Proc.devRef .tc Cert.KernelIdeal.main_v7) = Cert.ReferenceIdeal.Ops.RV2 (F := Ideal) (StableHlo.launchContents m' c) (Proc.devRef .tc Cert.ReferenceIdeal.main_v13) := by rw [k_e0 m ρ c, r_e0 m' c, h2, h5, h6]
      have hr0 := take_hr0 m ρ m' c hpre hh0 hrow
      have hc0 := take_hc0 m ρ m' c hpre hh0 hcol
      have he1 : Cert.KernelIdeal.Gen.W8 (F := Ideal) m ρ c (Proc.devRef .tc Cert.KernelIdeal.main_v19) = Cert.ReferenceIdeal.Ops.RV4 (F := Ideal) (StableHlo.launchContents m' c) (Proc.devRef .tc Cert.ReferenceIdeal.main_v37) := by rw [k_e1 m ρ c, r_e1 m' c, hr0, hc0, he0, h7, h8]
      have hm1 : Cert.KernelIdeal.Gen.W10 (F := Ideal) m ρ c (Proc.devRef .tc Cert.KernelIdeal.main_v27) = Cert.ReferenceIdeal.Ops.RV7 (F := Ideal) (StableHlo.launchContents m' c) (Proc.devRef .tc Cert.ReferenceIdeal.main_v54) := by rw [k_m1 m ρ c, r_m1 m' c, gath2_0 m' c, hr0, he1, h9, h10]
      have ha1 := agg0 m ρ m' c hm1 hcol
      have hh1 : Cert.KernelIdeal.Gen.W12 (F := Ideal) m ρ c (Proc.devRef .tc Cert.KernelIdeal.main_v46) = Cert.ReferenceIdeal.Ops.RV9 (F := Ideal) (StableHlo.launchContents m' c) (Proc.devRef .tc Cert.ReferenceIdeal.main_v75) := by rw [k_h1 m ρ c, r_h1 m' c, hh0, ha1, h11, h12]
      have hbh1 := bnh0 m ρ m' c hh1 h13 h14
      have hbe1 := bne0 m ρ m' c he1 h15 h16
      have hr1 := take_hr1 m ρ m' c hpre hbh1 hrow
      have hc1 := take_hc1 m ρ m' c hpre hbh1 hcol
      have he2 : Cert.KernelIdeal.Gen.W21 (F := Ideal) m ρ c (Proc.devRef .tc Cert.KernelIdeal.main_v96) = Cert.ReferenceIdeal.Ops.RV14 (F := Ideal) (StableHlo.launchContents m' c) (Proc.devRef .tc Cert.ReferenceIdeal.main_v137) := by rw [k_e2 m ρ c, r_e2 m' c, hr1, hc1, hbe1, h7, h8]
      have hm2 : Cert.KernelIdeal.Gen.W23 (F := Ideal) m ρ c (Proc.devRef .tc Cert.KernelIdeal.main_v104) = Cert.ReferenceIdeal.Ops.RV16 (F := Ideal) (StableHlo.launchContents m' c) (Proc.devRef .tc Cert.ReferenceIdeal.main_v154) := by rw [k_m2 m ρ c, r_m2 m' c, gath2_1 m' c, hr1, he2, h9, h10]
      have ha2 := agg1 m ρ m' c hm2 hcol
      have hh2 : Cert.KernelIdeal.Gen.W25 (F := Ideal) m ρ c (Proc.devRef .tc Cert.KernelIdeal.main_v123) = Cert.ReferenceIdeal.Ops.RV19 (F := Ideal) (StableHlo.launchContents m' c) (Proc.devRef .tc Cert.ReferenceIdeal.main_v175) := by rw [k_h2 m ρ c, r_h2 m' c, hbh1, ha2, h11, h12]
      have hbh2 := bnh1 m ρ m' c hh2 h13 h14
      have hbe2 := bne1 m ρ m' c he2 h15 h16
      have hr2 := take_hr2 m ρ m' c hpre hbh2 hrow
      have hc2 := take_hc2 m ρ m' c hpre hbh2 hcol
      have he3 : Cert.KernelIdeal.Gen.W34 (F := Ideal) m ρ c (Proc.devRef .tc Cert.KernelIdeal.main_v173) = Cert.ReferenceIdeal.Ops.RV24 (F := Ideal) (StableHlo.launchContents m' c) (Proc.devRef .tc Cert.ReferenceIdeal.main_v237) := by rw [k_e3 m ρ c, r_e3 m' c, hr2, hc2, hbe2, h7, h8]
      have hm3 : Cert.KernelIdeal.Gen.W36 (F := Ideal) m ρ c (Proc.devRef .tc Cert.KernelIdeal.main_v181) = Cert.ReferenceIdeal.Ops.RV26 (F := Ideal) (StableHlo.launchContents m' c) (Proc.devRef .tc Cert.ReferenceIdeal.main_v254) := by rw [k_m3 m ρ c, r_m3 m' c, gath2_2 m' c, hr2, he3, h9, h10]
      have ha3 := agg2 m ρ m' c hm3 hcol
      have hh3 : Cert.KernelIdeal.Gen.W38 (F := Ideal) m ρ c (Proc.devRef .tc Cert.KernelIdeal.main_v200) = Cert.ReferenceIdeal.Ops.RV29 (F := Ideal) (StableHlo.launchContents m' c) (Proc.devRef .tc Cert.ReferenceIdeal.main_v275) := by rw [k_h3 m ρ c, r_h3 m' c, hbh2, ha3, h11, h12]

      exact readout m ρ m' c hh3 he3 h17 h18), (h c).2⟩)
       (Cert.KernelIdeal.Named.run_named (F := Ideal) m ρ),
     (θ_run Cert.ReferenceIdeal.defs _ _).mono (fun _ h c =>
       ⟨(h c Cert.ReferenceIdeal.main_v287).trans (congrFun (Cert.ReferenceIdeal.Ops.after_rops (F := Ideal) (StableHlo.launchContents m' c)) (Proc.devRef .tc Cert.ReferenceIdeal.main_v287)),
        ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide), ref_kept h c (by decide)⟩)
       (Cert.ReferenceIdeal.Ops.run (F := Ideal) m' ρ')⟩⟩

end Cert.Proof

end
